-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg17
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x64 .f32) (main_arg16 : FVec F S64 .f32) (main_arg17 : FVec F S64x2 .f32) (main_arg18 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x2 .f32) (main_arg18 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x2 .f32) (main_arg18 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x2 .f32) (main_arg18 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S5000 : Shape := ⟨1, ![5000]⟩
abbrev S64x128 : Shape := ⟨2, ![64, 128]⟩
abbrev S64x1 : Shape := ⟨2, ![64, 1]⟩
abbrev S5000x64 : Shape := ⟨2, ![5000, 64]⟩
abbrev S64x64 : Shape := ⟨2, ![64, 64]⟩
abbrev S1x64 : Shape := ⟨2, ![1, 64]⟩
abbrev S1x2 : Shape := ⟨2, ![1, 2]⟩

abbrev nBuf : Space → Nat
  | .hbm => 81
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .bf16⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .bf16⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x128, .bf16⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .bf16⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S100000x1, .i32⟩
  | .hbm, ⟨80, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S5000x1, .i32⟩
  | .local _ .vmem, ⟨35, _⟩ => ⟨S5000x1, .i32⟩
  | .local _ .vmem, ⟨36, _⟩ => ⟨S128x64, .f32⟩
  | .local _ .vmem, ⟨37, _⟩ => ⟨S64, .f32⟩
  | .local _ .vmem, ⟨38, _⟩ => ⟨S64x2, .f32⟩
  | .local _ .vmem, ⟨39, _⟩ => ⟨S2, .f32⟩
  | .local _ .vmem, ⟨40, _⟩ => ⟨S64x2, .f32⟩
  | .local _ .vmem, ⟨41, _⟩ => ⟨S64x128, .f32⟩
  | .local _ .vmem, ⟨42, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc3_scratch0 : Ref sig .tc := ⟨.vmem, 41, rfl⟩
abbrev cc3_scratch1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v59 : BitVec 1 := Scalar.cmpi .eq arg0 c19_i32
  let v60 : BitVec 32 := Scalar.extui v59
  let c0_i32_25 : BitVec 32 := 0#32
  let v61 : BitVec 1 := Scalar.cmpi .ne v60 c0_i32_25
  v61

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S2 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x2 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .bf16 = 32 ∨ (Rect.block (s := S100000x128) S5000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .i32 = 32 ∨ (Rect.block (s := S100000x1) S5000x1.size (cc3_transform_5 i) (hinb3_5 i)).WholeWords (EltTy.packing .i32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .f32 = 32 ∨ (Rect.block (s := S128x64) S128x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x2.size a ≤ S64x2.size a
  hwx3_8 : ∀ i : grid3.Coords, EltTy.bits .f32 = 32 ∨ (Rect.block (s := S64x2) S64x2.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S2.size a ≤ S2.size a
  hwx3_9 : ∀ i : grid3.Coords, EltTy.bits .f32 = 32 ∨ (Rect.block (s := S2) S2.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x2.size a ≤ S64x2.size a
  hwx3_10 : ∀ i : grid3.Coords, EltTy.bits .f32 = 32 ∨ (Rect.block (s := S64x2) S64x2.size (cc3_transform_10 i) (hinb3_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg16) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg17) S64x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg18) S2.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v50) S64x2.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond2 i == 1#1) | ⟨_ + 11, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 235
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x64, .f32⟩
  | 16 => ⟨S64, .f32⟩
  | 17 => ⟨S64x2, .f32⟩
  | 18 => ⟨S2, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S100000x128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S_, .f32⟩
  | 14 => ⟨S100000x1, .f32⟩
  | 15 => ⟨S100000x1, .f32⟩
  | 16 => ⟨S100000x1, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x128, .f32⟩
  | 38 => ⟨S1700000x1, .f32⟩
  | 39 => ⟨S1700000x128, .f32⟩
  | 40 => ⟨S1700000x128, .f32⟩
  | 41 => ⟨S_, .f32⟩
  | 42 => ⟨S100000x128, .f32⟩
  | 43 => ⟨S1700000x1, .i32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .f32⟩
  | 66 => ⟨S100000x1, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S100000, .f32⟩
  | 82 => ⟨S_, .f32⟩
  | 83 => ⟨S64, .f32⟩
  | 84 => ⟨S100000x1, .i32⟩
  | 85 => ⟨S64, .f32⟩
  | 86 => ⟨S_, .f32⟩
  | 87 => ⟨S64x128, .f32⟩
  | 88 => ⟨S100000x1, .i32⟩
  | 89 => ⟨S64x128, .f32⟩
  | 90 => ⟨S_, .f32⟩
  | 91 => ⟨S64, .f32⟩
  | 92 => ⟨S64, .f32⟩
  | 93 => ⟨S64x1, .f32⟩
  | 94 => ⟨S64x128, .f32⟩
  | 95 => ⟨S64x128, .f32⟩
  | 96 => ⟨S64x64, .f32⟩
  | 97 => ⟨S1x64, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S64x2, .f32⟩
  | 104 => ⟨S1x2, .f32⟩
  | 105 => ⟨S64x2, .f32⟩
  | 106 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call0_cst : Ref sig .tc := ⟨.hbm, 101, rfl⟩
abbrev main_call0_v0 : Ref sig .tc := ⟨.hbm, 102, rfl⟩
abbrev main_v68 : Ref sig .tc := ⟨.hbm, 103, rfl⟩
abbrev main_v69 : Ref sig .tc := ⟨.hbm, 104, rfl⟩
abbrev main_c_12 : Ref sig .tc := ⟨.hbm, 105, rfl⟩
abbrev main_v70 : Ref sig .tc := ⟨.hbm, 106, rfl⟩
abbrev main_v71 : Ref sig .tc := ⟨.hbm, 107, rfl⟩
abbrev main_c_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call1_cst : Ref sig .tc := ⟨.hbm, 153, rfl⟩
abbrev main_call1_v0 : Ref sig .tc := ⟨.hbm, 154, rfl⟩
abbrev main_v110 : Ref sig .tc := ⟨.hbm, 155, rfl⟩
abbrev main_v111 : Ref sig .tc := ⟨.hbm, 156, rfl⟩
abbrev main_c_20 : Ref sig .tc := ⟨.hbm, 157, rfl⟩
abbrev main_v112 : Ref sig .tc := ⟨.hbm, 158, rfl⟩
abbrev main_v113 : Ref sig .tc := ⟨.hbm, 159, rfl⟩
abbrev main_c_21 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_22 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_23 : Ref sig .tc := ⟨.hbm, 176, rfl⟩
abbrev main_v128 : Ref sig .tc := ⟨.hbm, 177, rfl⟩
abbrev main_v129 : Ref sig .tc := ⟨.hbm, 178, rfl⟩
abbrev main_cst_24 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_25 : Ref sig .tc := ⟨.hbm, 185, rfl⟩
abbrev main_v135 : Ref sig .tc := ⟨.hbm, 186, rfl⟩
abbrev main_v136 : Ref sig .tc := ⟨.hbm, 187, rfl⟩
abbrev main_cst_26 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_27 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_call2_cst : Ref sig .tc := ⟨.hbm, 205, rfl⟩
abbrev main_call2_v0 : Ref sig .tc := ⟨.hbm, 206, rfl⟩
abbrev main_v152 : Ref sig .tc := ⟨.hbm, 207, rfl⟩
abbrev main_cst_28 : Ref sig .tc := ⟨.hbm, 208, rfl⟩
abbrev main_v153 : Ref sig .tc := ⟨.hbm, 209, rfl⟩
abbrev main_cst_29 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_30 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_31 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_call3_cst : Ref sig .tc := ⟨.hbm, 228, rfl⟩
abbrev main_call3_v0 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.Kernel.LaunchP.lean ====
import proofs.«427718_j18545668784934_3_alg».proof.Proof.Gen.Kernel
import Idealize.ShloMosaic.Lib.Pipeline.Kit
import Idealize.ShloMosaic.Lib.Pipeline.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 4 → List (DmaSem sig) :=
  fun | 0 => Pipeline.specSems spec0 | 1 => Pipeline.specSems spec1 | 2 => Pipeline.specSems spec2 | 3 => Pipeline.specSems spec3 | ⟨_ + 4, h⟩ => absurd h (Nat.not_lt.2 (Nat.le_add_left _ _))

theorem semsDistinct : ∀ p : Fin 4, (semTab p).Nodup := by decide

theorem semsDisjoint : ∀ p p' : Fin 4, p ≠ p' → (semTab p).Forall (· ∉ semTab p') := by decide

theorem cellOf_inj : Function.Injective (Pipeline.cellOf (nD := nD) (τ := τ) cfgs) :=
  Pipeline.cellOf_injective_of_table cfgs semTab (fun | 0 => rfl | 1 => rfl | 2 => rfl | 3 => rfl | ⟨_ + 4, h⟩ => absurd h (Nat.not_lt.2 (Nat.le_add_left _ _))) semsDistinct semsDisjoint

theorem winFacts0 : Pipeline.WinFacts spec0 := by decide

theorem block_pos0 : ∀ w : Fin 4, 0 < (spec0 w).block.numel := by decide

theorem arr_whole0 : ∀ w : Fin 4, (spec0 w).arr.IsWhole := fun | 0 => Memref.isWhole_whole _ | 1 => Memref.isWhole_whole _ | 2 => Memref.isWhole_whole _ | 3 => Memref.isWhole_whole _ | ⟨_ + 4, h⟩ => absurd h (Nat.not_lt.2 (Nat.le_add_left _ _))
theorem stage_whole0 : ∀ (w : Fin 4) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | ⟨_ + 4, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem N_0 : grid0.N = 20 := by decide

theorem bigSep_W0 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem winFacts1 : Pipeline.WinFacts spec1 := by decide

theorem block_pos1 : ∀ w : Fin 7, 0 < (spec1 w).block.numel := by decide

theorem arr_whole1 : ∀ w : Fin 7, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole1 : ∀ (w : Fin 7) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | ⟨_ + 7, h⟩ => absurd h (Nat.not_lt.2 (Nat.le_add_left _ _))

theorem launch1 : Pipeline.LaunchFacts (nD := nD) (τ := τ) cfgs 1 := ⟨cellOf_inj, winFacts1, block_pos1, arr_whole1, stage_whole1⟩

theorem N_1 : grid1.N = 20 := by decide

theorem bigSep_W1 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem winFacts2 : Pipeline.WinFacts spec2 := by decide

theorem block_pos2 : ∀ w : Fin 7, 0 < (spec2 w).block.numel := by decide

theorem arr_whole2 : ∀ w : Fin 7, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole2 : ∀ (w : Fin 7) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | 6 => fun s => hstage2_6 (s.cast nbuf2_6) | ⟨_ + 7, h⟩ => absurd h (Nat.not_lt.2 (Nat.le_add_left _ _))

theorem launch2 : Pipeline.LaunchFacts (nD := nD) (τ := τ) cfgs 2 := ⟨cellOf_inj, winFacts2, block_pos2, arr_whole2, stage_whole2⟩

theorem N_2 : grid2.N = 20 := by decide

theorem bigSep_W2 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem winFacts3 : Pipeline.WinFacts spec3 := by decide

theorem block_pos3 : ∀ w : Fin 11, 0 < (spec3 w).block.numel := by decide

theorem arr_whole3 : ∀ w : Fin 11, (spec3 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
theorem stage_whole3 : ∀ (w : Fin 11) (s : Fin (spec3 w).nbuf), ((spec3 w).stage s).IsWhole := fun | 0 => fun s => hstage3_0 (s.cast nbuf3_0) | 1 => fun s => hstage3_1 (s.cast nbuf3_1) | 2 => fun s => hstage3_2 (s.cast nbuf3_2) | 3 => fun s => hstage3_3 (s.cast nbuf3_3) | 4 => fun s => hstage3_4 (s.cast nbuf3_4) | 5 => fun s => hstage3_5 (s.cast nbuf3_5) | 6 => fun s => hstage3_6 (s.cast nbuf3_6) | 7 => fun s => hstage3_7 (s.cast nbuf3_7) | 8 => fun s => hstage3_8 (s.cast nbuf3_8) | 9 => fun s => hstage3_9 (s.cast nbuf3_9) | 10 => fun s => hstage3_10 (s.cast nbuf3_10) | ⟨_ + 11, h⟩ => absurd h (Nat.not_lt.2 (Nat.le_add_left _ _))

theorem launch3 : Pipeline.LaunchFacts (nD := nD) (τ := τ) cfgs 3 := ⟨cellOf_inj, winFacts3, block_pos3, arr_whole3, stage_whole3⟩

theorem N_3 : grid3.N = 20 := by decide

theorem bigSep_W3 {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f) ∗ (∃ f : Buf Val ((c : Thread nD τ).loc cc3_scratch1), ((c : Thread nD τ).loc cc3_scratch1) ↦{fullShare} f))
          ∗ Pipeline.scopedRestBut (Ix := Ix) (Name := Name) (U := U) (Lvl := Lvl) (Val := Val) spec3 c [cc3_scratch0, cc3_scratch1]) :=
  Pipeline.scopedRest_split_of_list spec3 c [cc3_scratch0, cc3_scratch1] (by decide) (by decide)

abbrev hostOps0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)) ]

theorem hostOps0_sub : (hostOps0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.unary_bufs_sub ..⟩

abbrev hostOps1 : List (HloOp τ sig (Elt F)) :=
  [ StableHlo.nullary main_c (constantI S_ 32 0#32),
    StableHlo.unary main_c main_v14 (broadcastInDim S1700000 ![] bcast_S_S1700000 : (⟨S_, .i32⟩ : BufTy).Contents (Elt F) → (⟨S1700000, .i32⟩ : BufTy).Contents (Elt F)),
    StableHlo.binary main_v3 main_v14 main_v15 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v16 (broadcastInDim S1700000 ![] bcast_S_S1700000 : (⟨S_, .i32⟩ : BufTy).Contents (Elt F) → (⟨S1700000, .i32⟩ : BufTy).Contents (Elt F)),
    StableHlo.binary main_v3 main_v16 main_v17 (addi : (⟨S1700000, .i32⟩ : BufTy).Contents (Elt F) → (⟨S1700000, .i32⟩ : BufTy).Contents (Elt F) → (⟨S1700000, .i32⟩ : BufTy).Contents (Elt F)),
    StableHlo.ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v18 main_v19 (broadcastInDim S1700000x1 ![0] bcast_S1700000_S1700000x1_0 : (⟨S1700000, .i32⟩ : BufTy).Contents (Elt F) → (⟨S1700000x1, .i32⟩ : BufTy).Contents (Elt F)),
    StableHlo.binary main_v13 main_v19 main_v20 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v20 main_v21 ((extf .f32 · bitsLt_bf16_f32) : (⟨S1700000x128, .bf16⟩ : BufTy).Contents (Elt F) → (⟨S1700000x128, .f32⟩ : BufTy).Contents (Elt F)),
    StableHlo.nullary main_cst_2 (constant S_ .f32 0x00000000#32),
    StableHlo.unary main_cst_2 main_v22 (broadcastInDim S100000x128 ![] bcast_S_S100000x128 : (⟨S_, .f32⟩ : BufTy).Contents (Elt F) → (⟨S100000x128, .f32⟩ : BufTy).Contents (Elt F)),
    StableHlo.unary main_v6 main_v23 (broadcastInDim S1700000x1 ![0] bcast_S1700000_S1700000x1_0 : (⟨S1700000, .i32⟩ : BufTy).Contents (Elt F) → (⟨S1700000x1, .i32⟩ : BufTy).Contents (Elt F)),
    StableHlo.ternary main_v22 main_v23 main_v21 main_v24 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

theorem hostOps1_sub : (hostOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps2 : List (HloOp τ sig (Elt F)) :=
  [ StableHlo.nullary main_c_3 (constantI S_ 32 0#32),
    StableHlo.unary main_c_3 main_v26 (broadcastInDim S1700000 ![] bcast_S_S1700000 : (⟨S_, .i32⟩ : BufTy).Contents (Elt F) → (⟨S1700000, .i32⟩ : BufTy).Contents (Elt F)),
    StableHlo.binary main_v3 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v3 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v25 main_v31 main_v32 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v32 main_v33 ((extf .f32 · bitsLt_bf16_f32) : (⟨S1700000x128, .bf16⟩ : BufTy).Contents (Elt F) → (⟨S1700000x128, .f32⟩ : BufTy).Contents (Elt F)),
    StableHlo.nullary main_cst_5 (constant S_ .f32 0x00000000#32),
    StableHlo.unary main_cst_5 main_v34 (broadcastInDim S100000x128 ![] bcast_S_S100000x128 : (⟨S_, .f32⟩ : BufTy).Contents (Elt F) → (⟨S100000x128, .f32⟩ : BufTy).Contents (Elt F)),
    StableHlo.unary main_v6 main_v35 (broadcastInDim S1700000x1 ![0] bcast_S1700000_S1700000x1_0 : (⟨S1700000, .i32⟩ : BufTy).Contents (Elt F) → (⟨S1700000x1, .i32⟩ : BufTy).Contents (Elt F)),
    StableHlo.ternary main_v34 main_v35 main_v33 main_v36 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

theorem hostOps2_sub : (hostOps2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps3 : List (HloOp τ sig (Elt F)) :=
  [ StableHlo.nullary main_c_6 (constantI S_ 32 0#32),
    StableHlo.unary main_c_6 main_v38 (broadcastInDim S1700000 ![] bcast_S_S1700000 : (⟨S_, .i32⟩ : BufTy).Contents (Elt F) → (⟨S1700000, .i32⟩ : BufTy).Contents (Elt F)),
    StableHlo.binary main_v3 main_v38 main_v39 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v40 (broadcastInDim S1700000 ![] bcast_S_S1700000 : (⟨S_, .i32⟩ : BufTy).Contents (Elt F) → (⟨S1700000, .i32⟩ : BufTy).Contents (Elt F)),
    StableHlo.binary main_v3 main_v40 main_v41 (addi : (⟨S1700000, .i32⟩ : BufTy).Contents (Elt F) → (⟨S1700000, .i32⟩ : BufTy).Contents (Elt F) → (⟨S1700000, .i32⟩ : BufTy).Contents (Elt F)),
    StableHlo.ternary main_v39 main_v41 main_v3 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v42 main_v43 (broadcastInDim S1700000x1 ![0] bcast_S1700000_S1700000x1_0 : (⟨S1700000, .i32⟩ : BufTy).Contents (Elt F) → (⟨S1700000x1, .i32⟩ : BufTy).Contents (Elt F)),
    StableHlo.binary main_v37 main_v43 main_v44 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v44 main_v45 ((extf .f32 · bitsLt_bf16_f32) : (⟨S1700000x128, .bf16⟩ : BufTy).Contents (Elt F) → (⟨S1700000x128, .f32⟩ : BufTy).Contents (Elt F)),
    StableHlo.nullary main_cst_8 (constant S_ .f32 0x00000000#32),
    StableHlo.unary main_cst_8 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg2 main_v49 (broadcastInDim S100000x1 ![0] bcast_S100000_S100000x1_0 : (⟨S100000, .i32⟩ : BufTy).Contents (Elt F) → (⟨S100000x1, .i32⟩ : BufTy).Contents (Elt F)) ]

theorem hostOps3_sub : (hostOps3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.unary_bufs_sub ..⟩

abbrev main_part0_ops3 : List (HloOp τ sig (Elt F)) :=
  [ StableHlo.nullary main_c_6 (constantI S_ 32 0#32),
    StableHlo.unary main_c_6 main_v38 (broadcastInDim S1700000 ![] bcast_S_S1700000 : (⟨S_, .i32⟩ : BufTy).Contents (Elt F) → (⟨S1700000, .i32⟩ : BufTy).Contents (Elt F)),
    StableHlo.binary main_v3 main_v38 main_v39 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v40 (broadcastInDim S1700000 ![] bcast_S_S1700000 : (⟨S_, .i32⟩ : BufTy).Contents (Elt F) → (⟨S1700000, .i32⟩ : BufTy).Contents (Elt F)),
    StableHlo.binary main_v3 main_v40 main_v41 (addi : (⟨S1700000, .i32⟩ : BufTy).Contents (Elt F) → (⟨S1700000, .i32⟩ : BufTy).Contents (Elt F) → (⟨S1700000, .i32⟩ : BufTy).Contents (Elt F)),
    StableHlo.ternary main_v39 main_v41 main_v3 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v42 main_v43 (broadcastInDim S1700000x1 ![0] bcast_S1700000_S1700000x1_0 : (⟨S1700000, .i32⟩ : BufTy).Contents (Elt F) → (⟨S1700000x1, .i32⟩ : BufTy).Contents (Elt F)),
    StableHlo.binary main_v37 main_v43 main_v44 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v44 main_v45 ((extf .f32 · bitsLt_bf16_f32) : (⟨S1700000x128, .bf16⟩ : BufTy).Contents (Elt F) → (⟨S1700000x128, .f32⟩ : BufTy).Contents (Elt F)),
    StableHlo.nullary main_cst_8 (constant S_ .f32 0x00000000#32),
    StableHlo.unary main_cst_8 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

theorem main_part0_chain (c : Dev nD) : main_part0 (F := F) c = (Pipeline.chainK
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ]
  (StableHlo.seq main_part0_ops3) : Prog (TpuEff nD τ sig (Elt F) (Pipeline.Sig Λ₀ (Fin 4) fun p => (pcfgs (F := F) p).Adm) .tc) PUnit) := by
  chain_rfl

abbrev main_part1_ops0 : List (HloOp τ sig (Elt F)) :=
  [ StableHlo.unary main_arg2 main_v49 (broadcastInDim S100000x1 ![0] bcast_S100000_S100000x1_0 : (⟨S100000, .i32⟩ : BufTy).Contents (Elt F) → (⟨S100000x1, .i32⟩ : BufTy).Contents (Elt F)) ]

theorem main_part1_chain (c : Dev nD) : main_part1 (F := F) c = (Pipeline.chain
  [ StableHlo.seq main_part1_ops0,
    Prog.lift (.customCall (Pipeline.entry 3) ()) ] : Prog (TpuEff nD τ sig (Elt F) (Pipeline.Sig Λ₀ (Fin 4) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()) ] : Prog (TpuEff nD τ sig (Elt F) (Pipeline.Sig Λ₀ (Fin 4) fun p => (pcfgs (F := F) p).Adm) .tc) PUnit) := by
  show (main_part0 (F := F) c >>= fun _ => main_part1 (F := F) c) = _
  rewrite [main_part1_chain, main_part0_chain, Pipeline.chainK_bind_chain]
  chain_rfl

end Cert.Kernel.Gen

end
-- ==== Proof.Kernel.Reg0.lean ====
import proofs.«427718_j18545668784934_3_alg».proof.Proof.Kernel.LaunchP
import proofs.«427718_j18545668784934_3_alg».proof.Proof.Gen.Kernel.Skeleton
import proofs.«427718_j18545668784934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S5000x128 := Rect.unit (s := S5000x128) ![0, 0] S5000x128.size inb_S5000x128_S5000x128_0_0

abbrev r0_mat : Rect S128x128 := Rect.unit (s := S128x128) ![0, 0] S128x128.size inb_S128x128_S128x128_0_0

abbrev r0_col : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .bf16 :=
  View.canon [⟨r0_rows, k0_pay1 (View.ld x0 r0_rows) (View.ld x1 r0_mat) (View.ld x2 r0_col)⟩]

theorem cover0_3 (p0 : Vec F S5000x128 .bf16) (y : S5000x128.Idx) :
    ∃ pc ∈ ([⟨r0_rows, p0⟩] : List (View.Piece (Elt F) S5000x128 .bf16)), y ∈ pc.1.set :=
  View.cover_of_wholeMem _ (View.Piece.wholeMem_here (by rfl)) y

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prescale_linear_kernel i arg1 harg1 arg2 harg2 arg3 harg3 arg4 harg4) K := by
  simp only [cc0__prescale_linear_kernel_eq_skeleton]; unfold cc0__prescale_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk

  isplitl [H0]
  · iexists f0; isplitr; · ipureintro; rfl
    iexact H0
  isplitl [H1]
  · iexists f1; isplitr; · ipureintro; rfl
    iexact H1
  isplitl [H2]
  · iexists f2; isplitr; · ipureintro; rfl
    iexact H2

  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

-- what the body finds in an input window at a point is that window's block of the entry contents
theorem before0_in (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) := by
  refine ⟨?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2⟩ := before0_in V c t
  simp only [b0, b1, b2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr
-- ==== Proof.Kernel.Reg1.lean ====
import proofs.«427718_j18545668784934_3_alg».proof.Proof.Kernel.LaunchP
import proofs.«427718_j18545668784934_3_alg».proof.Proof.Gen.Kernel.Skeleton
import proofs.«427718_j18545668784934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S5000x128 := Rect.unit (s := S5000x128) ![0, 0] S5000x128.size inb_S5000x128_S5000x128_0_0

abbrev r1_col : Rect S5000x1 := Rect.unit (s := S5000x1) ![0, 0] S5000x1.size inb_S5000x1_S5000x1_0_0

abbrev r1_vec : Rect S128 := Rect.unit (s := S128) ![0] S128.size inb_S128_S128_0

abbrev r1_mat : Rect S128x128 := Rect.unit (s := S128x128) ![0, 0] S128x128.size inb_S128x128_S128x128_0_0

def out1_6 (x0 : Vec F S5000x128 .f32) (x1 : Vec F S5000x1 .f32) (x2 : Vec F S128 .f32) (x3 : Vec F S128 .f32)
    (x4 : Vec F S128 .f32) (x5 : Vec F S128x128 .f32) : Vec F S5000x128 .bf16 :=
  View.canon [⟨r1_rows, k1_pay1
    (k1_pay2 (View.ld x0 r1_rows) (View.ld x1 r1_col) (View.ld x2 r1_vec) (View.ld x3 r1_vec) (View.ld x4 r1_vec) (View.ld x5 r1_mat))
    (k1_pay3 (View.ld x1 r1_col))⟩]

theorem cover1_6 (p0 : Vec F S5000x128 .bf16) (y : S5000x128.Idx) :
    ∃ pc ∈ ([⟨r1_rows, p0⟩] : List (View.Piece (Elt F) S5000x128 .bf16)), y ∈ pc.1.set :=
  View.cover_of_tiled [⟨r1_rows, p0⟩] S5000x128.size (by rfl) y

set_option maxHeartbeats 4000000 in

theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S5000x128 .bf16) (harg7 : arg7.IsWhole)
    (x0 : Vec F S5000x128 .f32) (x1 : Vec F S5000x1 .f32) (x2 : Vec F S128 .f32) (x3 : Vec F S128 .f32)
    (x4 : Vec F S128 .f32) (x5 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__fused_ln_linear_kernel i arg1 harg1 arg2 harg2 arg3 harg3 arg4 harg4 arg5 harg5 arg6 harg6 arg7 harg7) K := by
  simp only [cc1__fused_ln_linear_kernel_eq_skeleton]; unfold cc1__fused_ln_linear_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- what the body finds in an input window at a point is that window's block of the entry contents
theorem before1_in (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> intro d <;>
    exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5⟩ := before1_in V c t
  simp only [b0, b1, b2, b3, b4, b5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Fr
-- ==== Proof.Kernel.Reg2.lean ====
import proofs.«427718_j18545668784934_3_alg».proof.Proof.Kernel.LaunchP
import proofs.«427718_j18545668784934_3_alg».proof.Proof.Gen.Kernel.Skeleton
import proofs.«427718_j18545668784934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_rows : Rect S5000x128 := Rect.unit (s := S5000x128) ![0, 0] S5000x128.size inb_S5000x128_S5000x128_0_0

abbrev r2_col : Rect S5000x1 := Rect.unit (s := S5000x1) ![0, 0] S5000x1.size inb_S5000x1_S5000x1_0_0

abbrev r2_vec : Rect S128 := Rect.unit (s := S128) ![0] S128.size inb_S128_S128_0

abbrev r2_mat : Rect S128x128 := Rect.unit (s := S128x128) ![0, 0] S128x128.size inb_S128x128_S128x128_0_0

def out2_6 (x0 : Vec F S5000x128 .f32) (x1 : Vec F S5000x1 .f32) (x2 : Vec F S128 .f32) (x3 : Vec F S128 .f32)
    (x4 : Vec F S128 .f32) (x5 : Vec F S128x128 .f32) : Vec F S5000x128 .bf16 :=
  View.canon [⟨r2_rows, k2_pay1
    (k2_pay2 (View.ld x0 r2_rows) (View.ld x1 r2_col) (View.ld x2 r2_vec) (View.ld x3 r2_vec) (View.ld x4 r2_vec) (View.ld x5 r2_mat))
    (k2_pay3 (View.ld x1 r2_col))⟩]

theorem cover2_6 (p0 : Vec F S5000x128 .bf16) (y : S5000x128.Idx) :
    ∃ pc ∈ ([⟨r2_rows, p0⟩] : List (View.Piece (Elt F) S5000x128 .bf16)), y ∈ pc.1.set :=
  View.cover_of_tiled [⟨r2_rows, p0⟩] S5000x128.size (by rfl) y

set_option maxHeartbeats 4000000 in

theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S5000x128 .bf16) (harg7 : arg7.IsWhole)
    (x0 : Vec F S5000x128 .f32) (x1 : Vec F S5000x1 .f32) (x2 : Vec F S128 .f32) (x3 : Vec F S128 .f32)
    (x4 : Vec F S128 .f32) (x5 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__fused_ln_linear_kernel i arg1 harg1 arg2 harg2 arg3 harg3 arg4 harg4 arg5 harg5 arg6 harg6 arg7 harg7) K := by
  simp only [cc2__fused_ln_linear_kernel_eq_skeleton]; unfold cc2__fused_ln_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

-- what the body finds in an input window at a point is that window's block of the entry contents
theorem before2_in (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4, b5⟩ := before2_in V c t
  simp only [b0, b1, b2, b3, b4, b5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Fr
-- ==== Proof.Kernel.Reg3Runs.lean ====
import proofs.«427718_j18545668784934_3_alg».proof.Proof.Kernel.LaunchP
import proofs.«427718_j18545668784934_3_alg».proof.Proof.Gen.Kernel.Skeleton
import proofs.«427718_j18545668784934_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 20 = 0 :=
  (by decide +kernel : ∀ t : Fin grid3.N, cond3_0 (grid3.coords t) ↔ t.val % 20 = 0)

abbrev cond3_1 (i : grid3.Coords) : Prop := k3_cond2 i = 1#1

theorem hcond3_1 : ∀ t : Fin cfg3.N, cond3_1 (grid3.coords t) ↔ t.val % 20 = 19 :=
  (by decide +kernel : ∀ t : Fin grid3.N, cond3_1 (grid3.coords t) ↔ t.val % 20 = 19)

theorem liveAt3_0 : ∀ t : Fin cfg3.N, cfg3.idle 0 (grid3.coords t) = false := by decide +kernel

theorem liveAt3_1 : ∀ t : Fin cfg3.N, cfg3.idle 1 (grid3.coords t) = false := by decide +kernel

theorem liveAt3_2 : ∀ t : Fin cfg3.N, cfg3.idle 2 (grid3.coords t) = false := by decide +kernel

theorem liveAt3_3 : ∀ t : Fin cfg3.N, cfg3.idle 3 (grid3.coords t) = false := by decide +kernel

theorem liveAt3_4 : ∀ t : Fin cfg3.N, cfg3.idle 4 (grid3.coords t) = false := by decide +kernel

theorem liveAt3_5 : ∀ t : Fin cfg3.N, cfg3.idle 5 (grid3.coords t) = false := by decide +kernel

theorem liveAt3_6 : ∀ t : Fin cfg3.N, cfg3.idle 6 (grid3.coords t) = false := by decide +kernel

theorem liveAt3_7 : ∀ t : Fin cfg3.N, cfg3.idle 7 (grid3.coords t) = false := by decide +kernel

theorem liveAt3_8 : ∀ t : Fin cfg3.N, cfg3.idle 8 (grid3.coords t) = false := by decide +kernel

theorem liveAt3_9 : ∀ t : Fin cfg3.N, cfg3.idle 9 (grid3.coords t) = false := by decide +kernel

theorem idleAt3_10_A : ∀ t : Fin cfg3.N, cond3_0 (grid3.coords t) → ¬cond3_1 (grid3.coords t) → cfg3.idle 10 (grid3.coords t) = true := by decide +kernel

theorem noFlush3_10_A : ∀ t : Fin cfg3.N, cond3_0 (grid3.coords t) → ¬cond3_1 (grid3.coords t) → (cfg3.win 10).flush t = false := by decide +kernel

theorem idleAt3_10_B : ∀ t : Fin cfg3.N, ¬cond3_0 (grid3.coords t) → ¬cond3_1 (grid3.coords t) → cfg3.idle 10 (grid3.coords t) = true := by decide +kernel

theorem noFlush3_10_B : ∀ t : Fin cfg3.N, ¬cond3_0 (grid3.coords t) → ¬cond3_1 (grid3.coords t) → (cfg3.win 10).flush t = false := by decide +kernel

theorem liveAt3_10_C : ∀ t : Fin cfg3.N, ¬cond3_0 (grid3.coords t) → cond3_1 (grid3.coords t) → cfg3.idle 10 (grid3.coords t) = false := by decide +kernel

abbrev VO3_10 : View sig .tc .vmem S64x2 .f32 := (Memref.whole cc3_stg10_0 : Memref sig .tc .vmem S64x2 .f32).view

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)

abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)

abbrev ms3_2 (t : Fin cfg3.N) : Memref sig .tc .vmem S128 .f32 := win3_2.stage (cfg3.slots t 2)
abbrev hs3_2 (t : Fin cfg3.N) : (ms3_2 t).IsWhole := hstage3_2 ((cfg3.slots t 2).cast nbuf3_2)

abbrev ms3_3 (t : Fin cfg3.N) : Memref sig .tc .vmem S128 .f32 := win3_3.stage (cfg3.slots t 3)
abbrev hs3_3 (t : Fin cfg3.N) : (ms3_3 t).IsWhole := hstage3_3 ((cfg3.slots t 3).cast nbuf3_3)

abbrev ms3_4 (t : Fin cfg3.N) : Memref sig .tc .vmem S128 .f32 := win3_4.stage (cfg3.slots t 4)
abbrev hs3_4 (t : Fin cfg3.N) : (ms3_4 t).IsWhole := hstage3_4 ((cfg3.slots t 4).cast nbuf3_4)

abbrev ms3_5 (t : Fin cfg3.N) : Memref sig .tc .vmem S5000x1 .i32 := win3_5.stage (cfg3.slots t 5)
abbrev hs3_5 (t : Fin cfg3.N) : (ms3_5 t).IsWhole := hstage3_5 ((cfg3.slots t 5).cast nbuf3_5)

abbrev ms3_6 (t : Fin cfg3.N) : Memref sig .tc .vmem S128x64 .f32 := win3_6.stage (cfg3.slots t 6)
abbrev hs3_6 (t : Fin cfg3.N) : (ms3_6 t).IsWhole := hstage3_6 ((cfg3.slots t 6).cast nbuf3_6)

abbrev ms3_7 (t : Fin cfg3.N) : Memref sig .tc .vmem S64 .f32 := win3_7.stage (cfg3.slots t 7)
abbrev hs3_7 (t : Fin cfg3.N) : (ms3_7 t).IsWhole := hstage3_7 ((cfg3.slots t 7).cast nbuf3_7)

abbrev ms3_8 (t : Fin cfg3.N) : Memref sig .tc .vmem S64x2 .f32 := win3_8.stage (cfg3.slots t 8)
abbrev hs3_8 (t : Fin cfg3.N) : (ms3_8 t).IsWhole := hstage3_8 ((cfg3.slots t 8).cast nbuf3_8)

abbrev ms3_9 (t : Fin cfg3.N) : Memref sig .tc .vmem S2 .f32 := win3_9.stage (cfg3.slots t 9)
abbrev hs3_9 (t : Fin cfg3.N) : (ms3_9 t).IsWhole := hstage3_9 ((cfg3.slots t 9).cast nbuf3_9)

abbrev ms3_10 (t : Fin cfg3.N) : Memref sig .tc .vmem S64x2 .f32 := win3_10.stage (cfg3.slots t 10)
abbrev hs3_10 (t : Fin cfg3.N) : (ms3_10 t).IsWhole := hstage3_10 ((cfg3.slots t 10).cast nbuf3_10)

abbrev scM3_0 : Memref sig .tc .vmem S64x128 .f32 := Memref.whole cc3_scratch0

abbrev scM3_1 : Memref sig .tc .vmem S64x1 .f32 := Memref.whole cc3_scratch1

abbrev VS3_0 : View sig .tc .vmem S64x128 .f32 := scM3_0.view
abbrev VS3_1 : View sig .tc .vmem S64x1 .f32 := scM3_1.view

def R3rest (c : Dev nD) : sProp 𝕄 :=
  iprop(Pipeline.scopedRestBut (Ix := Unit) (Name := ℕ) (U := UR sig nD τ) (Lvl := ℕ) (Val := Elt F) spec3 c [cc3_scratch0, cc3_scratch1] ∗ ∃ r, prngReg c r)

theorem PhiA3_eq (c : Dev nD) :
    (Pipeline.ΦA spec3 c : sProp 𝕄)
      = iprop(iprop((∃ d, owns (c : Thread nD τ) scM3_0 fullShare d) ∗ (∃ d, owns (c : Thread nD τ) scM3_1 fullShare d)) ∗ R3rest (F := F) c) := by
  unfold Pipeline.ΦA R3rest; rw [scopedRest3_split]; simp only [scM3_0, scM3_1, owns_whole]
  refine BI.equiv_iff.mp ⟨?_, ?_⟩
  · show (_ : sProp 𝕄) ⊢ (_ : sProp 𝕄)
    iintro ⟨⟨HS, HR⟩, Hg⟩
    isplitl [HS]; · iexact HS
    isplitl [HR]; · iexact HR
    iexact Hg
  · show (_ : sProp 𝕄) ⊢ (_ : sProp 𝕄)
    iintro ⟨HS, HR, Hg⟩
    isplitr [Hg]
    · isplitl [HS]; · iexact HS
      iexact HR
    iexact Hg

set_option maxHeartbeats 4000000 in

noncomputable def kernelRun3_A (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x64 .f32) (harg7 : arg7.IsWhole) (arg8 : Memref sig .tc .vmem S64 .f32) (harg8 : arg8.IsWhole) (arg9 : Memref sig .tc .vmem S64x2 .f32) (harg9 : arg9.IsWhole) (arg10 : Memref sig .tc .vmem S2 .f32) (harg10 : arg10.IsWhole) (arg11 : Memref sig .tc .vmem S64x2 .f32) (harg11 : arg11.IsWhole) (arg12 : Memref sig .tc .vmem S64x128 .f32) (harg12 : arg12.IsWhole) (arg13 : Memref sig .tc .vmem S64x1 .f32) (harg13 : arg13.IsWhole) (hc0 : cond3_0 i) (hc1 : ¬cond3_1 i)
    (x0 : Vec F S5000x128 .f32) (x1 : Vec F S5000x1 .f32) (x2 : Vec F S128 .f32) (x3 : Vec F S128 .f32) (x4 : Vec F S128 .f32) (x5 : Vec F S5000x1 .i32) (x6 : Vec F S128x64 .f32) (x7 : Vec F S64 .f32) (x8 : Vec F S64x2 .f32) (x9 : Vec F S2 .f32) :
    Σ' (L10 : List (View.Piece (Elt F) S64x2 .f32)), Σ' (LS0 : List (View.Piece (Elt F) S64x128 .f32)), { LS1 : List (View.Piece (Elt F) S64x1 .f32) //
      ∀ (xi10 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__final_ln_pool_mlp_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, fun xi10 E K => ?run⟩
  case run =>
    simp only [cc3__final_ln_pool_mlp_kernel_eq_skeleton]; unfold cc3__final_ln_pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

set_option maxHeartbeats 4000000 in

noncomputable def kernelRun3_B (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x64 .f32) (harg7 : arg7.IsWhole) (arg8 : Memref sig .tc .vmem S64 .f32) (harg8 : arg8.IsWhole) (arg9 : Memref sig .tc .vmem S64x2 .f32) (harg9 : arg9.IsWhole) (arg10 : Memref sig .tc .vmem S2 .f32) (harg10 : arg10.IsWhole) (arg11 : Memref sig .tc .vmem S64x2 .f32) (harg11 : arg11.IsWhole) (arg12 : Memref sig .tc .vmem S64x128 .f32) (harg12 : arg12.IsWhole) (arg13 : Memref sig .tc .vmem S64x1 .f32) (harg13 : arg13.IsWhole) (hc0 : ¬cond3_0 i) (hc1 : ¬cond3_1 i)
    (x0 : Vec F S5000x128 .f32) (x1 : Vec F S5000x1 .f32) (x2 : Vec F S128 .f32) (x3 : Vec F S128 .f32) (x4 : Vec F S128 .f32) (x5 : Vec F S5000x1 .i32) (x6 : Vec F S128x64 .f32) (x7 : Vec F S64 .f32) (x8 : Vec F S64x2 .f32) (x9 : Vec F S2 .f32) (xs0 : Vec F S64x128 .f32) (xs1 : Vec F S64x1 .f32) :
    Σ' (L10 : List (View.Piece (Elt F) S64x2 .f32)), Σ' (LS0 : List (View.Piece (Elt F) S64x128 .f32)), { LS1 : List (View.Piece (Elt F) S64x1 .f32) //
      ∀ (xi10 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__final_ln_pool_mlp_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, fun xi10 E K => ?run⟩
  case run =>
    simp only [cc3__final_ln_pool_mlp_kernel_eq_skeleton]; unfold cc3__final_ln_pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

set_option maxHeartbeats 4000000 in

noncomputable def kernelRun3_C (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x64 .f32) (harg7 : arg7.IsWhole) (arg8 : Memref sig .tc .vmem S64 .f32) (harg8 : arg8.IsWhole) (arg9 : Memref sig .tc .vmem S64x2 .f32) (harg9 : arg9.IsWhole) (arg10 : Memref sig .tc .vmem S2 .f32) (harg10 : arg10.IsWhole) (arg11 : Memref sig .tc .vmem S64x2 .f32) (harg11 : arg11.IsWhole) (arg12 : Memref sig .tc .vmem S64x128 .f32) (harg12 : arg12.IsWhole) (arg13 : Memref sig .tc .vmem S64x1 .f32) (harg13 : arg13.IsWhole) (hc0 : ¬cond3_0 i) (hc1 : cond3_1 i)
    (x0 : Vec F S5000x128 .f32) (x1 : Vec F S5000x1 .f32) (x2 : Vec F S128 .f32) (x3 : Vec F S128 .f32) (x4 : Vec F S128 .f32) (x5 : Vec F S5000x1 .i32) (x6 : Vec F S128x64 .f32) (x7 : Vec F S64 .f32) (x8 : Vec F S64x2 .f32) (x9 : Vec F S2 .f32) (xs0 : Vec F S64x128 .f32) (xs1 : Vec F S64x1 .f32) :
    Σ' (L10 : List (View.Piece (Elt F) S64x2 .f32)), Σ' (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__final_ln_pool_mlp_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc3__final_ln_pool_mlp_kernel_eq_skeleton]; unfold cc3__final_ln_pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]; · iexists _; iexact HS0
    iexists _; iexact HS1

end Cert.Kernel.Fr

end
-- ==== Proof.Kernel.Reg3.lean ====
import proofs.«427718_j18545668784934_3_alg».proof.Proof.Kernel.Reg3Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def runA3 (c : Dev nD) (t : Fin cfg3.N) (h0 : t.val % 20 = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) scM3_1 (Memref.isWhole_whole _)
    ((hcond3_0 t).mpr h0) (fun h => by have h19 := (hcond3_1 t).mp h; omega) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)

def runB3 (c : Dev nD) (t : Fin cfg3.N) (h0 : ¬t.val % 20 = 0) (h1 : ¬t.val % 20 = 19) (xs0 : Vec F S64x128 .f32) (xs1 : Vec F S64x1 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) scM3_1 (Memref.isWhole_whole _)
    (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) xs0 xs1

def runC3 (c : Dev nD) (t : Fin cfg3.N) (h1 : t.val % 20 = 19) (xs0 : Vec F S64x128 .f32) (xs1 : Vec F S64x1 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) scM3_1 (Memref.isWhole_whole _)
    (fun h => by have h00 := (hcond3_0 t).mp h; omega) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) xs0 xs1

def out3_A_10 (c : Dev nD) (t : Fin cfg3.N) (h0 : t.val % 20 = 0) : Vec F S64x2 .f32 :=
  VO3_10.read (Elt F) (VO3_10.writes (Elt F) VO3_10.junk (runA3 V c t h0).1)

theorem scover3_A_0 (c : Dev nD) (t : Fin cfg3.N) (h0 : t.val % 20 = 0) (y : S64x128.Idx) :
    ∃ pc ∈ (runA3 V c t h0).2.1, y ∈ pc.1.set :=
  View.cover_of_tiledL (runA3 V c t h0).2.1 S64x128.size (by sl_kernel_rfl) y

def sout3_A_0 (c : Dev nD) (t : Fin cfg3.N) (h0 : t.val % 20 = 0) : Vec F S64x128 .f32 :=
  VS3_0.read (Elt F) (VS3_0.writes (Elt F) VS3_0.junk (runA3 V c t h0).2.1)

theorem scover3_A_1 (c : Dev nD) (t : Fin cfg3.N) (h0 : t.val % 20 = 0) (y : S64x1.Idx) :
    ∃ pc ∈ (runA3 V c t h0).2.2.1, y ∈ pc.1.set :=
  View.cover_of_tiledL (runA3 V c t h0).2.2.1 S64x1.size (by sl_kernel_rfl) y

def sout3_A_1 (c : Dev nD) (t : Fin cfg3.N) (h0 : t.val % 20 = 0) : Vec F S64x1 .f32 :=
  VS3_1.read (Elt F) (VS3_1.writes (Elt F) VS3_1.junk (runA3 V c t h0).2.2.1)

def out3_B_10 (c : Dev nD) (t : Fin cfg3.N) (h0 : ¬t.val % 20 = 0) (h1 : ¬t.val % 20 = 19) (xs0 : Vec F S64x128 .f32) (xs1 : Vec F S64x1 .f32) : Vec F S64x2 .f32 :=
  VO3_10.read (Elt F) (VO3_10.writes (Elt F) VO3_10.junk (runB3 V c t h0 h1 xs0 xs1).1)

theorem scover3_B_0 (c : Dev nD) (t : Fin cfg3.N) (h0 : ¬t.val % 20 = 0) (h1 : ¬t.val % 20 = 19) (xs0 : Vec F S64x128 .f32) (xs1 : Vec F S64x1 .f32) (y : S64x128.Idx) :
    ∃ pc ∈ (runB3 V c t h0 h1 xs0 xs1).2.1, y ∈ pc.1.set :=
  View.cover_of_tiledL (runB3 V c t h0 h1 xs0 xs1).2.1 S64x128.size (by sl_kernel_rfl) y

def sout3_B_0 (c : Dev nD) (t : Fin cfg3.N) (h0 : ¬t.val % 20 = 0) (h1 : ¬t.val % 20 = 19) (xs0 : Vec F S64x128 .f32) (xs1 : Vec F S64x1 .f32) : Vec F S64x128 .f32 :=
  VS3_0.read (Elt F) (VS3_0.writes (Elt F) VS3_0.junk (runB3 V c t h0 h1 xs0 xs1).2.1)

theorem scover3_B_1 (c : Dev nD) (t : Fin cfg3.N) (h0 : ¬t.val % 20 = 0) (h1 : ¬t.val % 20 = 19) (xs0 : Vec F S64x128 .f32) (xs1 : Vec F S64x1 .f32) (y : S64x1.Idx) :
    ∃ pc ∈ (runB3 V c t h0 h1 xs0 xs1).2.2.1, y ∈ pc.1.set :=
  View.cover_of_tiledL (runB3 V c t h0 h1 xs0 xs1).2.2.1 S64x1.size (by sl_kernel_rfl) y

def sout3_B_1 (c : Dev nD) (t : Fin cfg3.N) (h0 : ¬t.val % 20 = 0) (h1 : ¬t.val % 20 = 19) (xs0 : Vec F S64x128 .f32) (xs1 : Vec F S64x1 .f32) : Vec F S64x1 .f32 :=
  VS3_1.read (Elt F) (VS3_1.writes (Elt F) VS3_1.junk (runB3 V c t h0 h1 xs0 xs1).2.2.1)

theorem cover3_C_10 (c : Dev nD) (t : Fin cfg3.N) (h1 : t.val % 20 = 19) (xs0 : Vec F S64x128 .f32) (xs1 : Vec F S64x1 .f32) (y : S64x2.Idx) :
    ∃ pc ∈ (runC3 V c t h1 xs0 xs1).1, y ∈ pc.1.set :=
  View.cover_of_tiledL (runC3 V c t h1 xs0 xs1).1 S64x2.size (by sl_kernel_rfl) y

def out3_C_10 (c : Dev nD) (t : Fin cfg3.N) (h1 : t.val % 20 = 19) (xs0 : Vec F S64x128 .f32) (xs1 : Vec F S64x1 .f32) : Vec F S64x2 .f32 :=
  VO3_10.read (Elt F) (VO3_10.writes (Elt F) VO3_10.junk (runC3 V c t h1 xs0 xs1).1)

theorem scover3_C_0 (c : Dev nD) (t : Fin cfg3.N) (h1 : t.val % 20 = 19) (xs0 : Vec F S64x128 .f32) (xs1 : Vec F S64x1 .f32) (y : S64x128.Idx) :
    ∃ pc ∈ (runC3 V c t h1 xs0 xs1).2.1, y ∈ pc.1.set :=
  View.cover_of_tiledL (runC3 V c t h1 xs0 xs1).2.1 S64x128.size (by sl_kernel_rfl) y

def sout3_C_0 (c : Dev nD) (t : Fin cfg3.N) (h1 : t.val % 20 = 19) (xs0 : Vec F S64x128 .f32) (xs1 : Vec F S64x1 .f32) : Vec F S64x128 .f32 :=
  VS3_0.read (Elt F) (VS3_0.writes (Elt F) VS3_0.junk (runC3 V c t h1 xs0 xs1).2.1)

theorem scover3_C_1 (c : Dev nD) (t : Fin cfg3.N) (h1 : t.val % 20 = 19) (xs0 : Vec F S64x128 .f32) (xs1 : Vec F S64x1 .f32) (y : S64x1.Idx) :
    ∃ pc ∈ (runC3 V c t h1 xs0 xs1).2.2.1, y ∈ pc.1.set :=
  View.cover_of_tiledL (runC3 V c t h1 xs0 xs1).2.2.1 S64x1.size (by sl_kernel_rfl) y

def sout3_C_1 (c : Dev nD) (t : Fin cfg3.N) (h1 : t.val % 20 = 19) (xs0 : Vec F S64x128 .f32) (xs1 : Vec F S64x1 .f32) : Vec F S64x1 .f32 :=
  VS3_1.read (Elt F) (VS3_1.writes (Elt F) VS3_1.junk (runC3 V c t h1 xs0 xs1).2.2.1)

theorem succ_not_first3 {n : ℕ} (hn : n + 1 < cfg3.N) : ¬(n + 1) % 20 = 0 := by
  have hN : n + 1 < 20 := lt_of_lt_of_eq hn (show cfg3.N = 20 from N_3); omega

def outsAt3 (c : Dev nD) : (n : ℕ) → n < cfg3.N → Vec F S64x2 .f32 × Vec F S64x128 .f32 × Vec F S64x1 .f32
  | 0, hn => (out3_A_10 V c ⟨0, hn⟩ (Nat.zero_mod _), sout3_A_0 V c ⟨0, hn⟩ (Nat.zero_mod _), sout3_A_1 V c ⟨0, hn⟩ (Nat.zero_mod _))
  | n + 1, hn =>
    if h1 : (n + 1) % 20 = 19 then
      (out3_C_10 V c ⟨n + 1, hn⟩ h1 (outsAt3 c n (Nat.lt_of_succ_lt hn)).2.1 (outsAt3 c n (Nat.lt_of_succ_lt hn)).2.2,
       sout3_C_0 V c ⟨n + 1, hn⟩ h1 (outsAt3 c n (Nat.lt_of_succ_lt hn)).2.1 (outsAt3 c n (Nat.lt_of_succ_lt hn)).2.2,
       sout3_C_1 V c ⟨n + 1, hn⟩ h1 (outsAt3 c n (Nat.lt_of_succ_lt hn)).2.1 (outsAt3 c n (Nat.lt_of_succ_lt hn)).2.2)
    else
      (out3_B_10 V c ⟨n + 1, hn⟩ (succ_not_first3 hn) h1 (outsAt3 c n (Nat.lt_of_succ_lt hn)).2.1 (outsAt3 c n (Nat.lt_of_succ_lt hn)).2.2,
       sout3_B_0 V c ⟨n + 1, hn⟩ (succ_not_first3 hn) h1 (outsAt3 c n (Nat.lt_of_succ_lt hn)).2.1 (outsAt3 c n (Nat.lt_of_succ_lt hn)).2.2,
       sout3_B_1 V c ⟨n + 1, hn⟩ (succ_not_first3 hn) h1 (outsAt3 c n (Nat.lt_of_succ_lt hn)).2.1 (outsAt3 c n (Nat.lt_of_succ_lt hn)).2.2)

theorem outsAt3_A (c : Dev nD) (t : Fin cfg3.N) (h0 : t.val % 20 = 0) :
    outsAt3 V c t.val t.isLt = (out3_A_10 V c t h0, sout3_A_0 V c t h0, sout3_A_1 V c t h0) := by
  obtain ⟨n, hn⟩ := t
  cases n with
  | zero => rfl
  | succ n => exact absurd h0 (succ_not_first3 hn)

theorem outsAt3_B (c : Dev nD) (t : Fin cfg3.N) (h0 : ¬t.val % 20 = 0) (h1 : ¬t.val % 20 = 19) :
    outsAt3 V c t.val t.isLt =
      (out3_B_10 V c t h0 h1 (outsAt3 V c (t.val - 1) (Nat.lt_of_le_of_lt (Nat.sub_le _ _) t.isLt)).2.1 (outsAt3 V c (t.val - 1) (Nat.lt_of_le_of_lt (Nat.sub_le _ _) t.isLt)).2.2,
       sout3_B_0 V c t h0 h1 (outsAt3 V c (t.val - 1) (Nat.lt_of_le_of_lt (Nat.sub_le _ _) t.isLt)).2.1 (outsAt3 V c (t.val - 1) (Nat.lt_of_le_of_lt (Nat.sub_le _ _) t.isLt)).2.2,
       sout3_B_1 V c t h0 h1 (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd (Nat.zero_mod _) h0
  | succ n => exact (dif_neg h1).trans rfl

theorem outsAt3_C (c : Dev nD) (t : Fin cfg3.N) (h1 : t.val % 20 = 19) :
    outsAt3 V c t.val t.isLt =
      (out3_C_10 V c t h1 (outsAt3 V c (t.val - 1) (Nat.lt_of_le_of_lt (Nat.sub_le _ _) t.isLt)).2.1 (outsAt3 V c (t.val - 1) (Nat.lt_of_le_of_lt (Nat.sub_le _ _) t.isLt)).2.2,
       sout3_C_0 V c t h1 (outsAt3 V c (t.val - 1) (Nat.lt_of_le_of_lt (Nat.sub_le _ _) t.isLt)).2.1 (outsAt3 V c (t.val - 1) (Nat.lt_of_le_of_lt (Nat.sub_le _ _) t.isLt)).2.2,
       sout3_C_1 V c t h1 (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd (show 0 % 20 = 19 from h1) (by decide)
  | succ n => exact (dif_pos h1).trans rfl

def PhiS3 (c : Dev nD) : (n : ℕ) → n ≤ cfg3.N → sProp 𝕄
  | 0, _ => Pipeline.ΦA spec3 c
  | n + 1, hn => iprop(iprop(owns (c : Thread nD τ) scM3_0 fullShare (outsAt3 V c n hn).2.1 ∗ owns (c : Thread nD τ) scM3_1 fullShare (outsAt3 V c n hn).2.2) ∗ R3rest (F := F) c)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (outsAt3 V c n hn).2.1 ∗ owns (c : Thread nD τ) scM3_1 fullShare (outsAt3 V c n hn).2.2) ∗ R3rest (F := F) c) := rfl

theorem PhiS3_pos (c : Dev nD) (n : ℕ) (h : n ≤ cfg3.N) (hz : n ≠ 0) :
    PhiS3 V c n h = iprop(iprop(owns (c : Thread nD τ) scM3_0 fullShare (outsAt3 V c (n - 1) (by omega)).2.1 ∗ owns (c : Thread nD τ) scM3_1 fullShare (outsAt3 V c (n - 1) (by omega)).2.2) ∗ R3rest (F := F) c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = (outsAt3 V c t.val t.isLt).1 := by dsimp only [dat3]

-- what the body finds in an input window at a point is that window's block of the entry contents
theorem before3_in (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) ∧ (∀ d, (dat3 V c).before 5 t d = iblk3 V c 5 t)
    ∧ (∀ d, (dat3 V c).before 6 t d = iblk3 V c 6 t) ∧ (∀ d, (dat3 V c).before 7 t d = iblk3 V c 7 t)
    ∧ (∀ d, (dat3 V c).before 8 t d = iblk3 V c 8 t) ∧ (∀ d, (dat3 V c).before 9 t d = iblk3 V c 9 t) := by
  refine ⟨?_, ?_, ?_, ?_, ?_, ?_, ?_, ?_, ?_, ?_⟩ <;> intro d <;>
    exact ((dat3 V c).before_in_eq_fetched _ rfl (fun _ => rfl) (fun _ _ _ => rfl) (fun _ => rfl) t d).trans rfl

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (ms3_4 t) fullShare (iblk3 V c 4 t) := by
  unfold Dat.leavesExact; rw [liveAt3_4 t, after3_4]
theorem leaves3_5 (c : Dev nD) (t : Fin cfg3.N) :
    (dat3 V c).leavesExact 5 t = owns (c : Thread nD τ) (ms3_5 t) fullShare (iblk3 V c 5 t) := by
  unfold Dat.leavesExact; rw [liveAt3_5 t, after3_5]
theorem leaves3_6 (c : Dev nD) (t : Fin cfg3.N) :
    (dat3 V c).leavesExact 6 t = owns (c : Thread nD τ) (ms3_6 t) fullShare (iblk3 V c 6 t) := by
  unfold Dat.leavesExact; rw [liveAt3_6 t, after3_6]
theorem leaves3_7 (c : Dev nD) (t : Fin cfg3.N) :
    (dat3 V c).leavesExact 7 t = owns (c : Thread nD τ) (ms3_7 t) fullShare (iblk3 V c 7 t) := by
  unfold Dat.leavesExact; rw [liveAt3_7 t, after3_7]
theorem leaves3_8 (c : Dev nD) (t : Fin cfg3.N) :
    (dat3 V c).leavesExact 8 t = owns (c : Thread nD τ) (ms3_8 t) fullShare (iblk3 V c 8 t) := by
  unfold Dat.leavesExact; rw [liveAt3_8 t, after3_8]
theorem leaves3_9 (c : Dev nD) (t : Fin cfg3.N) :
    (dat3 V c).leavesExact 9 t = owns (c : Thread nD τ) (ms3_9 t) fullShare (iblk3 V c 9 t) := by
  unfold Dat.leavesExact; rw [liveAt3_9 t, after3_9]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3, b4, b5, b6, b7, b8, b9⟩ := before3_in V c t
  simp only [b0, b1, b2, b3, b4, b5, b6, b7, b8, b9]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7, leaves3_8, leaves3_9]
  have hN : t.val < 20 := lt_of_lt_of_eq t.isLt (show cfg3.N = 20 from N_3)
  by_cases h0 : t.val % 20 = 0
  ·
    have hz : t.val = 0 := by omega
    have hc0 : cond3_0 (grid3.coords t) := (hcond3_0 t).mpr h0
    have hc1 : ¬cond3_1 (grid3.coords t) := fun h => by have h19 := (hcond3_1 t).mp h; omega
    rw [Dat.leavesExact_idle (dat3 V c) 10 t (idleAt3_10_A t hc0 hc1) (noFlush3_10_A t hc0 hc1)]
    rw [outsAt3_A V c t h0]
    unfold sout3_A_0 sout3_A_1; (try dsimp only)
    rw [PhiS3_castSucc V c t, PhiS3_zero V c _ _ hz, PhiA3_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA3 V c t h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover3_A_0 V c t h0)
        · unfold owns; iexists _; isplitr
          swap; · iexact HS1
          ipureintro; exact View.read_writes_of_cover _ _ _ _ _ (scover3_A_1 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hz : t.val ≠ 0 := fun h => h0 (by rw [h])
    have hc0 : ¬cond3_0 (grid3.coords t) := fun h => h0 ((hcond3_0 t).mp h)
    by_cases h1 : t.val % 20 = 19
    ·
      have hc1 : cond3_1 (grid3.coords t) := (hcond3_1 t).mpr h1
      rw [show (dat3 V c).leavesExact 10 t = owns (c : Thread nD τ) (ms3_10 t) fullShare ((dat3 V c).after 10 t) from by
        unfold Dat.leavesExact; rw [liveAt3_10_C t hc0 hc1], after3_10]
      rw [outsAt3_C V c t h1]
      unfold out3_C_10 sout3_C_0 sout3_C_1; (try dsimp only)
      rw [PhiS3_castSucc V c t, PhiS3_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC3 V c t h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover3_C_0 V c t h1 _ _)
          · unfold owns; iexists _; isplitr
            swap; · iexact HS1
            ipureintro; exact View.read_writes_of_cover _ _ _ _ _ (scover3_C_1 V c t h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_C_10 V c t h1 _ _)
    ·
      have hc1 : ¬cond3_1 (grid3.coords t) := fun h => h1 ((hcond3_1 t).mp h)
      rw [Dat.leavesExact_idle (dat3 V c) 10 t (idleAt3_10_B t hc0 hc1) (noFlush3_10_B t hc0 hc1)]
      rw [outsAt3_B V c t h0 h1]
      unfold sout3_B_0 sout3_B_1; (try dsimp only)
      rw [PhiS3_castSucc V c t, PhiS3_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB3 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover3_B_0 V c t h0 h1 _ _)
          · unfold owns; iexists _; isplitr
            swap; · iexact HS1
            ipureintro; exact View.read_writes_of_cover _ _ _ _ _ (scover3_B_1 V c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Entails.of_eq (PhiS3_zero V c 0 (Nat.zero_le _) rfl).symm

theorem hout3 (c : Dev nD) : (dat3 V c).Φ (Fin.last cfg3.N) ⊢ Pipeline.ΦA spec3 c := by
  have hlast : (Fin.last cfg3.N).val ≠ 0 := by rw [Fin.val_last, show cfg3.N = 20 from N_3]; decide
  rw [show (dat3 V c).Φ (Fin.last cfg3.N) = PhiS3 V c (Fin.last cfg3.N).val (Nat.le_of_lt_succ (Fin.last cfg3.N).isLt) from rfl,
    PhiS3_pos V c _ _ hlast, PhiA3_eq]
  iintro ⟨⟨HS0, HS1⟩, Hg⟩
  isplitl [HS0 HS1]
  · isplitl [HS0]
    · iexists _; iexact HS0
    · iexists _; iexact HS1
  iexact Hg

end Cert.Kernel.Fr

end
-- ==== Proof.Kernel.Run.lean ====
import proofs.«427718_j18545668784934_3_alg».proof.Proof.Kernel.Reg0
import proofs.«427718_j18545668784934_3_alg».proof.Proof.Kernel.Reg1
import proofs.«427718_j18545668784934_3_alg».proof.Proof.Kernel.Reg2
import proofs.«427718_j18545668784934_3_alg».proof.Proof.Kernel.Reg3
import proofs.«427718_j18545668784934_3_alg».proof.Proof.Gen.Kernel.Skeleton
import proofs.«427718_j18545668784934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev hostOps0_W : List (Ref sig .tc) := [main_v0, main_v1, main_v2, main_v3, main_v4, main_v5, main_v6, main_cst, main_v7, main_cst_0, main_v8, main_v9, main_v10, main_v11, main_v12]
abbrev hostOps1_W : List (Ref sig .tc) := [main_c, main_v14, main_v15, main_c_1, main_v16, main_v17, main_v18, main_v19, main_v20, main_v21, main_cst_2, main_v22, main_v23, main_v24]
abbrev hostOps2_W : List (Ref sig .tc) := [main_c_3, main_v26, main_v27, main_c_4, main_v28, main_v29, main_v30, main_v31, main_v32, main_v33, main_cst_5, main_v34, main_v35, main_v36]
abbrev hostOps3_W : List (Ref sig .tc) := [main_c_6, main_v38, main_v39, main_c_7, main_v40, main_v41, main_v42, main_v43, main_v44, main_v45, main_cst_8, main_v46, main_v47, main_v48, main_v49]

-- every operation of a host stretch writes one buffer, and the stretch's list names it
theorem hostOps_writes :
    ((hostOps0 : List (HloOp τ sig (Elt F))).Forall fun op => op.writes ⊆ (hostOps0_W.map (Proc.devRef (τ := τ) .tc)).toFinset)
    ∧ ((hostOps1 : List (HloOp τ sig (Elt F))).Forall fun op => op.writes ⊆ (hostOps1_W.map (Proc.devRef (τ := τ) .tc)).toFinset)
    ∧ ((hostOps2 : List (HloOp τ sig (Elt F))).Forall fun op => op.writes ⊆ (hostOps2_W.map (Proc.devRef (τ := τ) .tc)).toFinset)
    ∧ ((hostOps3 : List (HloOp τ sig (Elt F))).Forall fun op => op.writes ⊆ (hostOps3_W.map (Proc.devRef (τ := τ) .tc)).toFinset) := by
  refine ⟨?_, ?_, ?_, ?_⟩
  all_goals
    simp only [List.Forall]
    repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W1_keep (c : Dev nD) (b : Ref sig .tc) (hb : b ∉ hostOps0_W) :
    W1 m ρ c (Proc.devRef .tc b) = W0 m ρ c (Proc.devRef .tc b) :=
  StableHlo.after_of_writes_sub hostOps0 _ hostOps_writes.1 hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W3_keep (c : Dev nD) (b : Ref sig .tc) (hb : b ∉ hostOps1_W) :
    W3 m ρ c (Proc.devRef .tc b) = W2 m ρ c (Proc.devRef .tc b) :=
  StableHlo.after_of_writes_sub hostOps1 _ hostOps_writes.2.1 hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w

theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

theorem W6_keep (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W5_keep (c : Dev nD) (b : Ref sig .tc) (hb : b ∉ hostOps2_W) :
    W5 m ρ c (Proc.devRef .tc b) = W4 m ρ c (Proc.devRef .tc b) :=
  StableHlo.after_of_writes_sub hostOps2 _ hostOps_writes.2.2.1 hb

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
abbrev V8 : (c : Dev nD) → (b : Ref sig .tc) → Buf (Elt F) ((c : Thread nD τ).loc b) := fun c b => W8 m ρ c b

theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w

theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

theorem W8_keep (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

theorem W7_keep (c : Dev nD) (b : Ref sig .tc) (hb : b ∉ hostOps3_W) :
    W7 m ρ c (Proc.devRef .tc b) = W6 m ρ c (Proc.devRef .tc b) :=
  StableHlo.after_of_writes_sub hostOps3 _ hostOps_writes.2.2.2 hb

-- a buffer no host stretch writes and no region names through an output window ends as launched
theorem W8_launch (c : Dev nD) (b : Ref sig .tc)
    (h0 : b ∉ hostOps0_W) (h1 : b ∉ hostOps1_W) (h2 : b ∉ hostOps2_W) (h3 : b ∉ hostOps3_W)
    (k0 : ∀ w, Pipeline.arrRef spec0 w = b → (cfg0.win w).isOut = false)
    (k1 : ∀ w, Pipeline.arrRef spec1 w = b → (cfg1.win w).isOut = false)
    (k2 : ∀ w, Pipeline.arrRef spec2 w = b → (cfg2.win w).isOut = false)
    (k3 : ∀ w, Pipeline.arrRef spec3 w = b → (cfg3.win w).isOut = false) :
    W8 m ρ c (Proc.devRef .tc b) = m ((c : Thread nD τ).loc b) :=
  calc W8 m ρ c (Proc.devRef .tc b)
    _ = W7 m ρ c (Proc.devRef .tc b) := W8_keep m ρ c b k3
    _ = W6 m ρ c (Proc.devRef .tc b) := W7_keep m ρ c b h3
    _ = W5 m ρ c (Proc.devRef .tc b) := W6_keep m ρ c b k2
    _ = W4 m ρ c (Proc.devRef .tc b) := W5_keep m ρ c b h2
    _ = W3 m ρ c (Proc.devRef .tc b) := W4_keep m ρ c b k1
    _ = W2 m ρ c (Proc.devRef .tc b) := W3_keep m ρ c b h1
    _ = W1 m ρ c (Proc.devRef .tc b) := W2_keep m ρ c b k0
    _ = W0 m ρ c (Proc.devRef .tc b) := W1_keep m ρ c b h0
    _ = m ((c : Thread nD τ).loc b) := rfl

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

-- no host stretch writes an argument and no region names one through an output window
theorem W8_arg (c : Dev nD) (b : Ref sig .tc) (hb : b ∈ argRefs) : W8 m ρ c (Proc.devRef .tc b) = m ((c : Thread nD τ).loc b) := by
  have h : ∀ b ∈ argRefs, b ∉ hostOps0_W ∧ b ∉ hostOps1_W ∧ b ∉ hostOps2_W ∧ b ∉ hostOps3_W
      ∧ (∀ w, Pipeline.arrRef spec0 w = b → (cfg0.win w).isOut = false) ∧ (∀ w, Pipeline.arrRef spec1 w = b → (cfg1.win w).isOut = false)
      ∧ (∀ w, Pipeline.arrRef spec2 w = b → (cfg2.win w).isOut = false) ∧ (∀ w, Pipeline.arrRef spec3 w = b → (cfg3.win w).isOut = false) := by
    decide
  obtain ⟨h0, h1, h2, h3, k0, k1, k2, k3⟩ := h b hb
  exact W8_launch m ρ c b h0 h1 h2 h3 k0 k1 k2 k3

theorem W8_out (c : Dev nD) : W8 m ρ c (Proc.devRef .tc main_v50) = (dat3 (V7 m ρ) c).arrAt 10 cfg3.N :=
  W8_arr m ρ c 10

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

set_option backward.isDefEq.respectTransparency.types false in
-- a region changes exactly its windows' arrays: entered at the contents `Wi`, it is left at `Wo`
def reg (p : Fin 4) (hl : Pipeline.LaunchFacts (nD := nD) (τ := τ) cfgs p)
    (Wi Wo : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ)
    (hsh : ∀ c w, (pdats m ρ p c).share w = fullShare)
    (hA : ∀ c w, (pdats m ρ p c).A w = Wi c (Proc.devRef .tc (Pipeline.arrRef (Pipeline.pin (pcfgs (F := F)) adm p).spec w)))
    (hF : ∀ c w, (pdats m ρ p c).arrAt w (Pipeline.pin (pcfgs (F := F)) adm p).N = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wo c (Proc.devRef .tc b) = Wi c (Proc.devRef .tc b))
    (hin : ∀ c, Pipeline.ΦA (Pipeline.pin (pcfgs (F := F)) adm p).spec c ⊢ (pdats m ρ p c).Φ 0)
    (hout : ∀ c, (pdats m ρ p c).Φ (Fin.last _) ⊢ Pipeline.ΦA (Pipeline.pin (pcfgs (F := F)) adm p).spec c) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := T Wi c
  post c := T Wo c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) hl.win hl.arr_whole c
      (hsh c) (fun b => Wi c b) (hA c)
    rw [Pipeline.unscopedBufs_held] at hsplit
    unfold Pipeline.Dat.owesAt Pipeline.owesWithin
    rw [howed c 0]
    iintro ⟨⟨Hu, Hg, Ho⟩, -, -⟩
    ihave H := hsplit $$ Hu
    icases H with ⟨Ha, Hz⟩
    imodintro
    isplitl [Ha]; · iexact Ha
    isplitr; · unfold Pipeline.prefHeld; rw [show (Finset.univ : Finset (Fin 0)) = ∅ from rfl, BI.bigSep_empty]; iempintro
    isplitl [Ho]
    · icases Ho with ⟨%W, Ho⟩; iexists W; isplitr; · ipureintro; exact fun _ _ => Or.inl (by rw [hrec c 0]; exact Set.mem_univ _)
      iexact Ho
    isplitl [Hg]; · iexact Hg
    iexact Hz
  hin c := by
    refine BIBase.Entails.trans ?_ (hin c)
    unfold Pipeline.ΦA
    iintro ⟨Hg, -, Hs⟩
    isplitl [Hs]; · iexact Hs
    iexact Hg
  hout c := by
    rw [Pipeline.ownSems0_none]
    refine BIBase.Entails.trans (hout c) ?_
    unfold Pipeline.ΦA
    iintro ⟨Hs, Hg⟩
    isplitl [Hg]; · iexact Hg
    isplitr; · iempintro
    iexact Hs
  hexit c := by
    have hjoin := Pipeline.unscopedBufs_of_arrays (p := p) (pcfgs (F := F)) adm (Ix := Unit) (Name := ℕ) (U := UR sig nD τ) (Lvl := ℕ)
      hl.win hl.arr_whole c (pdats m ρ) (hsh c)
      (fun b => Wi c b) (fun b => Wo c b) ((pdats m ρ p c).arrAt · (Pipeline.pin (pcfgs (F := F)) adm p).N) (hF c) (hrest c)
    rw [Pipeline.unscopedBufs_held] at hjoin
    unfold Pipeline.Dat.owesAt Pipeline.owesWithin
    rw [howed c (Fin.last _)]
    iintro ⟨Ha, Ho, Hg, Hz⟩
    imodintro
    isplitl [Ha Hz]
    · iapply hjoin; isplitl [Ha] <;> iassumption
    isplitl [Hg]; · iexact Hg
    icases Ho with ⟨%W, -, Ho⟩; iexists W; iexact Ho

set_option backward.isDefEq.respectTransparency.types false in
def reg0 : Pipeline.RegionSeg (pcfgs (F := F)) adm (pdats m ρ) () defs₀ 𝒱₀ L lv 0 :=
  reg m ρ 0 launch0 (W1 m ρ) (W2 m ρ) (fun c => (body_obligation0 (V1 m ρ) c).loose) (fun _ _ => rfl) (fun _ _ => rfl)
    (fun c => (pdats m ρ 0 c).share_full fun _ => rfl) (fun _ _ => rfl)
    (hF0 m ρ) (hrest0 m ρ) (fun _ => .of_eq rfl) (fun _ => .of_eq rfl)
set_option backward.isDefEq.respectTransparency.types false in
def reg1 : Pipeline.RegionSeg (pcfgs (F := F)) adm (pdats m ρ) () defs₀ 𝒱₀ L lv 1 :=
  reg m ρ 1 launch1 (W3 m ρ) (W4 m ρ) (fun c => (body_obligation1 (V3 m ρ) c).loose) (fun _ _ => rfl) (fun _ _ => rfl)
    (fun c => (pdats m ρ 1 c).share_full fun _ => rfl) (fun _ _ => rfl)
    (hF1 m ρ) (hrest1 m ρ) (fun _ => .of_eq rfl) (fun _ => .of_eq rfl)
set_option backward.isDefEq.respectTransparency.types false in
def reg2 : Pipeline.RegionSeg (pcfgs (F := F)) adm (pdats m ρ) () defs₀ 𝒱₀ L lv 2 :=
  reg m ρ 2 launch2 (W5 m ρ) (W6 m ρ) (fun c => (body_obligation2 (V5 m ρ) c).loose) (fun _ _ => rfl) (fun _ _ => rfl)
    (fun c => (pdats m ρ 2 c).share_full fun _ => rfl) (fun _ _ => rfl)
    (hF2 m ρ) (hrest2 m ρ) (fun _ => .of_eq rfl) (fun _ => .of_eq rfl)
set_option backward.isDefEq.respectTransparency.types false in
def reg3 : Pipeline.RegionSeg (pcfgs (F := F)) adm (pdats m ρ) () defs₀ 𝒱₀ L lv 3 :=
  reg m ρ 3 launch3 (W7 m ρ) (W8 m ρ) (fun c => (body_obligation3 (V7 m ρ) c).loose) (fun _ _ => rfl) (fun _ _ => rfl)
    (fun c => (pdats m ρ 3 c).share_full fun _ => rfl) (fun _ _ => rfl)
    (hF3 m ρ) (hrest3 m ρ) (hin3 (V7 m ρ)) (hout3 (V7 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem segs_progs : (segs m ρ).map Pipeline.Seg.prog = [
      StableHlo.seq hostOps0, Prog.lift (.customCall (Pipeline.entry 0) ()),
      StableHlo.seq hostOps1, Prog.lift (.customCall (Pipeline.entry 1) ()),
      StableHlo.seq hostOps2, Prog.lift (.customCall (Pipeline.entry 2) ()),
      StableHlo.seq hostOps3, Prog.lift (.customCall (Pipeline.entry 3) ()) ] := rfl

theorem main_run (c : Dev nD) : main (F := F) c = Pipeline.Seg.run (segs m ρ) := by
  rw [main_chain c, Pipeline.Seg.run_eq_chain, segs_progs]

-- every weakly fair execution of @main terminates without fault, and every buffer then holds `W8`
set_option backward.isDefEq.respectTransparency.types false in
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ (∃ r, prngReg c r)
        ∗ ∃ W, owes (c : Thread nD τ) (0 : CellTallies nD τ sig Unit) W) ⊢ _
      iintro ⟨Hu, Hg, Ho⟩
      isplitl [Hu Hg]
      · isplitl [Hu] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hu, -, Ho, -, Hg, -⟩, -⟩
      imodintro
      isplitl [Hu]; · iexact Hu
      isplitl [Hg]; · iexists _; iexact Hg
      iexists ∅; iexact Ho)
    (QY := fun c s => ∀ b ∈ Pipeline.ucRefs τ sig, s.mem (((c : Thread nD τ)).1, b) = W8 m ρ c b)
    (hfin := fun c s' => by
      iintro ⟨⟨Hu, -⟩, HSI⟩
      unfold StableHlo.held
      imodintro
      iapply (pointsTo_read_all (Pipeline.ucRefs τ sig) (fun b => (((c : Thread nD τ)).1, b)) (W8 m ρ c) s')
      isplitl [Hu] <;> iassumption)
    (hQ := fun _ h => h)

-- the result buffer and the nineteen arguments at the return
theorem run_result : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have a : ∀ b (hb : b ∈ argRefs), r.2.mem ((c.tc : Thread nD τ).loc b) = m ((c.tc : Thread nD τ).loc b) := fun b hb =>
      (h c _ (mem_uc b (by revert b; decide))).trans (W8_arg m ρ c b hb)
    refine ⟨h c _ (mem_uc main_v50 (by decide)), ?_⟩
    repeat' apply And.intro
    all_goals exact a _ (by decide))
    (run_bufs m ρ)

end Cert.Kernel.Fr

end
-- ==== Proof.KernelIdeal.LaunchP.lean ====
import proofs.«427718_j18545668784934_3_alg».proof.Proof.Gen.KernelIdeal
import Idealize.ShloMosaic.Lib.Pipeline.Kit
import Idealize.ShloMosaic.Lib.Pipeline.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 4 → List (DmaSem sig) :=
  fun | 0 => Pipeline.specSems spec0 | 1 => Pipeline.specSems spec1 | 2 => Pipeline.specSems spec2 | 3 => Pipeline.specSems spec3 | ⟨_ + 4, h⟩ => absurd h (Nat.not_lt.2 (Nat.le_add_left _ _))

theorem semsDistinct : ∀ p : Fin 4, (semTab p).Nodup := by decide

theorem semsDisjoint : ∀ p p' : Fin 4, p ≠ p' → (semTab p).Forall (· ∉ semTab p') := by decide

theorem cellOf_inj : Function.Injective (Pipeline.cellOf (nD := nD) (τ := τ) cfgs) :=
  Pipeline.cellOf_injective_of_table cfgs semTab (fun | 0 => rfl | 1 => rfl | 2 => rfl | 3 => rfl | ⟨_ + 4, h⟩ => absurd h (Nat.not_lt.2 (Nat.le_add_left _ _))) semsDistinct semsDisjoint

theorem winFacts0 : Pipeline.WinFacts spec0 := by decide

theorem block_pos0 : ∀ w : Fin 4, 0 < (spec0 w).block.numel := by decide

theorem arr_whole0 : ∀ w : Fin 4, (spec0 w).arr.IsWhole := fun | 0 => Memref.isWhole_whole _ | 1 => Memref.isWhole_whole _ | 2 => Memref.isWhole_whole _ | 3 => Memref.isWhole_whole _ | ⟨_ + 4, h⟩ => absurd h (Nat.not_lt.2 (Nat.le_add_left _ _))
theorem stage_whole0 : ∀ (w : Fin 4) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | ⟨_ + 4, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem N_0 : grid0.N = 20 := by decide

theorem bigSep_W0 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem winFacts1 : Pipeline.WinFacts spec1 := by decide

theorem block_pos1 : ∀ w : Fin 7, 0 < (spec1 w).block.numel := by decide

theorem arr_whole1 : ∀ w : Fin 7, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole1 : ∀ (w : Fin 7) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | ⟨_ + 7, h⟩ => absurd h (Nat.not_lt.2 (Nat.le_add_left _ _))

theorem launch1 : Pipeline.LaunchFacts (nD := nD) (τ := τ) cfgs 1 := ⟨cellOf_inj, winFacts1, block_pos1, arr_whole1, stage_whole1⟩

theorem N_1 : grid1.N = 20 := by decide

theorem bigSep_W1 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem winFacts2 : Pipeline.WinFacts spec2 := by decide

theorem block_pos2 : ∀ w : Fin 7, 0 < (spec2 w).block.numel := by decide

theorem arr_whole2 : ∀ w : Fin 7, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole2 : ∀ (w : Fin 7) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | 6 => fun s => hstage2_6 (s.cast nbuf2_6) | ⟨_ + 7, h⟩ => absurd h (Nat.not_lt.2 (Nat.le_add_left _ _))

theorem launch2 : Pipeline.LaunchFacts (nD := nD) (τ := τ) cfgs 2 := ⟨cellOf_inj, winFacts2, block_pos2, arr_whole2, stage_whole2⟩

theorem N_2 : grid2.N = 20 := by decide

theorem bigSep_W2 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem winFacts3 : Pipeline.WinFacts spec3 := by decide

theorem block_pos3 : ∀ w : Fin 11, 0 < (spec3 w).block.numel := by decide

theorem arr_whole3 : ∀ w : Fin 11, (spec3 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
theorem stage_whole3 : ∀ (w : Fin 11) (s : Fin (spec3 w).nbuf), ((spec3 w).stage s).IsWhole := fun | 0 => fun s => hstage3_0 (s.cast nbuf3_0) | 1 => fun s => hstage3_1 (s.cast nbuf3_1) | 2 => fun s => hstage3_2 (s.cast nbuf3_2) | 3 => fun s => hstage3_3 (s.cast nbuf3_3) | 4 => fun s => hstage3_4 (s.cast nbuf3_4) | 5 => fun s => hstage3_5 (s.cast nbuf3_5) | 6 => fun s => hstage3_6 (s.cast nbuf3_6) | 7 => fun s => hstage3_7 (s.cast nbuf3_7) | 8 => fun s => hstage3_8 (s.cast nbuf3_8) | 9 => fun s => hstage3_9 (s.cast nbuf3_9) | 10 => fun s => hstage3_10 (s.cast nbuf3_10) | ⟨_ + 11, h⟩ => absurd h (Nat.not_lt.2 (Nat.le_add_left _ _))

theorem launch3 : Pipeline.LaunchFacts (nD := nD) (τ := τ) cfgs 3 := ⟨cellOf_inj, winFacts3, block_pos3, arr_whole3, stage_whole3⟩

theorem N_3 : grid3.N = 20 := by decide

theorem bigSep_W3 {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f) ∗ (∃ f : Buf Val ((c : Thread nD τ).loc cc3_scratch1), ((c : Thread nD τ).loc cc3_scratch1) ↦{fullShare} f))
          ∗ Pipeline.scopedRestBut (Ix := Ix) (Name := Name) (U := U) (Lvl := Lvl) (Val := Val) spec3 c [cc3_scratch0, cc3_scratch1]) :=
  Pipeline.scopedRest_split_of_list spec3 c [cc3_scratch0, cc3_scratch1] (by decide) (by decide)

abbrev hostOps0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)) ]

theorem hostOps0_sub : (hostOps0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.unary_bufs_sub ..⟩

abbrev hostOps1 : List (HloOp τ sig (Elt F)) :=
  [ StableHlo.nullary main_c (constantI S_ 32 0#32),
    StableHlo.unary main_c main_v14 (broadcastInDim S1700000 ![] bcast_S_S1700000 : (⟨S_, .i32⟩ : BufTy).Contents (Elt F) → (⟨S1700000, .i32⟩ : BufTy).Contents (Elt F)),
    StableHlo.binary main_v3 main_v14 main_v15 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v16 (broadcastInDim S1700000 ![] bcast_S_S1700000 : (⟨S_, .i32⟩ : BufTy).Contents (Elt F) → (⟨S1700000, .i32⟩ : BufTy).Contents (Elt F)),
    StableHlo.binary main_v3 main_v16 main_v17 (addi : (⟨S1700000, .i32⟩ : BufTy).Contents (Elt F) → (⟨S1700000, .i32⟩ : BufTy).Contents (Elt F) → (⟨S1700000, .i32⟩ : BufTy).Contents (Elt F)),
    StableHlo.ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v18 main_v19 (broadcastInDim S1700000x1 ![0] bcast_S1700000_S1700000x1_0 : (⟨S1700000, .i32⟩ : BufTy).Contents (Elt F) → (⟨S1700000x1, .i32⟩ : BufTy).Contents (Elt F)),
    StableHlo.binary main_v13 main_v19 main_v20 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v20 main_v21 ((extf .f32 · bitsLt_bf16_f32) : (⟨S1700000x128, .bf16⟩ : BufTy).Contents (Elt F) → (⟨S1700000x128, .f32⟩ : BufTy).Contents (Elt F)),
    StableHlo.nullary main_cst_2 (constant S_ .f32 0x00000000#32),
    StableHlo.unary main_cst_2 main_v22 (broadcastInDim S100000x128 ![] bcast_S_S100000x128 : (⟨S_, .f32⟩ : BufTy).Contents (Elt F) → (⟨S100000x128, .f32⟩ : BufTy).Contents (Elt F)),
    StableHlo.unary main_v6 main_v23 (broadcastInDim S1700000x1 ![0] bcast_S1700000_S1700000x1_0 : (⟨S1700000, .i32⟩ : BufTy).Contents (Elt F) → (⟨S1700000x1, .i32⟩ : BufTy).Contents (Elt F)),
    StableHlo.ternary main_v22 main_v23 main_v21 main_v24 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

theorem hostOps1_sub : (hostOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps2 : List (HloOp τ sig (Elt F)) :=
  [ StableHlo.nullary main_c_3 (constantI S_ 32 0#32),
    StableHlo.unary main_c_3 main_v26 (broadcastInDim S1700000 ![] bcast_S_S1700000 : (⟨S_, .i32⟩ : BufTy).Contents (Elt F) → (⟨S1700000, .i32⟩ : BufTy).Contents (Elt F)),
    StableHlo.binary main_v3 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v3 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v25 main_v31 main_v32 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v32 main_v33 ((extf .f32 · bitsLt_bf16_f32) : (⟨S1700000x128, .bf16⟩ : BufTy).Contents (Elt F) → (⟨S1700000x128, .f32⟩ : BufTy).Contents (Elt F)),
    StableHlo.nullary main_cst_5 (constant S_ .f32 0x00000000#32),
    StableHlo.unary main_cst_5 main_v34 (broadcastInDim S100000x128 ![] bcast_S_S100000x128 : (⟨S_, .f32⟩ : BufTy).Contents (Elt F) → (⟨S100000x128, .f32⟩ : BufTy).Contents (Elt F)),
    StableHlo.unary main_v6 main_v35 (broadcastInDim S1700000x1 ![0] bcast_S1700000_S1700000x1_0 : (⟨S1700000, .i32⟩ : BufTy).Contents (Elt F) → (⟨S1700000x1, .i32⟩ : BufTy).Contents (Elt F)),
    StableHlo.ternary main_v34 main_v35 main_v33 main_v36 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

theorem hostOps2_sub : (hostOps2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps3 : List (HloOp τ sig (Elt F)) :=
  [ StableHlo.nullary main_c_6 (constantI S_ 32 0#32),
    StableHlo.unary main_c_6 main_v38 (broadcastInDim S1700000 ![] bcast_S_S1700000 : (⟨S_, .i32⟩ : BufTy).Contents (Elt F) → (⟨S1700000, .i32⟩ : BufTy).Contents (Elt F)),
    StableHlo.binary main_v3 main_v38 main_v39 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v40 (broadcastInDim S1700000 ![] bcast_S_S1700000 : (⟨S_, .i32⟩ : BufTy).Contents (Elt F) → (⟨S1700000, .i32⟩ : BufTy).Contents (Elt F)),
    StableHlo.binary main_v3 main_v40 main_v41 (addi : (⟨S1700000, .i32⟩ : BufTy).Contents (Elt F) → (⟨S1700000, .i32⟩ : BufTy).Contents (Elt F) → (⟨S1700000, .i32⟩ : BufTy).Contents (Elt F)),
    StableHlo.ternary main_v39 main_v41 main_v3 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v42 main_v43 (broadcastInDim S1700000x1 ![0] bcast_S1700000_S1700000x1_0 : (⟨S1700000, .i32⟩ : BufTy).Contents (Elt F) → (⟨S1700000x1, .i32⟩ : BufTy).Contents (Elt F)),
    StableHlo.binary main_v37 main_v43 main_v44 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v44 main_v45 ((extf .f32 · bitsLt_bf16_f32) : (⟨S1700000x128, .bf16⟩ : BufTy).Contents (Elt F) → (⟨S1700000x128, .f32⟩ : BufTy).Contents (Elt F)),
    StableHlo.nullary main_cst_8 (constant S_ .f32 0x00000000#32),
    StableHlo.unary main_cst_8 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg2 main_v49 (broadcastInDim S100000x1 ![0] bcast_S100000_S100000x1_0 : (⟨S100000, .i32⟩ : BufTy).Contents (Elt F) → (⟨S100000x1, .i32⟩ : BufTy).Contents (Elt F)) ]

theorem hostOps3_sub : (hostOps3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.unary_bufs_sub ..⟩

abbrev main_part0_ops3 : List (HloOp τ sig (Elt F)) :=
  [ StableHlo.nullary main_c_6 (constantI S_ 32 0#32),
    StableHlo.unary main_c_6 main_v38 (broadcastInDim S1700000 ![] bcast_S_S1700000 : (⟨S_, .i32⟩ : BufTy).Contents (Elt F) → (⟨S1700000, .i32⟩ : BufTy).Contents (Elt F)),
    StableHlo.binary main_v3 main_v38 main_v39 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v40 (broadcastInDim S1700000 ![] bcast_S_S1700000 : (⟨S_, .i32⟩ : BufTy).Contents (Elt F) → (⟨S1700000, .i32⟩ : BufTy).Contents (Elt F)),
    StableHlo.binary main_v3 main_v40 main_v41 (addi : (⟨S1700000, .i32⟩ : BufTy).Contents (Elt F) → (⟨S1700000, .i32⟩ : BufTy).Contents (Elt F) → (⟨S1700000, .i32⟩ : BufTy).Contents (Elt F)),
    StableHlo.ternary main_v39 main_v41 main_v3 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v42 main_v43 (broadcastInDim S1700000x1 ![0] bcast_S1700000_S1700000x1_0 : (⟨S1700000, .i32⟩ : BufTy).Contents (Elt F) → (⟨S1700000x1, .i32⟩ : BufTy).Contents (Elt F)),
    StableHlo.binary main_v37 main_v43 main_v44 ((fun x i => Host.gather gather_S100000x128_S1700000x1_S1700000x128_1_0_n_n_0_1_1128 x i) : (⟨S100000x128, .bf16⟩ : BufTy).Contents (Elt F) → (⟨S1700000x1, .i32⟩ : BufTy).Contents (Elt F) → (⟨S1700000x128, .bf16⟩ : BufTy).Contents (Elt F)),
    StableHlo.unary main_v44 main_v45 ((extf .f32 · bitsLt_bf16_f32) : (⟨S1700000x128, .bf16⟩ : BufTy).Contents (Elt F) → (⟨S1700000x128, .f32⟩ : BufTy).Contents (Elt F)),
    StableHlo.nullary main_cst_8 (constant S_ .f32 0x00000000#32),
    StableHlo.unary main_cst_8 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

theorem main_part0_chain (c : Dev nD) : main_part0 (F := F) c = (Pipeline.chainK
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ]
  (StableHlo.seq main_part0_ops3) : Prog (TpuEff nD τ sig (Elt F) (Pipeline.Sig Λ₀ (Fin 4) fun p => (pcfgs (F := F) p).Adm) .tc) PUnit) := by
  chain_rfl

abbrev main_part1_ops0 : List (HloOp τ sig (Elt F)) :=
  [ StableHlo.unary main_arg2 main_v49 (broadcastInDim S100000x1 ![0] bcast_S100000_S100000x1_0 : (⟨S100000, .i32⟩ : BufTy).Contents (Elt F) → (⟨S100000x1, .i32⟩ : BufTy).Contents (Elt F)) ]

theorem main_part1_chain (c : Dev nD) : main_part1 (F := F) c = (Pipeline.chain
  [ StableHlo.seq main_part1_ops0,
    Prog.lift (.customCall (Pipeline.entry 3) ()) ] : Prog (TpuEff nD τ sig (Elt F) (Pipeline.Sig Λ₀ (Fin 4) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()) ] : Prog (TpuEff nD τ sig (Elt F) (Pipeline.Sig Λ₀ (Fin 4) fun p => (pcfgs (F := F) p).Adm) .tc) PUnit) := by
  show (main_part0 (F := F) c >>= fun _ => main_part1 (F := F) c) = _
  rewrite [main_part1_chain, main_part0_chain, Pipeline.chainK_bind_chain]
  chain_rfl

end Cert.KernelIdeal.Gen

end
-- ==== Proof.KernelIdeal.Reg0.lean ====
import proofs.«427718_j18545668784934_3_alg».proof.Proof.KernelIdeal.LaunchP
import proofs.«427718_j18545668784934_3_alg».proof.Proof.Gen.KernelIdeal.Skeleton
import proofs.«427718_j18545668784934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S5000x128 := Rect.unit (s := S5000x128) ![0, 0] S5000x128.size inb_S5000x128_S5000x128_0_0

abbrev r0_mat : Rect S128x128 := Rect.unit (s := S128x128) ![0, 0] S128x128.size inb_S128x128_S128x128_0_0

abbrev r0_col : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .bf16 :=
  View.canon [⟨r0_rows, k0_pay1 (View.ld x0 r0_rows) (View.ld x1 r0_mat) (View.ld x2 r0_col)⟩]

theorem cover0_3 (p0 : Vec F S5000x128 .bf16) (y : S5000x128.Idx) :
    ∃ pc ∈ ([⟨r0_rows, p0⟩] : List (View.Piece (Elt F) S5000x128 .bf16)), y ∈ pc.1.set :=
  View.cover_of_wholeMem _ (View.Piece.wholeMem_here (by rfl)) y

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prescale_linear_kernel i arg1 harg1 arg2 harg2 arg3 harg3 arg4 harg4) K := by
  simp only [cc0__prescale_linear_kernel_eq_skeleton]; unfold cc0__prescale_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk

  isplitl [H0]
  · iexists f0; isplitr; · ipureintro; rfl
    iexact H0
  isplitl [H1]
  · iexists f1; isplitr; · ipureintro; rfl
    iexact H1
  isplitl [H2]
  · iexists f2; isplitr; · ipureintro; rfl
    iexact H2

  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

-- what the body finds in an input window at a point is that window's block of the entry contents
theorem before0_in (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) := by
  refine ⟨?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2⟩ := before0_in V c t
  simp only [b0, b1, b2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr
-- ==== Proof.KernelIdeal.Reg1.lean ====
import proofs.«427718_j18545668784934_3_alg».proof.Proof.KernelIdeal.LaunchP
import proofs.«427718_j18545668784934_3_alg».proof.Proof.Gen.KernelIdeal.Skeleton
import proofs.«427718_j18545668784934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S5000x128 := Rect.unit (s := S5000x128) ![0, 0] S5000x128.size inb_S5000x128_S5000x128_0_0

abbrev r1_col : Rect S5000x1 := Rect.unit (s := S5000x1) ![0, 0] S5000x1.size inb_S5000x1_S5000x1_0_0

abbrev r1_vec : Rect S128 := Rect.unit (s := S128) ![0] S128.size inb_S128_S128_0

abbrev r1_mat : Rect S128x128 := Rect.unit (s := S128x128) ![0, 0] S128x128.size inb_S128x128_S128x128_0_0

def out1_6 (x0 : Vec F S5000x128 .f32) (x1 : Vec F S5000x1 .f32) (x2 : Vec F S128 .f32) (x3 : Vec F S128 .f32)
    (x4 : Vec F S128 .f32) (x5 : Vec F S128x128 .f32) : Vec F S5000x128 .bf16 :=
  View.canon [⟨r1_rows, k1_pay1
    (k1_pay2 (View.ld x0 r1_rows) (View.ld x1 r1_col) (View.ld x2 r1_vec) (View.ld x3 r1_vec) (View.ld x4 r1_vec) (View.ld x5 r1_mat))
    (k1_pay3 (View.ld x1 r1_col))⟩]

theorem cover1_6 (p0 : Vec F S5000x128 .bf16) (y : S5000x128.Idx) :
    ∃ pc ∈ ([⟨r1_rows, p0⟩] : List (View.Piece (Elt F) S5000x128 .bf16)), y ∈ pc.1.set :=
  View.cover_of_tiled [⟨r1_rows, p0⟩] S5000x128.size (by rfl) y

set_option maxHeartbeats 4000000 in

theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S5000x128 .bf16) (harg7 : arg7.IsWhole)
    (x0 : Vec F S5000x128 .f32) (x1 : Vec F S5000x1 .f32) (x2 : Vec F S128 .f32) (x3 : Vec F S128 .f32)
    (x4 : Vec F S128 .f32) (x5 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__fused_ln_linear_kernel i arg1 harg1 arg2 harg2 arg3 harg3 arg4 harg4 arg5 harg5 arg6 harg6 arg7 harg7) K := by
  simp only [cc1__fused_ln_linear_kernel_eq_skeleton]; unfold cc1__fused_ln_linear_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- what the body finds in an input window at a point is that window's block of the entry contents
theorem before1_in (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> intro d <;>
    exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5⟩ := before1_in V c t
  simp only [b0, b1, b2, b3, b4, b5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Fr
-- ==== Proof.KernelIdeal.Reg2.lean ====
import proofs.«427718_j18545668784934_3_alg».proof.Proof.KernelIdeal.LaunchP
import proofs.«427718_j18545668784934_3_alg».proof.Proof.Gen.KernelIdeal.Skeleton
import proofs.«427718_j18545668784934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_rows : Rect S5000x128 := Rect.unit (s := S5000x128) ![0, 0] S5000x128.size inb_S5000x128_S5000x128_0_0

abbrev r2_col : Rect S5000x1 := Rect.unit (s := S5000x1) ![0, 0] S5000x1.size inb_S5000x1_S5000x1_0_0

abbrev r2_vec : Rect S128 := Rect.unit (s := S128) ![0] S128.size inb_S128_S128_0

abbrev r2_mat : Rect S128x128 := Rect.unit (s := S128x128) ![0, 0] S128x128.size inb_S128x128_S128x128_0_0

def out2_6 (x0 : Vec F S5000x128 .f32) (x1 : Vec F S5000x1 .f32) (x2 : Vec F S128 .f32) (x3 : Vec F S128 .f32)
    (x4 : Vec F S128 .f32) (x5 : Vec F S128x128 .f32) : Vec F S5000x128 .bf16 :=
  View.canon [⟨r2_rows, k2_pay1
    (k2_pay2 (View.ld x0 r2_rows) (View.ld x1 r2_col) (View.ld x2 r2_vec) (View.ld x3 r2_vec) (View.ld x4 r2_vec) (View.ld x5 r2_mat))
    (k2_pay3 (View.ld x1 r2_col))⟩]

theorem cover2_6 (p0 : Vec F S5000x128 .bf16) (y : S5000x128.Idx) :
    ∃ pc ∈ ([⟨r2_rows, p0⟩] : List (View.Piece (Elt F) S5000x128 .bf16)), y ∈ pc.1.set :=
  View.cover_of_tiled [⟨r2_rows, p0⟩] S5000x128.size (by rfl) y

set_option maxHeartbeats 4000000 in

theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S5000x128 .bf16) (harg7 : arg7.IsWhole)
    (x0 : Vec F S5000x128 .f32) (x1 : Vec F S5000x1 .f32) (x2 : Vec F S128 .f32) (x3 : Vec F S128 .f32)
    (x4 : Vec F S128 .f32) (x5 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__fused_ln_linear_kernel i arg1 harg1 arg2 harg2 arg3 harg3 arg4 harg4 arg5 harg5 arg6 harg6 arg7 harg7) K := by
  simp only [cc2__fused_ln_linear_kernel_eq_skeleton]; unfold cc2__fused_ln_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

-- what the body finds in an input window at a point is that window's block of the entry contents
theorem before2_in (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4, b5⟩ := before2_in V c t
  simp only [b0, b1, b2, b3, b4, b5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Fr
-- ==== Proof.KernelIdeal.Reg3Runs.lean ====
import proofs.«427718_j18545668784934_3_alg».proof.Proof.KernelIdeal.LaunchP
import proofs.«427718_j18545668784934_3_alg».proof.Proof.Gen.KernelIdeal.Skeleton
import proofs.«427718_j18545668784934_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 20 = 0 :=
  (by decide +kernel : ∀ t : Fin grid3.N, cond3_0 (grid3.coords t) ↔ t.val % 20 = 0)

abbrev cond3_1 (i : grid3.Coords) : Prop := k3_cond2 i = 1#1

theorem hcond3_1 : ∀ t : Fin cfg3.N, cond3_1 (grid3.coords t) ↔ t.val % 20 = 19 :=
  (by decide +kernel : ∀ t : Fin grid3.N, cond3_1 (grid3.coords t) ↔ t.val % 20 = 19)

theorem liveAt3_0 : ∀ t : Fin cfg3.N, cfg3.idle 0 (grid3.coords t) = false := by decide +kernel

theorem liveAt3_1 : ∀ t : Fin cfg3.N, cfg3.idle 1 (grid3.coords t) = false := by decide +kernel

theorem liveAt3_2 : ∀ t : Fin cfg3.N, cfg3.idle 2 (grid3.coords t) = false := by decide +kernel

theorem liveAt3_3 : ∀ t : Fin cfg3.N, cfg3.idle 3 (grid3.coords t) = false := by decide +kernel

theorem liveAt3_4 : ∀ t : Fin cfg3.N, cfg3.idle 4 (grid3.coords t) = false := by decide +kernel

theorem liveAt3_5 : ∀ t : Fin cfg3.N, cfg3.idle 5 (grid3.coords t) = false := by decide +kernel

theorem liveAt3_6 : ∀ t : Fin cfg3.N, cfg3.idle 6 (grid3.coords t) = false := by decide +kernel

theorem liveAt3_7 : ∀ t : Fin cfg3.N, cfg3.idle 7 (grid3.coords t) = false := by decide +kernel

theorem liveAt3_8 : ∀ t : Fin cfg3.N, cfg3.idle 8 (grid3.coords t) = false := by decide +kernel

theorem liveAt3_9 : ∀ t : Fin cfg3.N, cfg3.idle 9 (grid3.coords t) = false := by decide +kernel

theorem idleAt3_10_A : ∀ t : Fin cfg3.N, cond3_0 (grid3.coords t) → ¬cond3_1 (grid3.coords t) → cfg3.idle 10 (grid3.coords t) = true := by decide +kernel

theorem noFlush3_10_A : ∀ t : Fin cfg3.N, cond3_0 (grid3.coords t) → ¬cond3_1 (grid3.coords t) → (cfg3.win 10).flush t = false := by decide +kernel

theorem idleAt3_10_B : ∀ t : Fin cfg3.N, ¬cond3_0 (grid3.coords t) → ¬cond3_1 (grid3.coords t) → cfg3.idle 10 (grid3.coords t) = true := by decide +kernel

theorem noFlush3_10_B : ∀ t : Fin cfg3.N, ¬cond3_0 (grid3.coords t) → ¬cond3_1 (grid3.coords t) → (cfg3.win 10).flush t = false := by decide +kernel

theorem liveAt3_10_C : ∀ t : Fin cfg3.N, ¬cond3_0 (grid3.coords t) → cond3_1 (grid3.coords t) → cfg3.idle 10 (grid3.coords t) = false := by decide +kernel

abbrev VO3_10 : View sig .tc .vmem S64x2 .f32 := (Memref.whole cc3_stg10_0 : Memref sig .tc .vmem S64x2 .f32).view

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)

abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)

abbrev ms3_2 (t : Fin cfg3.N) : Memref sig .tc .vmem S128 .f32 := win3_2.stage (cfg3.slots t 2)
abbrev hs3_2 (t : Fin cfg3.N) : (ms3_2 t).IsWhole := hstage3_2 ((cfg3.slots t 2).cast nbuf3_2)

abbrev ms3_3 (t : Fin cfg3.N) : Memref sig .tc .vmem S128 .f32 := win3_3.stage (cfg3.slots t 3)
abbrev hs3_3 (t : Fin cfg3.N) : (ms3_3 t).IsWhole := hstage3_3 ((cfg3.slots t 3).cast nbuf3_3)

abbrev ms3_4 (t : Fin cfg3.N) : Memref sig .tc .vmem S128 .f32 := win3_4.stage (cfg3.slots t 4)
abbrev hs3_4 (t : Fin cfg3.N) : (ms3_4 t).IsWhole := hstage3_4 ((cfg3.slots t 4).cast nbuf3_4)

abbrev ms3_5 (t : Fin cfg3.N) : Memref sig .tc .vmem S5000x1 .i32 := win3_5.stage (cfg3.slots t 5)
abbrev hs3_5 (t : Fin cfg3.N) : (ms3_5 t).IsWhole := hstage3_5 ((cfg3.slots t 5).cast nbuf3_5)

abbrev ms3_6 (t : Fin cfg3.N) : Memref sig .tc .vmem S128x64 .f32 := win3_6.stage (cfg3.slots t 6)
abbrev hs3_6 (t : Fin cfg3.N) : (ms3_6 t).IsWhole := hstage3_6 ((cfg3.slots t 6).cast nbuf3_6)

abbrev ms3_7 (t : Fin cfg3.N) : Memref sig .tc .vmem S64 .f32 := win3_7.stage (cfg3.slots t 7)
abbrev hs3_7 (t : Fin cfg3.N) : (ms3_7 t).IsWhole := hstage3_7 ((cfg3.slots t 7).cast nbuf3_7)

abbrev ms3_8 (t : Fin cfg3.N) : Memref sig .tc .vmem S64x2 .f32 := win3_8.stage (cfg3.slots t 8)
abbrev hs3_8 (t : Fin cfg3.N) : (ms3_8 t).IsWhole := hstage3_8 ((cfg3.slots t 8).cast nbuf3_8)

abbrev ms3_9 (t : Fin cfg3.N) : Memref sig .tc .vmem S2 .f32 := win3_9.stage (cfg3.slots t 9)
abbrev hs3_9 (t : Fin cfg3.N) : (ms3_9 t).IsWhole := hstage3_9 ((cfg3.slots t 9).cast nbuf3_9)

abbrev ms3_10 (t : Fin cfg3.N) : Memref sig .tc .vmem S64x2 .f32 := win3_10.stage (cfg3.slots t 10)
abbrev hs3_10 (t : Fin cfg3.N) : (ms3_10 t).IsWhole := hstage3_10 ((cfg3.slots t 10).cast nbuf3_10)

abbrev scM3_0 : Memref sig .tc .vmem S64x128 .f32 := Memref.whole cc3_scratch0

abbrev scM3_1 : Memref sig .tc .vmem S64x1 .f32 := Memref.whole cc3_scratch1

abbrev VS3_0 : View sig .tc .vmem S64x128 .f32 := scM3_0.view
abbrev VS3_1 : View sig .tc .vmem S64x1 .f32 := scM3_1.view

def R3rest (c : Dev nD) : sProp 𝕄 :=
  iprop(Pipeline.scopedRestBut (Ix := Unit) (Name := ℕ) (U := UR sig nD τ) (Lvl := ℕ) (Val := Elt F) spec3 c [cc3_scratch0, cc3_scratch1] ∗ ∃ r, prngReg c r)

theorem PhiA3_eq (c : Dev nD) :
    (Pipeline.ΦA spec3 c : sProp 𝕄)
      = iprop(iprop((∃ d, owns (c : Thread nD τ) scM3_0 fullShare d) ∗ (∃ d, owns (c : Thread nD τ) scM3_1 fullShare d)) ∗ R3rest (F := F) c) := by
  unfold Pipeline.ΦA R3rest; rw [scopedRest3_split]; simp only [scM3_0, scM3_1, owns_whole]
  refine BI.equiv_iff.mp ⟨?_, ?_⟩
  · show (_ : sProp 𝕄) ⊢ (_ : sProp 𝕄)
    iintro ⟨⟨HS, HR⟩, Hg⟩
    isplitl [HS]; · iexact HS
    isplitl [HR]; · iexact HR
    iexact Hg
  · show (_ : sProp 𝕄) ⊢ (_ : sProp 𝕄)
    iintro ⟨HS, HR, Hg⟩
    isplitr [Hg]
    · isplitl [HS]; · iexact HS
      iexact HR
    iexact Hg

set_option maxHeartbeats 4000000 in

noncomputable def kernelRun3_A (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x64 .f32) (harg7 : arg7.IsWhole) (arg8 : Memref sig .tc .vmem S64 .f32) (harg8 : arg8.IsWhole) (arg9 : Memref sig .tc .vmem S64x2 .f32) (harg9 : arg9.IsWhole) (arg10 : Memref sig .tc .vmem S2 .f32) (harg10 : arg10.IsWhole) (arg11 : Memref sig .tc .vmem S64x2 .f32) (harg11 : arg11.IsWhole) (arg12 : Memref sig .tc .vmem S64x128 .f32) (harg12 : arg12.IsWhole) (arg13 : Memref sig .tc .vmem S64x1 .f32) (harg13 : arg13.IsWhole) (hc0 : cond3_0 i) (hc1 : ¬cond3_1 i)
    (x0 : Vec F S5000x128 .f32) (x1 : Vec F S5000x1 .f32) (x2 : Vec F S128 .f32) (x3 : Vec F S128 .f32) (x4 : Vec F S128 .f32) (x5 : Vec F S5000x1 .i32) (x6 : Vec F S128x64 .f32) (x7 : Vec F S64 .f32) (x8 : Vec F S64x2 .f32) (x9 : Vec F S2 .f32) :
    Σ' (L10 : List (View.Piece (Elt F) S64x2 .f32)), Σ' (LS0 : List (View.Piece (Elt F) S64x128 .f32)), { LS1 : List (View.Piece (Elt F) S64x1 .f32) //
      ∀ (xi10 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__final_ln_pool_mlp_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, fun xi10 E K => ?run⟩
  case run =>
    simp only [cc3__final_ln_pool_mlp_kernel_eq_skeleton]; unfold cc3__final_ln_pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

set_option maxHeartbeats 4000000 in

noncomputable def kernelRun3_B (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x64 .f32) (harg7 : arg7.IsWhole) (arg8 : Memref sig .tc .vmem S64 .f32) (harg8 : arg8.IsWhole) (arg9 : Memref sig .tc .vmem S64x2 .f32) (harg9 : arg9.IsWhole) (arg10 : Memref sig .tc .vmem S2 .f32) (harg10 : arg10.IsWhole) (arg11 : Memref sig .tc .vmem S64x2 .f32) (harg11 : arg11.IsWhole) (arg12 : Memref sig .tc .vmem S64x128 .f32) (harg12 : arg12.IsWhole) (arg13 : Memref sig .tc .vmem S64x1 .f32) (harg13 : arg13.IsWhole) (hc0 : ¬cond3_0 i) (hc1 : ¬cond3_1 i)
    (x0 : Vec F S5000x128 .f32) (x1 : Vec F S5000x1 .f32) (x2 : Vec F S128 .f32) (x3 : Vec F S128 .f32) (x4 : Vec F S128 .f32) (x5 : Vec F S5000x1 .i32) (x6 : Vec F S128x64 .f32) (x7 : Vec F S64 .f32) (x8 : Vec F S64x2 .f32) (x9 : Vec F S2 .f32) (xs0 : Vec F S64x128 .f32) (xs1 : Vec F S64x1 .f32) :
    Σ' (L10 : List (View.Piece (Elt F) S64x2 .f32)), Σ' (LS0 : List (View.Piece (Elt F) S64x128 .f32)), { LS1 : List (View.Piece (Elt F) S64x1 .f32) //
      ∀ (xi10 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__final_ln_pool_mlp_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, fun xi10 E K => ?run⟩
  case run =>
    simp only [cc3__final_ln_pool_mlp_kernel_eq_skeleton]; unfold cc3__final_ln_pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

set_option maxHeartbeats 4000000 in

noncomputable def kernelRun3_C (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x64 .f32) (harg7 : arg7.IsWhole) (arg8 : Memref sig .tc .vmem S64 .f32) (harg8 : arg8.IsWhole) (arg9 : Memref sig .tc .vmem S64x2 .f32) (harg9 : arg9.IsWhole) (arg10 : Memref sig .tc .vmem S2 .f32) (harg10 : arg10.IsWhole) (arg11 : Memref sig .tc .vmem S64x2 .f32) (harg11 : arg11.IsWhole) (arg12 : Memref sig .tc .vmem S64x128 .f32) (harg12 : arg12.IsWhole) (arg13 : Memref sig .tc .vmem S64x1 .f32) (harg13 : arg13.IsWhole) (hc0 : ¬cond3_0 i) (hc1 : cond3_1 i)
    (x0 : Vec F S5000x128 .f32) (x1 : Vec F S5000x1 .f32) (x2 : Vec F S128 .f32) (x3 : Vec F S128 .f32) (x4 : Vec F S128 .f32) (x5 : Vec F S5000x1 .i32) (x6 : Vec F S128x64 .f32) (x7 : Vec F S64 .f32) (x8 : Vec F S64x2 .f32) (x9 : Vec F S2 .f32) (xs0 : Vec F S64x128 .f32) (xs1 : Vec F S64x1 .f32) :
    Σ' (L10 : List (View.Piece (Elt F) S64x2 .f32)), Σ' (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__final_ln_pool_mlp_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc3__final_ln_pool_mlp_kernel_eq_skeleton]; unfold cc3__final_ln_pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]; · iexists _; iexact HS0
    iexists _; iexact HS1

end Cert.KernelIdeal.Fr

end
-- ==== Proof.KernelIdeal.Reg3.lean ====
import proofs.«427718_j18545668784934_3_alg».proof.Proof.KernelIdeal.Reg3Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def runA3 (c : Dev nD) (t : Fin cfg3.N) (h0 : t.val % 20 = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) scM3_1 (Memref.isWhole_whole _)
    ((hcond3_0 t).mpr h0) (fun h => by have h19 := (hcond3_1 t).mp h; omega) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)

def runB3 (c : Dev nD) (t : Fin cfg3.N) (h0 : ¬t.val % 20 = 0) (h1 : ¬t.val % 20 = 19) (xs0 : Vec F S64x128 .f32) (xs1 : Vec F S64x1 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) scM3_1 (Memref.isWhole_whole _)
    (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) xs0 xs1

def runC3 (c : Dev nD) (t : Fin cfg3.N) (h1 : t.val % 20 = 19) (xs0 : Vec F S64x128 .f32) (xs1 : Vec F S64x1 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) scM3_1 (Memref.isWhole_whole _)
    (fun h => by have h00 := (hcond3_0 t).mp h; omega) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) xs0 xs1

def out3_A_10 (c : Dev nD) (t : Fin cfg3.N) (h0 : t.val % 20 = 0) : Vec F S64x2 .f32 :=
  VO3_10.read (Elt F) (VO3_10.writes (Elt F) VO3_10.junk (runA3 V c t h0).1)

theorem scover3_A_0 (c : Dev nD) (t : Fin cfg3.N) (h0 : t.val % 20 = 0) (y : S64x128.Idx) :
    ∃ pc ∈ (runA3 V c t h0).2.1, y ∈ pc.1.set :=
  View.cover_of_tiledL (runA3 V c t h0).2.1 S64x128.size (by sl_kernel_rfl) y

def sout3_A_0 (c : Dev nD) (t : Fin cfg3.N) (h0 : t.val % 20 = 0) : Vec F S64x128 .f32 :=
  VS3_0.read (Elt F) (VS3_0.writes (Elt F) VS3_0.junk (runA3 V c t h0).2.1)

theorem scover3_A_1 (c : Dev nD) (t : Fin cfg3.N) (h0 : t.val % 20 = 0) (y : S64x1.Idx) :
    ∃ pc ∈ (runA3 V c t h0).2.2.1, y ∈ pc.1.set :=
  View.cover_of_tiledL (runA3 V c t h0).2.2.1 S64x1.size (by sl_kernel_rfl) y

def sout3_A_1 (c : Dev nD) (t : Fin cfg3.N) (h0 : t.val % 20 = 0) : Vec F S64x1 .f32 :=
  VS3_1.read (Elt F) (VS3_1.writes (Elt F) VS3_1.junk (runA3 V c t h0).2.2.1)

def out3_B_10 (c : Dev nD) (t : Fin cfg3.N) (h0 : ¬t.val % 20 = 0) (h1 : ¬t.val % 20 = 19) (xs0 : Vec F S64x128 .f32) (xs1 : Vec F S64x1 .f32) : Vec F S64x2 .f32 :=
  VO3_10.read (Elt F) (VO3_10.writes (Elt F) VO3_10.junk (runB3 V c t h0 h1 xs0 xs1).1)

theorem scover3_B_0 (c : Dev nD) (t : Fin cfg3.N) (h0 : ¬t.val % 20 = 0) (h1 : ¬t.val % 20 = 19) (xs0 : Vec F S64x128 .f32) (xs1 : Vec F S64x1 .f32) (y : S64x128.Idx) :
    ∃ pc ∈ (runB3 V c t h0 h1 xs0 xs1).2.1, y ∈ pc.1.set :=
  View.cover_of_tiledL (runB3 V c t h0 h1 xs0 xs1).2.1 S64x128.size (by sl_kernel_rfl) y

def sout3_B_0 (c : Dev nD) (t : Fin cfg3.N) (h0 : ¬t.val % 20 = 0) (h1 : ¬t.val % 20 = 19) (xs0 : Vec F S64x128 .f32) (xs1 : Vec F S64x1 .f32) : Vec F S64x128 .f32 :=
  VS3_0.read (Elt F) (VS3_0.writes (Elt F) VS3_0.junk (runB3 V c t h0 h1 xs0 xs1).2.1)

theorem scover3_B_1 (c : Dev nD) (t : Fin cfg3.N) (h0 : ¬t.val % 20 = 0) (h1 : ¬t.val % 20 = 19) (xs0 : Vec F S64x128 .f32) (xs1 : Vec F S64x1 .f32) (y : S64x1.Idx) :
    ∃ pc ∈ (runB3 V c t h0 h1 xs0 xs1).2.2.1, y ∈ pc.1.set :=
  View.cover_of_tiledL (runB3 V c t h0 h1 xs0 xs1).2.2.1 S64x1.size (by sl_kernel_rfl) y

def sout3_B_1 (c : Dev nD) (t : Fin cfg3.N) (h0 : ¬t.val % 20 = 0) (h1 : ¬t.val % 20 = 19) (xs0 : Vec F S64x128 .f32) (xs1 : Vec F S64x1 .f32) : Vec F S64x1 .f32 :=
  VS3_1.read (Elt F) (VS3_1.writes (Elt F) VS3_1.junk (runB3 V c t h0 h1 xs0 xs1).2.2.1)

theorem cover3_C_10 (c : Dev nD) (t : Fin cfg3.N) (h1 : t.val % 20 = 19) (xs0 : Vec F S64x128 .f32) (xs1 : Vec F S64x1 .f32) (y : S64x2.Idx) :
    ∃ pc ∈ (runC3 V c t h1 xs0 xs1).1, y ∈ pc.1.set :=
  View.cover_of_tiledL (runC3 V c t h1 xs0 xs1).1 S64x2.size (by sl_kernel_rfl) y

def out3_C_10 (c : Dev nD) (t : Fin cfg3.N) (h1 : t.val % 20 = 19) (xs0 : Vec F S64x128 .f32) (xs1 : Vec F S64x1 .f32) : Vec F S64x2 .f32 :=
  VO3_10.read (Elt F) (VO3_10.writes (Elt F) VO3_10.junk (runC3 V c t h1 xs0 xs1).1)

theorem scover3_C_0 (c : Dev nD) (t : Fin cfg3.N) (h1 : t.val % 20 = 19) (xs0 : Vec F S64x128 .f32) (xs1 : Vec F S64x1 .f32) (y : S64x128.Idx) :
    ∃ pc ∈ (runC3 V c t h1 xs0 xs1).2.1, y ∈ pc.1.set :=
  View.cover_of_tiledL (runC3 V c t h1 xs0 xs1).2.1 S64x128.size (by sl_kernel_rfl) y

def sout3_C_0 (c : Dev nD) (t : Fin cfg3.N) (h1 : t.val % 20 = 19) (xs0 : Vec F S64x128 .f32) (xs1 : Vec F S64x1 .f32) : Vec F S64x128 .f32 :=
  VS3_0.read (Elt F) (VS3_0.writes (Elt F) VS3_0.junk (runC3 V c t h1 xs0 xs1).2.1)

theorem scover3_C_1 (c : Dev nD) (t : Fin cfg3.N) (h1 : t.val % 20 = 19) (xs0 : Vec F S64x128 .f32) (xs1 : Vec F S64x1 .f32) (y : S64x1.Idx) :
    ∃ pc ∈ (runC3 V c t h1 xs0 xs1).2.2.1, y ∈ pc.1.set :=
  View.cover_of_tiledL (runC3 V c t h1 xs0 xs1).2.2.1 S64x1.size (by sl_kernel_rfl) y

def sout3_C_1 (c : Dev nD) (t : Fin cfg3.N) (h1 : t.val % 20 = 19) (xs0 : Vec F S64x128 .f32) (xs1 : Vec F S64x1 .f32) : Vec F S64x1 .f32 :=
  VS3_1.read (Elt F) (VS3_1.writes (Elt F) VS3_1.junk (runC3 V c t h1 xs0 xs1).2.2.1)

theorem succ_not_first3 {n : ℕ} (hn : n + 1 < cfg3.N) : ¬(n + 1) % 20 = 0 := by
  have hN : n + 1 < 20 := lt_of_lt_of_eq hn (show cfg3.N = 20 from N_3); omega

def outsAt3 (c : Dev nD) : (n : ℕ) → n < cfg3.N → Vec F S64x2 .f32 × Vec F S64x128 .f32 × Vec F S64x1 .f32
  | 0, hn => (out3_A_10 V c ⟨0, hn⟩ (Nat.zero_mod _), sout3_A_0 V c ⟨0, hn⟩ (Nat.zero_mod _), sout3_A_1 V c ⟨0, hn⟩ (Nat.zero_mod _))
  | n + 1, hn =>
    if h1 : (n + 1) % 20 = 19 then
      (out3_C_10 V c ⟨n + 1, hn⟩ h1 (outsAt3 c n (Nat.lt_of_succ_lt hn)).2.1 (outsAt3 c n (Nat.lt_of_succ_lt hn)).2.2,
       sout3_C_0 V c ⟨n + 1, hn⟩ h1 (outsAt3 c n (Nat.lt_of_succ_lt hn)).2.1 (outsAt3 c n (Nat.lt_of_succ_lt hn)).2.2,
       sout3_C_1 V c ⟨n + 1, hn⟩ h1 (outsAt3 c n (Nat.lt_of_succ_lt hn)).2.1 (outsAt3 c n (Nat.lt_of_succ_lt hn)).2.2)
    else
      (out3_B_10 V c ⟨n + 1, hn⟩ (succ_not_first3 hn) h1 (outsAt3 c n (Nat.lt_of_succ_lt hn)).2.1 (outsAt3 c n (Nat.lt_of_succ_lt hn)).2.2,
       sout3_B_0 V c ⟨n + 1, hn⟩ (succ_not_first3 hn) h1 (outsAt3 c n (Nat.lt_of_succ_lt hn)).2.1 (outsAt3 c n (Nat.lt_of_succ_lt hn)).2.2,
       sout3_B_1 V c ⟨n + 1, hn⟩ (succ_not_first3 hn) h1 (outsAt3 c n (Nat.lt_of_succ_lt hn)).2.1 (outsAt3 c n (Nat.lt_of_succ_lt hn)).2.2)

theorem outsAt3_A (c : Dev nD) (t : Fin cfg3.N) (h0 : t.val % 20 = 0) :
    outsAt3 V c t.val t.isLt = (out3_A_10 V c t h0, sout3_A_0 V c t h0, sout3_A_1 V c t h0) := by
  obtain ⟨n, hn⟩ := t
  cases n with
  | zero => rfl
  | succ n => exact absurd h0 (succ_not_first3 hn)

theorem outsAt3_B (c : Dev nD) (t : Fin cfg3.N) (h0 : ¬t.val % 20 = 0) (h1 : ¬t.val % 20 = 19) :
    outsAt3 V c t.val t.isLt =
      (out3_B_10 V c t h0 h1 (outsAt3 V c (t.val - 1) (Nat.lt_of_le_of_lt (Nat.sub_le _ _) t.isLt)).2.1 (outsAt3 V c (t.val - 1) (Nat.lt_of_le_of_lt (Nat.sub_le _ _) t.isLt)).2.2,
       sout3_B_0 V c t h0 h1 (outsAt3 V c (t.val - 1) (Nat.lt_of_le_of_lt (Nat.sub_le _ _) t.isLt)).2.1 (outsAt3 V c (t.val - 1) (Nat.lt_of_le_of_lt (Nat.sub_le _ _) t.isLt)).2.2,
       sout3_B_1 V c t h0 h1 (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd (Nat.zero_mod _) h0
  | succ n => exact (dif_neg h1).trans rfl

theorem outsAt3_C (c : Dev nD) (t : Fin cfg3.N) (h1 : t.val % 20 = 19) :
    outsAt3 V c t.val t.isLt =
      (out3_C_10 V c t h1 (outsAt3 V c (t.val - 1) (Nat.lt_of_le_of_lt (Nat.sub_le _ _) t.isLt)).2.1 (outsAt3 V c (t.val - 1) (Nat.lt_of_le_of_lt (Nat.sub_le _ _) t.isLt)).2.2,
       sout3_C_0 V c t h1 (outsAt3 V c (t.val - 1) (Nat.lt_of_le_of_lt (Nat.sub_le _ _) t.isLt)).2.1 (outsAt3 V c (t.val - 1) (Nat.lt_of_le_of_lt (Nat.sub_le _ _) t.isLt)).2.2,
       sout3_C_1 V c t h1 (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd (show 0 % 20 = 19 from h1) (by decide)
  | succ n => exact (dif_pos h1).trans rfl

def PhiS3 (c : Dev nD) : (n : ℕ) → n ≤ cfg3.N → sProp 𝕄
  | 0, _ => Pipeline.ΦA spec3 c
  | n + 1, hn => iprop(iprop(owns (c : Thread nD τ) scM3_0 fullShare (outsAt3 V c n hn).2.1 ∗ owns (c : Thread nD τ) scM3_1 fullShare (outsAt3 V c n hn).2.2) ∗ R3rest (F := F) c)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (outsAt3 V c n hn).2.1 ∗ owns (c : Thread nD τ) scM3_1 fullShare (outsAt3 V c n hn).2.2) ∗ R3rest (F := F) c) := rfl

theorem PhiS3_pos (c : Dev nD) (n : ℕ) (h : n ≤ cfg3.N) (hz : n ≠ 0) :
    PhiS3 V c n h = iprop(iprop(owns (c : Thread nD τ) scM3_0 fullShare (outsAt3 V c (n - 1) (by omega)).2.1 ∗ owns (c : Thread nD τ) scM3_1 fullShare (outsAt3 V c (n - 1) (by omega)).2.2) ∗ R3rest (F := F) c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = (outsAt3 V c t.val t.isLt).1 := by dsimp only [dat3]

-- what the body finds in an input window at a point is that window's block of the entry contents
theorem before3_in (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) ∧ (∀ d, (dat3 V c).before 5 t d = iblk3 V c 5 t)
    ∧ (∀ d, (dat3 V c).before 6 t d = iblk3 V c 6 t) ∧ (∀ d, (dat3 V c).before 7 t d = iblk3 V c 7 t)
    ∧ (∀ d, (dat3 V c).before 8 t d = iblk3 V c 8 t) ∧ (∀ d, (dat3 V c).before 9 t d = iblk3 V c 9 t) := by
  refine ⟨?_, ?_, ?_, ?_, ?_, ?_, ?_, ?_, ?_, ?_⟩ <;> intro d <;>
    exact ((dat3 V c).before_in_eq_fetched _ rfl (fun _ => rfl) (fun _ _ _ => rfl) (fun _ => rfl) t d).trans rfl

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (ms3_4 t) fullShare (iblk3 V c 4 t) := by
  unfold Dat.leavesExact; rw [liveAt3_4 t, after3_4]
theorem leaves3_5 (c : Dev nD) (t : Fin cfg3.N) :
    (dat3 V c).leavesExact 5 t = owns (c : Thread nD τ) (ms3_5 t) fullShare (iblk3 V c 5 t) := by
  unfold Dat.leavesExact; rw [liveAt3_5 t, after3_5]
theorem leaves3_6 (c : Dev nD) (t : Fin cfg3.N) :
    (dat3 V c).leavesExact 6 t = owns (c : Thread nD τ) (ms3_6 t) fullShare (iblk3 V c 6 t) := by
  unfold Dat.leavesExact; rw [liveAt3_6 t, after3_6]
theorem leaves3_7 (c : Dev nD) (t : Fin cfg3.N) :
    (dat3 V c).leavesExact 7 t = owns (c : Thread nD τ) (ms3_7 t) fullShare (iblk3 V c 7 t) := by
  unfold Dat.leavesExact; rw [liveAt3_7 t, after3_7]
theorem leaves3_8 (c : Dev nD) (t : Fin cfg3.N) :
    (dat3 V c).leavesExact 8 t = owns (c : Thread nD τ) (ms3_8 t) fullShare (iblk3 V c 8 t) := by
  unfold Dat.leavesExact; rw [liveAt3_8 t, after3_8]
theorem leaves3_9 (c : Dev nD) (t : Fin cfg3.N) :
    (dat3 V c).leavesExact 9 t = owns (c : Thread nD τ) (ms3_9 t) fullShare (iblk3 V c 9 t) := by
  unfold Dat.leavesExact; rw [liveAt3_9 t, after3_9]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3, b4, b5, b6, b7, b8, b9⟩ := before3_in V c t
  simp only [b0, b1, b2, b3, b4, b5, b6, b7, b8, b9]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7, leaves3_8, leaves3_9]
  have hN : t.val < 20 := lt_of_lt_of_eq t.isLt (show cfg3.N = 20 from N_3)
  by_cases h0 : t.val % 20 = 0
  ·
    have hz : t.val = 0 := by omega
    have hc0 : cond3_0 (grid3.coords t) := (hcond3_0 t).mpr h0
    have hc1 : ¬cond3_1 (grid3.coords t) := fun h => by have h19 := (hcond3_1 t).mp h; omega
    rw [Dat.leavesExact_idle (dat3 V c) 10 t (idleAt3_10_A t hc0 hc1) (noFlush3_10_A t hc0 hc1)]
    rw [outsAt3_A V c t h0]
    unfold sout3_A_0 sout3_A_1; (try dsimp only)
    rw [PhiS3_castSucc V c t, PhiS3_zero V c _ _ hz, PhiA3_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA3 V c t h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover3_A_0 V c t h0)
        · unfold owns; iexists _; isplitr
          swap; · iexact HS1
          ipureintro; exact View.read_writes_of_cover _ _ _ _ _ (scover3_A_1 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hz : t.val ≠ 0 := fun h => h0 (by rw [h])
    have hc0 : ¬cond3_0 (grid3.coords t) := fun h => h0 ((hcond3_0 t).mp h)
    by_cases h1 : t.val % 20 = 19
    ·
      have hc1 : cond3_1 (grid3.coords t) := (hcond3_1 t).mpr h1
      rw [show (dat3 V c).leavesExact 10 t = owns (c : Thread nD τ) (ms3_10 t) fullShare ((dat3 V c).after 10 t) from by
        unfold Dat.leavesExact; rw [liveAt3_10_C t hc0 hc1], after3_10]
      rw [outsAt3_C V c t h1]
      unfold out3_C_10 sout3_C_0 sout3_C_1; (try dsimp only)
      rw [PhiS3_castSucc V c t, PhiS3_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC3 V c t h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover3_C_0 V c t h1 _ _)
          · unfold owns; iexists _; isplitr
            swap; · iexact HS1
            ipureintro; exact View.read_writes_of_cover _ _ _ _ _ (scover3_C_1 V c t h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_C_10 V c t h1 _ _)
    ·
      have hc1 : ¬cond3_1 (grid3.coords t) := fun h => h1 ((hcond3_1 t).mp h)
      rw [Dat.leavesExact_idle (dat3 V c) 10 t (idleAt3_10_B t hc0 hc1) (noFlush3_10_B t hc0 hc1)]
      rw [outsAt3_B V c t h0 h1]
      unfold sout3_B_0 sout3_B_1; (try dsimp only)
      rw [PhiS3_castSucc V c t, PhiS3_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB3 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover3_B_0 V c t h0 h1 _ _)
          · unfold owns; iexists _; isplitr
            swap; · iexact HS1
            ipureintro; exact View.read_writes_of_cover _ _ _ _ _ (scover3_B_1 V c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Entails.of_eq (PhiS3_zero V c 0 (Nat.zero_le _) rfl).symm

theorem hout3 (c : Dev nD) : (dat3 V c).Φ (Fin.last cfg3.N) ⊢ Pipeline.ΦA spec3 c := by
  have hlast : (Fin.last cfg3.N).val ≠ 0 := by rw [Fin.val_last, show cfg3.N = 20 from N_3]; decide
  rw [show (dat3 V c).Φ (Fin.last cfg3.N) = PhiS3 V c (Fin.last cfg3.N).val (Nat.le_of_lt_succ (Fin.last cfg3.N).isLt) from rfl,
    PhiS3_pos V c _ _ hlast, PhiA3_eq]
  iintro ⟨⟨HS0, HS1⟩, Hg⟩
  isplitl [HS0 HS1]
  · isplitl [HS0]
    · iexists _; iexact HS0
    · iexists _; iexact HS1
  iexact Hg

end Cert.KernelIdeal.Fr

end
-- ==== Proof.KernelIdeal.Run.lean ====
import proofs.«427718_j18545668784934_3_alg».proof.Proof.KernelIdeal.Reg0
import proofs.«427718_j18545668784934_3_alg».proof.Proof.KernelIdeal.Reg1
import proofs.«427718_j18545668784934_3_alg».proof.Proof.KernelIdeal.Reg2
import proofs.«427718_j18545668784934_3_alg».proof.Proof.KernelIdeal.Reg3
import proofs.«427718_j18545668784934_3_alg».proof.Proof.Gen.KernelIdeal.Skeleton
import proofs.«427718_j18545668784934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev hostOps0_W : List (Ref sig .tc) := [main_v0, main_v1, main_v2, main_v3, main_v4, main_v5, main_v6, main_cst, main_v7, main_cst_0, main_v8, main_v9, main_v10, main_v11, main_v12]
abbrev hostOps1_W : List (Ref sig .tc) := [main_c, main_v14, main_v15, main_c_1, main_v16, main_v17, main_v18, main_v19, main_v20, main_v21, main_cst_2, main_v22, main_v23, main_v24]
abbrev hostOps2_W : List (Ref sig .tc) := [main_c_3, main_v26, main_v27, main_c_4, main_v28, main_v29, main_v30, main_v31, main_v32, main_v33, main_cst_5, main_v34, main_v35, main_v36]
abbrev hostOps3_W : List (Ref sig .tc) := [main_c_6, main_v38, main_v39, main_c_7, main_v40, main_v41, main_v42, main_v43, main_v44, main_v45, main_cst_8, main_v46, main_v47, main_v48, main_v49]

-- every operation of a host stretch writes one buffer, and the stretch's list names it
theorem hostOps_writes :
    ((hostOps0 : List (HloOp τ sig (Elt F))).Forall fun op => op.writes ⊆ (hostOps0_W.map (Proc.devRef (τ := τ) .tc)).toFinset)
    ∧ ((hostOps1 : List (HloOp τ sig (Elt F))).Forall fun op => op.writes ⊆ (hostOps1_W.map (Proc.devRef (τ := τ) .tc)).toFinset)
    ∧ ((hostOps2 : List (HloOp τ sig (Elt F))).Forall fun op => op.writes ⊆ (hostOps2_W.map (Proc.devRef (τ := τ) .tc)).toFinset)
    ∧ ((hostOps3 : List (HloOp τ sig (Elt F))).Forall fun op => op.writes ⊆ (hostOps3_W.map (Proc.devRef (τ := τ) .tc)).toFinset) := by
  refine ⟨?_, ?_, ?_, ?_⟩
  all_goals
    simp only [List.Forall]
    repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W1_keep (c : Dev nD) (b : Ref sig .tc) (hb : b ∉ hostOps0_W) :
    W1 m ρ c (Proc.devRef .tc b) = W0 m ρ c (Proc.devRef .tc b) :=
  StableHlo.after_of_writes_sub hostOps0 _ hostOps_writes.1 hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W3_keep (c : Dev nD) (b : Ref sig .tc) (hb : b ∉ hostOps1_W) :
    W3 m ρ c (Proc.devRef .tc b) = W2 m ρ c (Proc.devRef .tc b) :=
  StableHlo.after_of_writes_sub hostOps1 _ hostOps_writes.2.1 hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w

theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

theorem W6_keep (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W5_keep (c : Dev nD) (b : Ref sig .tc) (hb : b ∉ hostOps2_W) :
    W5 m ρ c (Proc.devRef .tc b) = W4 m ρ c (Proc.devRef .tc b) :=
  StableHlo.after_of_writes_sub hostOps2 _ hostOps_writes.2.2.1 hb

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
abbrev V8 : (c : Dev nD) → (b : Ref sig .tc) → Buf (Elt F) ((c : Thread nD τ).loc b) := fun c b => W8 m ρ c b

theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w

theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

theorem W8_keep (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

theorem W7_keep (c : Dev nD) (b : Ref sig .tc) (hb : b ∉ hostOps3_W) :
    W7 m ρ c (Proc.devRef .tc b) = W6 m ρ c (Proc.devRef .tc b) :=
  StableHlo.after_of_writes_sub hostOps3 _ hostOps_writes.2.2.2 hb

-- a buffer no host stretch writes and no region names through an output window ends as launched
theorem W8_launch (c : Dev nD) (b : Ref sig .tc)
    (h0 : b ∉ hostOps0_W) (h1 : b ∉ hostOps1_W) (h2 : b ∉ hostOps2_W) (h3 : b ∉ hostOps3_W)
    (k0 : ∀ w, Pipeline.arrRef spec0 w = b → (cfg0.win w).isOut = false)
    (k1 : ∀ w, Pipeline.arrRef spec1 w = b → (cfg1.win w).isOut = false)
    (k2 : ∀ w, Pipeline.arrRef spec2 w = b → (cfg2.win w).isOut = false)
    (k3 : ∀ w, Pipeline.arrRef spec3 w = b → (cfg3.win w).isOut = false) :
    W8 m ρ c (Proc.devRef .tc b) = m ((c : Thread nD τ).loc b) :=
  calc W8 m ρ c (Proc.devRef .tc b)
    _ = W7 m ρ c (Proc.devRef .tc b) := W8_keep m ρ c b k3
    _ = W6 m ρ c (Proc.devRef .tc b) := W7_keep m ρ c b h3
    _ = W5 m ρ c (Proc.devRef .tc b) := W6_keep m ρ c b k2
    _ = W4 m ρ c (Proc.devRef .tc b) := W5_keep m ρ c b h2
    _ = W3 m ρ c (Proc.devRef .tc b) := W4_keep m ρ c b k1
    _ = W2 m ρ c (Proc.devRef .tc b) := W3_keep m ρ c b h1
    _ = W1 m ρ c (Proc.devRef .tc b) := W2_keep m ρ c b k0
    _ = W0 m ρ c (Proc.devRef .tc b) := W1_keep m ρ c b h0
    _ = m ((c : Thread nD τ).loc b) := rfl

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

-- no host stretch writes an argument and no region names one through an output window
theorem W8_arg (c : Dev nD) (b : Ref sig .tc) (hb : b ∈ argRefs) : W8 m ρ c (Proc.devRef .tc b) = m ((c : Thread nD τ).loc b) := by
  have h : ∀ b ∈ argRefs, b ∉ hostOps0_W ∧ b ∉ hostOps1_W ∧ b ∉ hostOps2_W ∧ b ∉ hostOps3_W
      ∧ (∀ w, Pipeline.arrRef spec0 w = b → (cfg0.win w).isOut = false) ∧ (∀ w, Pipeline.arrRef spec1 w = b → (cfg1.win w).isOut = false)
      ∧ (∀ w, Pipeline.arrRef spec2 w = b → (cfg2.win w).isOut = false) ∧ (∀ w, Pipeline.arrRef spec3 w = b → (cfg3.win w).isOut = false) := by
    decide
  obtain ⟨h0, h1, h2, h3, k0, k1, k2, k3⟩ := h b hb
  exact W8_launch m ρ c b h0 h1 h2 h3 k0 k1 k2 k3

theorem W8_out (c : Dev nD) : W8 m ρ c (Proc.devRef .tc main_v50) = (dat3 (V7 m ρ) c).arrAt 10 cfg3.N :=
  W8_arr m ρ c 10

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

set_option backward.isDefEq.respectTransparency.types false in
-- a region changes exactly its windows' arrays: entered at the contents `Wi`, it is left at `Wo`
def reg (p : Fin 4) (hl : Pipeline.LaunchFacts (nD := nD) (τ := τ) cfgs p)
    (Wi Wo : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ)
    (hsh : ∀ c w, (pdats m ρ p c).share w = fullShare)
    (hA : ∀ c w, (pdats m ρ p c).A w = Wi c (Proc.devRef .tc (Pipeline.arrRef (Pipeline.pin (pcfgs (F := F)) adm p).spec w)))
    (hF : ∀ c w, (pdats m ρ p c).arrAt w (Pipeline.pin (pcfgs (F := F)) adm p).N = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wo c (Proc.devRef .tc b) = Wi c (Proc.devRef .tc b))
    (hin : ∀ c, Pipeline.ΦA (Pipeline.pin (pcfgs (F := F)) adm p).spec c ⊢ (pdats m ρ p c).Φ 0)
    (hout : ∀ c, (pdats m ρ p c).Φ (Fin.last _) ⊢ Pipeline.ΦA (Pipeline.pin (pcfgs (F := F)) adm p).spec c) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := T Wi c
  post c := T Wo c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) hl.win hl.arr_whole c
      (hsh c) (fun b => Wi c b) (hA c)
    rw [Pipeline.unscopedBufs_held] at hsplit
    unfold Pipeline.Dat.owesAt Pipeline.owesWithin
    rw [howed c 0]
    iintro ⟨⟨Hu, Hg, Ho⟩, -, -⟩
    ihave H := hsplit $$ Hu
    icases H with ⟨Ha, Hz⟩
    imodintro
    isplitl [Ha]; · iexact Ha
    isplitr; · unfold Pipeline.prefHeld; rw [show (Finset.univ : Finset (Fin 0)) = ∅ from rfl, BI.bigSep_empty]; iempintro
    isplitl [Ho]
    · icases Ho with ⟨%W, Ho⟩; iexists W; isplitr; · ipureintro; exact fun _ _ => Or.inl (by rw [hrec c 0]; exact Set.mem_univ _)
      iexact Ho
    isplitl [Hg]; · iexact Hg
    iexact Hz
  hin c := by
    refine BIBase.Entails.trans ?_ (hin c)
    unfold Pipeline.ΦA
    iintro ⟨Hg, -, Hs⟩
    isplitl [Hs]; · iexact Hs
    iexact Hg
  hout c := by
    rw [Pipeline.ownSems0_none]
    refine BIBase.Entails.trans (hout c) ?_
    unfold Pipeline.ΦA
    iintro ⟨Hs, Hg⟩
    isplitl [Hg]; · iexact Hg
    isplitr; · iempintro
    iexact Hs
  hexit c := by
    have hjoin := Pipeline.unscopedBufs_of_arrays (p := p) (pcfgs (F := F)) adm (Ix := Unit) (Name := ℕ) (U := UR sig nD τ) (Lvl := ℕ)
      hl.win hl.arr_whole c (pdats m ρ) (hsh c)
      (fun b => Wi c b) (fun b => Wo c b) ((pdats m ρ p c).arrAt · (Pipeline.pin (pcfgs (F := F)) adm p).N) (hF c) (hrest c)
    rw [Pipeline.unscopedBufs_held] at hjoin
    unfold Pipeline.Dat.owesAt Pipeline.owesWithin
    rw [howed c (Fin.last _)]
    iintro ⟨Ha, Ho, Hg, Hz⟩
    imodintro
    isplitl [Ha Hz]
    · iapply hjoin; isplitl [Ha] <;> iassumption
    isplitl [Hg]; · iexact Hg
    icases Ho with ⟨%W, -, Ho⟩; iexists W; iexact Ho

set_option backward.isDefEq.respectTransparency.types false in
def reg0 : Pipeline.RegionSeg (pcfgs (F := F)) adm (pdats m ρ) () defs₀ 𝒱₀ L lv 0 :=
  reg m ρ 0 launch0 (W1 m ρ) (W2 m ρ) (fun c => (body_obligation0 (V1 m ρ) c).loose) (fun _ _ => rfl) (fun _ _ => rfl)
    (fun c => (pdats m ρ 0 c).share_full fun _ => rfl) (fun _ _ => rfl)
    (hF0 m ρ) (hrest0 m ρ) (fun _ => .of_eq rfl) (fun _ => .of_eq rfl)
set_option backward.isDefEq.respectTransparency.types false in
def reg1 : Pipeline.RegionSeg (pcfgs (F := F)) adm (pdats m ρ) () defs₀ 𝒱₀ L lv 1 :=
  reg m ρ 1 launch1 (W3 m ρ) (W4 m ρ) (fun c => (body_obligation1 (V3 m ρ) c).loose) (fun _ _ => rfl) (fun _ _ => rfl)
    (fun c => (pdats m ρ 1 c).share_full fun _ => rfl) (fun _ _ => rfl)
    (hF1 m ρ) (hrest1 m ρ) (fun _ => .of_eq rfl) (fun _ => .of_eq rfl)
set_option backward.isDefEq.respectTransparency.types false in
def reg2 : Pipeline.RegionSeg (pcfgs (F := F)) adm (pdats m ρ) () defs₀ 𝒱₀ L lv 2 :=
  reg m ρ 2 launch2 (W5 m ρ) (W6 m ρ) (fun c => (body_obligation2 (V5 m ρ) c).loose) (fun _ _ => rfl) (fun _ _ => rfl)
    (fun c => (pdats m ρ 2 c).share_full fun _ => rfl) (fun _ _ => rfl)
    (hF2 m ρ) (hrest2 m ρ) (fun _ => .of_eq rfl) (fun _ => .of_eq rfl)
set_option backward.isDefEq.respectTransparency.types false in
def reg3 : Pipeline.RegionSeg (pcfgs (F := F)) adm (pdats m ρ) () defs₀ 𝒱₀ L lv 3 :=
  reg m ρ 3 launch3 (W7 m ρ) (W8 m ρ) (fun c => (body_obligation3 (V7 m ρ) c).loose) (fun _ _ => rfl) (fun _ _ => rfl)
    (fun c => (pdats m ρ 3 c).share_full fun _ => rfl) (fun _ _ => rfl)
    (hF3 m ρ) (hrest3 m ρ) (hin3 (V7 m ρ)) (hout3 (V7 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem segs_progs : (segs m ρ).map Pipeline.Seg.prog = [
      StableHlo.seq hostOps0, Prog.lift (.customCall (Pipeline.entry 0) ()),
      StableHlo.seq hostOps1, Prog.lift (.customCall (Pipeline.entry 1) ()),
      StableHlo.seq hostOps2, Prog.lift (.customCall (Pipeline.entry 2) ()),
      StableHlo.seq hostOps3, Prog.lift (.customCall (Pipeline.entry 3) ()) ] := rfl

theorem main_run (c : Dev nD) : main (F := F) c = Pipeline.Seg.run (segs m ρ) := by
  rw [main_chain c, Pipeline.Seg.run_eq_chain, segs_progs]

-- every weakly fair execution of @main terminates without fault, and every buffer then holds `W8`
set_option backward.isDefEq.respectTransparency.types false in
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ (∃ r, prngReg c r)
        ∗ ∃ W, owes (c : Thread nD τ) (0 : CellTallies nD τ sig Unit) W) ⊢ _
      iintro ⟨Hu, Hg, Ho⟩
      isplitl [Hu Hg]
      · isplitl [Hu] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hu, -, Ho, -, Hg, -⟩, -⟩
      imodintro
      isplitl [Hu]; · iexact Hu
      isplitl [Hg]; · iexists _; iexact Hg
      iexists ∅; iexact Ho)
    (QY := fun c s => ∀ b ∈ Pipeline.ucRefs τ sig, s.mem (((c : Thread nD τ)).1, b) = W8 m ρ c b)
    (hfin := fun c s' => by
      iintro ⟨⟨Hu, -⟩, HSI⟩
      unfold StableHlo.held
      imodintro
      iapply (pointsTo_read_all (Pipeline.ucRefs τ sig) (fun b => (((c : Thread nD τ)).1, b)) (W8 m ρ c) s')
      isplitl [Hu] <;> iassumption)
    (hQ := fun _ h => h)

-- the result buffer and the nineteen arguments at the return
theorem run_result : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have a : ∀ b (hb : b ∈ argRefs), r.2.mem ((c.tc : Thread nD τ).loc b) = m ((c.tc : Thread nD τ).loc b) := fun b hb =>
      (h c _ (mem_uc b (by revert b; decide))).trans (W8_arg m ρ c b hb)
    refine ⟨h c _ (mem_uc main_v50 (by decide)), ?_⟩
    repeat' apply And.intro
    all_goals exact a _ (by decide))
    (run_bufs m ρ)

end Cert.KernelIdeal.Fr

end
-- ==== Proof.Reference.RunAt.lean ====
import proofs.«427718_j18545668784934_3_alg».proof.Proof.Reference.ReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def At0 (V0 W : Valuation τ sig (Elt F)) : Prop :=
  W (no_index (Proc.devRef .tc main_arg0)) = V0 (Proc.devRef .tc main_arg0)
  ∧ W (no_index (Proc.devRef .tc main_arg1)) = V0 (Proc.devRef .tc main_arg1)
  ∧ W (no_index (Proc.devRef .tc main_arg2)) = V0 (Proc.devRef .tc main_arg2)
  ∧ W (no_index (Proc.devRef .tc main_arg3)) = V0 (Proc.devRef .tc main_arg3)
  ∧ W (no_index (Proc.devRef .tc main_arg4)) = V0 (Proc.devRef .tc main_arg4)
  ∧ W (no_index (Proc.devRef .tc main_arg5)) = V0 (Proc.devRef .tc main_arg5)
  ∧ W (no_index (Proc.devRef .tc main_arg6)) = V0 (Proc.devRef .tc main_arg6)
  ∧ W (no_index (Proc.devRef .tc main_arg7)) = V0 (Proc.devRef .tc main_arg7)
  ∧ W (no_index (Proc.devRef .tc main_arg8)) = V0 (Proc.devRef .tc main_arg8)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At1 (V0 W : Valuation τ sig (Elt F)) : Prop :=
  W (no_index (Proc.devRef .tc main_v0)) = Read.val_main_v0 (F := F)
  ∧ W (no_index (Proc.devRef .tc main_v2)) = Read.val_main_v2 (F := F) (V0 (Proc.devRef .tc main_arg1))
  ∧ W (no_index (Proc.devRef .tc main_arg0)) = V0 (Proc.devRef .tc main_arg0)
  ∧ W (no_index (Proc.devRef .tc main_arg1)) = V0 (Proc.devRef .tc main_arg1)
  ∧ W (no_index (Proc.devRef .tc main_arg2)) = V0 (Proc.devRef .tc main_arg2)
  ∧ W (no_index (Proc.devRef .tc main_arg3)) = V0 (Proc.devRef .tc main_arg3)
  ∧ W (no_index (Proc.devRef .tc main_arg4)) = V0 (Proc.devRef .tc main_arg4)
  ∧ W (no_index (Proc.devRef .tc main_arg5)) = V0 (Proc.devRef .tc main_arg5)
  ∧ W (no_index (Proc.devRef .tc main_arg6)) = V0 (Proc.devRef .tc main_arg6)
  ∧ W (no_index (Proc.devRef .tc main_arg7)) = V0 (Proc.devRef .tc main_arg7)
  ∧ W (no_index (Proc.devRef .tc main_arg8)) = V0 (Proc.devRef .tc main_arg8)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At2 (V0 W : Valuation τ sig (Elt F)) : Prop :=
  W (no_index (Proc.devRef .tc main_v0)) = Read.val_main_v0 (F := F)
  ∧ W (no_index (Proc.devRef .tc main_v3)) = Read.val_main_v3 (F := F) (V0 (Proc.devRef .tc main_arg1))
  ∧ W (no_index (Proc.devRef .tc main_v5)) = Read.val_main_v5 (F := F) (V0 (Proc.devRef .tc main_arg1))
  ∧ W (no_index (Proc.devRef .tc main_arg0)) = V0 (Proc.devRef .tc main_arg0)
  ∧ W (no_index (Proc.devRef .tc main_arg2)) = V0 (Proc.devRef .tc main_arg2)
  ∧ W (no_index (Proc.devRef .tc main_arg3)) = V0 (Proc.devRef .tc main_arg3)
  ∧ W (no_index (Proc.devRef .tc main_arg4)) = V0 (Proc.devRef .tc main_arg4)
  ∧ W (no_index (Proc.devRef .tc main_arg5)) = V0 (Proc.devRef .tc main_arg5)
  ∧ W (no_index (Proc.devRef .tc main_arg6)) = V0 (Proc.devRef .tc main_arg6)
  ∧ W (no_index (Proc.devRef .tc main_arg7)) = V0 (Proc.devRef .tc main_arg7)
  ∧ W (no_index (Proc.devRef .tc main_arg8)) = V0 (Proc.devRef .tc main_arg8)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At3 (V0 W : Valuation τ sig (Elt F)) : Prop :=
  W (no_index (Proc.devRef .tc main_v3)) = Read.val_main_v3 (F := F) (V0 (Proc.devRef .tc main_arg1))
  ∧ W (no_index (Proc.devRef .tc main_v6)) = Read.val_main_v6 (F := F) (V0 (Proc.devRef .tc main_arg1))
  ∧ W (no_index (Proc.devRef .tc main_v26)) = Read.val_main_v26 (F := F) (V0 (Proc.devRef .tc main_arg1))
  ∧ W (no_index (Proc.devRef .tc main_arg0)) = V0 (Proc.devRef .tc main_arg0)
  ∧ W (no_index (Proc.devRef .tc main_arg2)) = V0 (Proc.devRef .tc main_arg2)
  ∧ W (no_index (Proc.devRef .tc main_arg3)) = V0 (Proc.devRef .tc main_arg3)
  ∧ W (no_index (Proc.devRef .tc main_arg4)) = V0 (Proc.devRef .tc main_arg4)
  ∧ W (no_index (Proc.devRef .tc main_arg5)) = V0 (Proc.devRef .tc main_arg5)
  ∧ W (no_index (Proc.devRef .tc main_arg6)) = V0 (Proc.devRef .tc main_arg6)
  ∧ W (no_index (Proc.devRef .tc main_arg7)) = V0 (Proc.devRef .tc main_arg7)
  ∧ W (no_index (Proc.devRef .tc main_arg8)) = V0 (Proc.devRef .tc main_arg8)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At4 (V0 W : Valuation τ sig (Elt F)) : Prop :=
  W (no_index (Proc.devRef .tc main_v3)) = Read.val_main_v3 (F := F) (V0 (Proc.devRef .tc main_arg1))
  ∧ W (no_index (Proc.devRef .tc main_v6)) = Read.val_main_v6 (F := F) (V0 (Proc.devRef .tc main_arg1))
  ∧ W (no_index (Proc.devRef .tc main_v26)) = Read.val_main_v26 (F := F) (V0 (Proc.devRef .tc main_arg1))
  ∧ W (no_index (Proc.devRef .tc main_v43)) = Read.val_main_v43 (F := F) (V0 (Proc.devRef .tc main_arg0)) (V0 (Proc.devRef .tc main_arg1)) (V0 (Proc.devRef .tc main_arg3)) (V0 (Proc.devRef .tc main_arg4))
  ∧ W (no_index (Proc.devRef .tc main_v47)) = Read.val_main_v47 (F := F) (V0 (Proc.devRef .tc main_arg0)) (V0 (Proc.devRef .tc main_arg1)) (V0 (Proc.devRef .tc main_arg3)) (V0 (Proc.devRef .tc main_arg4))
  ∧ W (no_index (Proc.devRef .tc main_v48)) = Read.val_main_v48 (F := F) (V0 (Proc.devRef .tc main_arg0)) (V0 (Proc.devRef .tc main_arg1)) (V0 (Proc.devRef .tc main_arg3)) (V0 (Proc.devRef .tc main_arg4))
  ∧ W (no_index (Proc.devRef .tc main_arg2)) = V0 (Proc.devRef .tc main_arg2)
  ∧ W (no_index (Proc.devRef .tc main_arg5)) = V0 (Proc.devRef .tc main_arg5)
  ∧ W (no_index (Proc.devRef .tc main_arg6)) = V0 (Proc.devRef .tc main_arg6)
  ∧ W (no_index (Proc.devRef .tc main_arg7)) = V0 (Proc.devRef .tc main_arg7)
  ∧ W (no_index (Proc.devRef .tc main_arg8)) = V0 (Proc.devRef .tc main_arg8)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At5 (V0 W : Valuation τ sig (Elt F)) : Prop :=
  W (no_index (Proc.devRef .tc main_v3)) = Read.val_main_v3 (F := F) (V0 (Proc.devRef .tc main_arg1))
  ∧ W (no_index (Proc.devRef .tc main_v6)) = Read.val_main_v6 (F := F) (V0 (Proc.devRef .tc main_arg1))
  ∧ W (no_index (Proc.devRef .tc main_v26)) = Read.val_main_v26 (F := F) (V0 (Proc.devRef .tc main_arg1))
  ∧ W (no_index (Proc.devRef .tc main_v69)) = Read.val_main_v69 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7))
  ∧ W (no_index (Proc.devRef .tc main_v71)) = Read.val_main_v71 (F := F) (V0 (Proc.devRef .tc main_arg1))
  ∧ W (no_index (Proc.devRef .tc main_v72)) = Read.val_main_v72 (F := F)
  ∧ W (no_index (Proc.devRef .tc main_arg2)) = V0 (Proc.devRef .tc main_arg2)
  ∧ W (no_index (Proc.devRef .tc main_arg8)) = V0 (Proc.devRef .tc main_arg8)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At6 (V0 W : Valuation τ sig (Elt F)) : Prop :=
  W (no_index (Proc.devRef .tc main_v3)) = Read.val_main_v3 (F := F) (V0 (Proc.devRef .tc main_arg1))
  ∧ W (no_index (Proc.devRef .tc main_v6)) = Read.val_main_v6 (F := F) (V0 (Proc.devRef .tc main_arg1))
  ∧ W (no_index (Proc.devRef .tc main_v26)) = Read.val_main_v26 (F := F) (V0 (Proc.devRef .tc main_arg1))
  ∧ W (no_index (Proc.devRef .tc main_v96)) = Read.val_main_v96 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  ∧ W (no_index (Proc.devRef .tc main_v98)) = Read.val_main_v98 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
  ∧ W (no_index (Proc.devRef .tc main_arg2)) = V0 (Proc.devRef .tc main_arg2)
  ∧ W (no_index (Proc.devRef .tc main_arg9)) = V0 (Proc.devRef .tc main_arg9)
  ∧ W (no_index (Proc.devRef .tc main_arg10)) = V0 (Proc.devRef .tc main_arg10)
  ∧ W (no_index (Proc.devRef .tc main_arg11)) = V0 (Proc.devRef .tc main_arg11)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At7 (V0 W : Valuation τ sig (Elt F)) : Prop :=
  W (no_index (Proc.devRef .tc main_v121)) = Read.val_main_v121 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  ∧ W (no_index (Proc.devRef .tc main_v122)) = Read.val_main_v122 (F := F)
  ∧ W (no_index (Proc.devRef .tc main_v123)) = Read.val_main_v123 (F := F) (V0 (Proc.devRef .tc main_arg1))
  ∧ W (no_index (Proc.devRef .tc main_arg2)) = V0 (Proc.devRef .tc main_arg2)
  ∧ W (no_index (Proc.devRef .tc main_arg12)) = V0 (Proc.devRef .tc main_arg12)
  ∧ W (no_index (Proc.devRef .tc main_arg13)) = V0 (Proc.devRef .tc main_arg13)
  ∧ W (no_index (Proc.devRef .tc main_arg14)) = V0 (Proc.devRef .tc main_arg14)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At8 (V0 W : Valuation τ sig (Elt F)) : Prop :=
  W (no_index (Proc.devRef .tc main_v148)) = Read.val_main_v148 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
  ∧ W (no_index (Proc.devRef .tc main_v149)) = Read.val_main_v149 (F := F) (V0 (Proc.devRef .tc main_arg14))
  ∧ W (no_index (Proc.devRef .tc main_arg2)) = V0 (Proc.devRef .tc main_arg2)
  ∧ W (no_index (Proc.devRef .tc main_arg15)) = V0 (Proc.devRef .tc main_arg15)
  ∧ W (no_index (Proc.devRef .tc main_arg16)) = V0 (Proc.devRef .tc main_arg16)
  ∧ W (no_index (Proc.devRef .tc main_arg17)) = V0 (Proc.devRef .tc main_arg17)
  ∧ W (no_index (Proc.devRef .tc main_arg18)) = V0 (Proc.devRef .tc main_arg18)

def At9 (V0 W : Valuation τ sig (Elt F)) : Prop :=
  W (no_index (Proc.devRef .tc main_v173)) = Read.val_main_v173 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))

end Cert.ReferenceIdeal.RefRun

end
-- ==== Proof.Reference.RunMain.lean ====
import proofs.«427718_j18545668784934_3_alg».proof.Proof.Reference.RunOps
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := by
  chain_rfl

end Cert.ReferenceIdeal.RefRun

end
-- ==== Proof.Reference.RunSteps.lean ====
import proofs.«427718_j18545668784934_3_alg».proof.Proof.Reference.ReadP
import proofs.«427718_j18545668784934_3_alg».proof.Proof.Reference.RunOps
import proofs.«427718_j18545668784934_3_alg».proof.Proof.Reference.RunAt

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsC1_W : List (Ref sig .tc) := [main_v0, main_v1, main_v2]
abbrev opsC2_W : List (Ref sig .tc) := [main_v3, main_v4, main_v5]
abbrev opsC3_W : List (Ref sig .tc) := [main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
abbrev opsC4_W : List (Ref sig .tc) := [main_v27, main_c_4, main_v28, main_v29, main_c_5, main_v30, main_v31, main_v32, main_v33, main_v34, main_v35, main_v36, main_v37, main_cst_6, main_v38, main_v39, main_v40, main_v41, main_v42, main_v43, main_cst_7, main_v44, main_v45, main_cst_8, main_v46, main_v47, main_v48]
abbrev opsC5_W : List (Ref sig .tc) := [main_v49, main_v50, main_cst_9, main_v51, main_v52, main_cst_10, main_v53, main_v54, main_v55, main_v56, main_cst_11, main_v57, main_v58, main_v59, main_v60, main_v61, main_v62, main_v63, main_v64, main_v65, main_v66, main_v67, main_call0_cst, main_call0_v0, main_v68, main_v69, main_c_12, main_v70, main_v71, main_c_13, main_v72]
abbrev opsC6_W : List (Ref sig .tc) := [main_v73, main_v74, main_v75, main_v76, main_v77, main_v78, main_v79, main_cst_14, main_v80, main_v81, main_v82, main_v83, main_v84, main_v85, main_cst_15, main_v86, main_v87, main_cst_16, main_v88, main_v89, main_v90, main_v91, main_v92, main_cst_17, main_v93, main_v94, main_cst_18, main_v95, main_v96, main_v97, main_v98]
abbrev opsC7_W : List (Ref sig .tc) := [main_cst_19, main_v99, main_v100, main_v101, main_v102, main_v103, main_v104, main_v105, main_v106, main_v107, main_v108, main_v109, main_call1_cst, main_call1_v0, main_v110, main_v111, main_c_20, main_v112, main_v113, main_c_21, main_v114, main_v115, main_v116, main_v117, main_v118, main_v119, main_v120, main_v121, main_cst_22, main_v122, main_v123]
abbrev opsC8_W : List (Ref sig .tc) := [main_v124, main_v125, main_v126, main_v127, main_cst_23, main_v128, main_v129, main_cst_24, main_v130, main_v131, main_v132, main_v133, main_v134, main_cst_25, main_v135, main_v136, main_cst_26, main_v137, main_v138, main_v139, main_v140, main_cst_27, main_v141, main_v142, main_v143, main_v144, main_v145, main_v146, main_v147, main_v148, main_v149]
abbrev opsC9_W : List (Ref sig .tc) := [main_v150, main_v151, main_call2_cst, main_call2_v0, main_v152, main_cst_28, main_v153, main_cst_29, main_v154, main_v155, main_v156, main_cst_30, main_v157, main_v158, main_v159, main_cst_31, main_v160, main_v161, main_v162, main_v163, main_v164, main_v165, main_v166, main_v167, main_v168, main_call3_cst, main_call3_v0, main_v169, main_v170, main_v171, main_v172, main_v173]

-- every operation of a chunk writes one buffer, and the chunk's list names it
theorem opsC_writes :
    ((opsC1 : List (HloOp τ sig (Elt F))).Forall fun op => op.writes ⊆ (opsC1_W.map (Proc.devRef (τ := τ) .tc)).toFinset)
    ∧ ((opsC2 : List (HloOp τ sig (Elt F))).Forall fun op => op.writes ⊆ (opsC2_W.map (Proc.devRef (τ := τ) .tc)).toFinset)
    ∧ ((opsC3 : List (HloOp τ sig (Elt F))).Forall fun op => op.writes ⊆ (opsC3_W.map (Proc.devRef (τ := τ) .tc)).toFinset)
    ∧ ((opsC4 : List (HloOp τ sig (Elt F))).Forall fun op => op.writes ⊆ (opsC4_W.map (Proc.devRef (τ := τ) .tc)).toFinset)
    ∧ ((opsC5 : List (HloOp τ sig (Elt F))).Forall fun op => op.writes ⊆ (opsC5_W.map (Proc.devRef (τ := τ) .tc)).toFinset)
    ∧ ((opsC6 : List (HloOp τ sig (Elt F))).Forall fun op => op.writes ⊆ (opsC6_W.map (Proc.devRef (τ := τ) .tc)).toFinset)
    ∧ ((opsC7 : List (HloOp τ sig (Elt F))).Forall fun op => op.writes ⊆ (opsC7_W.map (Proc.devRef (τ := τ) .tc)).toFinset)
    ∧ ((opsC8 : List (HloOp τ sig (Elt F))).Forall fun op => op.writes ⊆ (opsC8_W.map (Proc.devRef (τ := τ) .tc)).toFinset)
    ∧ ((opsC9 : List (HloOp τ sig (Elt F))).Forall fun op => op.writes ⊆ (opsC9_W.map (Proc.devRef (τ := τ) .tc)).toFinset) := by
  refine ⟨?_, ?_, ?_, ?_, ?_, ?_, ?_, ?_, ?_⟩
  all_goals
    simp only [List.Forall]
    repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

local syntax "rw_conj " term:max : tactic
local macro_rules
  | `(tactic| rw_conj $h) => `(tactic| first
      | (have _t := And.right $h; clear _t; (try rw [And.left $h]); rw_conj (And.right $h))
      | (try rw [$h:term]))

-- from one cut to the next: a buffer the chunk does not write keeps what it held; a written one is read back through the chunk
set_option maxHeartbeats 16000000 in
theorem step1 (V0 W : Valuation τ sig (Elt F)) (h : At0 V0 W) : At1 V0 (after opsC1 W) := by
  unfold At0 at h
  unfold At1
  repeat' apply And.intro
  all_goals first
    | (refine (after_of_writes_sub opsC1 W opsC_writes.1 ?_).trans ?_
       · decide
       · simp only [h])
    | (simp only [opsC1]
       after_results_simp <;> (try simp only [TRef.ofBuf, TRef.toBuf, cast_eq]) <;> (try simp only [h]) <;> (rw_conj h) <;> rfl)

set_option maxHeartbeats 16000000 in
theorem step2 (V0 W : Valuation τ sig (Elt F)) (h : At1 V0 W) : At2 V0 (after opsC2 W) := by
  unfold At1 at h
  unfold At2
  repeat' apply And.intro
  all_goals first
    | (refine (after_of_writes_sub opsC2 W opsC_writes.2.1 ?_).trans ?_
       · decide
       · simp only [h])
    | (simp only [opsC2]
       after_results_simp <;> (try simp only [TRef.ofBuf, TRef.toBuf, cast_eq]) <;> (try simp only [h]) <;> (rw_conj h) <;> rfl)

set_option maxHeartbeats 16000000 in
theorem step3 (V0 W : Valuation τ sig (Elt F)) (h : At2 V0 W) : At3 V0 (after opsC3 W) := by
  unfold At2 at h
  unfold At3
  repeat' apply And.intro
  all_goals first
    | (refine (after_of_writes_sub opsC3 W opsC_writes.2.2.1 ?_).trans ?_
       · decide
       · simp only [h])
    | (simp only [opsC3]
       after_results_simp <;> (try simp only [TRef.ofBuf, TRef.toBuf, cast_eq]) <;> (try simp only [h]) <;> (rw_conj h) <;> rfl)

set_option maxHeartbeats 16000000 in
theorem step4 (V0 W : Valuation τ sig (Elt F)) (h : At3 V0 W) : At4 V0 (after opsC4 W) := by
  unfold At3 at h
  unfold At4
  repeat' apply And.intro
  all_goals first
    | (refine (after_of_writes_sub opsC4 W opsC_writes.2.2.2.1 ?_).trans ?_
       · decide
       · simp only [h])
    | (simp only [opsC4]
       after_results_simp <;> (try simp only [TRef.ofBuf, TRef.toBuf, cast_eq]) <;> (try simp only [h]) <;> (rw_conj h) <;> rfl)

set_option maxHeartbeats 16000000 in
theorem step5 (V0 W : Valuation τ sig (Elt F)) (h : At4 V0 W) : At5 V0 (after opsC5 W) := by
  unfold At4 at h
  unfold At5
  repeat' apply And.intro
  all_goals first
    | (refine (after_of_writes_sub opsC5 W opsC_writes.2.2.2.2.1 ?_).trans ?_
       · decide
       · simp only [h])
    | (simp only [opsC5]
       after_results_simp <;> (try simp only [TRef.ofBuf, TRef.toBuf, cast_eq]) <;> (try simp only [h]) <;> (rw_conj h) <;> rfl)

set_option maxHeartbeats 16000000 in
theorem step6 (V0 W : Valuation τ sig (Elt F)) (h : At5 V0 W) : At6 V0 (after opsC6 W) := by
  unfold At5 at h
  unfold At6
  repeat' apply And.intro
  all_goals first
    | (refine (after_of_writes_sub opsC6 W opsC_writes.2.2.2.2.2.1 ?_).trans ?_
       · decide
       · simp only [h])
    | (simp only [opsC6]
       after_results_simp <;> (try simp only [TRef.ofBuf, TRef.toBuf, cast_eq]) <;> (try simp only [h]) <;> (rw_conj h) <;> rfl)

set_option maxHeartbeats 16000000 in
theorem step7 (V0 W : Valuation τ sig (Elt F)) (h : At6 V0 W) : At7 V0 (after opsC7 W) := by
  unfold At6 at h
  unfold At7
  repeat' apply And.intro
  all_goals first
    | (refine (after_of_writes_sub opsC7 W opsC_writes.2.2.2.2.2.2.1 ?_).trans ?_
       · decide
       · simp only [h])
    | (simp only [opsC7]
       after_results_simp <;> (try simp only [TRef.ofBuf, TRef.toBuf, cast_eq]) <;> (try simp only [h]) <;> (rw_conj h) <;> rfl)

set_option maxHeartbeats 16000000 in
theorem step8 (V0 W : Valuation τ sig (Elt F)) (h : At7 V0 W) : At8 V0 (after opsC8 W) := by
  unfold At7 at h
  unfold At8
  repeat' apply And.intro
  all_goals first
    | (refine (after_of_writes_sub opsC8 W opsC_writes.2.2.2.2.2.2.2.1 ?_).trans ?_
       · decide
       · simp only [h])
    | (simp only [opsC8]
       after_results_simp <;> (try simp only [TRef.ofBuf, TRef.toBuf, cast_eq]) <;> (try simp only [h]) <;> (rw_conj h) <;> rfl)

set_option maxHeartbeats 16000000 in
theorem step9 (V0 W : Valuation τ sig (Elt F)) (h : At8 V0 W) : At9 V0 (after opsC9 W) := by
  unfold At8 at h
  unfold At9
  repeat' apply And.intro
  all_goals first
    | (refine (after_of_writes_sub opsC9 W opsC_writes.2.2.2.2.2.2.2.2 ?_).trans ?_
       · decide
       · simp only [h])
    | (simp only [opsC9]
       after_results_simp <;> (try simp only [TRef.ofBuf, TRef.toBuf, cast_eq]) <;> (try simp only [h]) <;> (rw_conj h) <;> rfl)

end Cert.ReferenceIdeal.RefRun

end
-- ==== Proof.Reference.Run.lean ====
import proofs.«427718_j18545668784934_3_alg».proof.Proof.Reference.ReadP
import proofs.«427718_j18545668784934_3_alg».proof.Proof.Reference.RunOps
import proofs.«427718_j18545668784934_3_alg».proof.Proof.Reference.RunAt
import proofs.«427718_j18545668784934_3_alg».proof.Proof.Reference.RunMain
import proofs.«427718_j18545668784934_3_alg».proof.Proof.Reference.RunSteps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr ⟨List.forall_append.mpr ⟨List.forall_append.mpr ⟨List.forall_append.mpr ⟨opsC1_sub, opsC2_sub⟩, opsC3_sub⟩, opsC4_sub⟩, opsC5_sub⟩, opsC6_sub⟩, opsC7_sub⟩, opsC8_sub⟩, opsC9_sub⟩

theorem ops_fresh : ∀ op ∈ (ops : List (HloOp τ sig (Elt F))), op.fresh = ∅ := by
  refine List.forall_iff_forall_mem.mp ?_
  simp only [ops, List.forall_append, List.Forall]
  repeat' constructor

theorem after_ops (V0 : Valuation τ sig (Elt F)) :
    after ops V0 = after opsC9 (after opsC8 (after opsC7 (after opsC6 (after opsC5 (after opsC4 (after opsC3 (after opsC2 (after opsC1 V0)))))))) := by
  show after (opsC1 ++ opsC2 ++ opsC3 ++ opsC4 ++ opsC5 ++ opsC6 ++ opsC7 ++ opsC8 ++ opsC9) V0 = _
  simp only [StableHlo.after_append]

-- the nine steps in a row: after the last operation the result buffer holds its stage function of the arguments
theorem at_end (V0 : Valuation τ sig (Elt F)) : At9 V0 (after ops V0) := by
  have h0 : At0 V0 V0 := by
    unfold At0
    repeat' apply And.intro
    all_goals rfl
  have h1 := step1 V0 _ h0
  have h2 := step2 V0 _ h1
  have h3 := step3 V0 _ h2
  have h4 := step4 V0 _ h3
  have h5 := step5 V0 _ h4
  have h6 := step6 V0 _ h5
  have h7 := step7 V0 _ h6
  have h8 := step8 V0 _ h7
  have h9 := step9 V0 _ h8
  rw [after_ops]
  exact h9

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

-- no operation of the reference writes an argument
theorem kept (V0 : Valuation τ sig (Elt F)) (r : Ref sig .tc) (hr : r ∈ argRefs) :
    after ops V0 (Proc.devRef .tc r) = V0 (Proc.devRef .tc r) := by
  have h : ∀ r ∈ argRefs, r ∉ opsC1_W ∧ r ∉ opsC2_W ∧ r ∉ opsC3_W ∧ r ∉ opsC4_W ∧ r ∉ opsC5_W ∧ r ∉ opsC6_W ∧ r ∉ opsC7_W
      ∧ r ∉ opsC8_W ∧ r ∉ opsC9_W := by decide
  obtain ⟨h1, h2, h3, h4, h5, h6, h7, h8, h9⟩ := h r hr
  obtain ⟨w1, w2, w3, w4, w5, w6, w7, w8, w9⟩ := opsC_writes (F := F)
  rw [after_ops, after_of_writes_sub opsC9 _ w9 h9, after_of_writes_sub opsC8 _ w8 h8, after_of_writes_sub opsC7 _ w7 h7,
    after_of_writes_sub opsC6 _ w6 h6, after_of_writes_sub opsC5 _ w5 h5, after_of_writes_sub opsC4 _ w4 h4,
    after_of_writes_sub opsC3 _ w3 h3, after_of_writes_sub opsC2 _ w2 h2, after_of_writes_sub opsC1 _ w1 h1]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v173) = Read.val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have a : ∀ b (hb : b ∈ argRefs), r.2.mem ((c.tc : Thread nD τ).loc b) = m ((c.tc : Thread nD τ).loc b) := fun b hb =>
      (h c b).trans (kept (launchContents m c) b hb)
    refine ⟨(h c main_v173).trans (at_end (launchContents m c)), ?_⟩
    repeat' apply And.intro
    all_goals exact a _ (by decide))
    (run_seq scopedRefs_eq scopedSems_eq defs main (fun _ => ops) main_eq (fun _ => ops_sub) m ρ (fun _ => ops_fresh))

end Cert.ReferenceIdeal.RefRun

end
-- ==== Proof.Bridge.LayerNorm.lean ====
import Idealize.ShloMosaic.Lib.ValueLayout
import Idealize.ShloMosaic.PureOps.Ideal.Laws

noncomputable section

namespace Cert.Bridge

open Idealize.ShloMosaic Idealize.ShloMosaic.ValueIdx

def lnMean (s : Fin 128 → EReal) : EReal :=
  Ideal.div (∑ k : Fin 128, s k) (Ideal.ofBits .f32 0x43000000#32)

def lnVar (s : Fin 128 → EReal) : EReal :=
  Ideal.div (∑ k : Fin 128, (s k - lnMean s) * (s k - lnMean s)) (Ideal.ofBits .f32 0x43000000#32)

def lnRow (s g be : Fin 128 → EReal) (q : Fin 128) : EReal :=
  max ((s q - lnMean s) * Ideal.rsqrt (lnVar s + Ideal.ofBits .f32 0x3727C5AC#32) * g q + be q)
    (Ideal.ofBits .f32 0x00000000#32)

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastTo_row_of_vector_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

theorem multiReduction_add_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

end Layout

end Cert.Bridge
-- ==== Proof.LibScatterAdd.lean ====
import Idealize.ShloMosaic.PureOps.Ideal
import Idealize.ShloMosaic.Lib.ValueIdx
import Mathlib.Data.EReal.Operations
import Mathlib.Algebra.BigOperators.Group.Finset.Basic

noncomputable section

open scoped BigOperators

namespace Cert.Lib.ScatterAdd

open Idealize.ShloMosaic Idealize.ShloMosaic.ValueIdx

theorem sum_filter_reindex {α β : Type*} [Fintype α] [Fintype β] (emb : β → α) (hinj : Function.Injective emb)
    (p : α → Prop) [DecidablePred p] (q : β → Prop) [DecidablePred q]
    (hq : ∀ b, q b ↔ p (emb b)) (hsurj : ∀ a, p a → ∃ b, emb b = a) (f : α → EReal) :
    ∑ a ∈ Finset.univ.filter p, f a = ∑ b ∈ Finset.univ.filter q, f (emb b) := by
  symm
  refine Finset.sum_bij (fun b _ => emb b) ?_ ?_ ?_ ?_
  · intro b hb
    exact Finset.mem_filter.2 ⟨Finset.mem_univ _, (hq b).1 (Finset.mem_filter.1 hb).2⟩
  · intro b₁ _ b₂ _ h
    exact hinj h
  · intro a ha
    obtain ⟨b, rfl⟩ := hsurj a (Finset.mem_filter.1 ha).2
    exact ⟨b, Finset.mem_filter.2 ⟨Finset.mem_univ _, (hq b).2 (Finset.mem_filter.1 ha).2⟩, rfl⟩
  · intro b _
    rfl

abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Row
variable {N E C w : Nat} (wf : ScatterDims.WF ⟨2, ![N, C]⟩ ⟨2, ![E, 1]⟩ ⟨2, ![E, C]⟩ [1] [0] [0] 1)

theorem rowDims_start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start_add_window (j : (⟨2, ![E, C]⟩ : Shape).Idx) (idx : IVec ⟨2, ![E, 1]⟩ w) :
    (rowDims N E C wf).start j idx 0 + ((rowDims N E C wf).window j 0 : Int) = (idx (ix2 (j 0) (0 : Fin 1))).toInt ∧
    (rowDims N E C wf).start j idx 1 + ((rowDims N E C wf).window j 1 : Int) = ((j 1).val : Int) := by
  refine ⟨?_, ?_⟩
  · rw [rowDims_start_zero]
    show _ + ((0 : Nat) : Int) = _
    omega
  · show (0 : Int) + (((j 1).val : Nat) : Int) = _
    omega

theorem rowDims_resultIdx?_eq_some (j : (⟨2, ![E, C]⟩ : Shape).Idx) (idx : IVec ⟨2, ![E, 1]⟩ w)
    (i : (⟨2, ![N, C]⟩ : Shape).Idx) :
    (rowDims N E C wf).resultIdx? j idx = some i ↔
      (idx (ix2 (j 0) (0 : Fin 1))).toInt = ((i 0).val : Int) ∧ (j 1).val = (i 1).val := by
  obtain ⟨h0, h1⟩ := rowDims_start_add_window wf j idx
  unfold ScatterDims.resultIdx?
  constructor
  · intro h
    by_cases hall : ∀ a, 0 ≤ (rowDims N E C wf).start j idx a + (rowDims N E C wf).window j a ∧
        (rowDims N E C wf).start j idx a + (rowDims N E C wf).window j a < (⟨2, ![N, C]⟩ : Shape).size a
    · rw [dif_pos hall] at h
      have hf := Option.some.inj h
      have e0 : ((rowDims N E C wf).start j idx 0 + (rowDims N E C wf).window j 0).toNat = (i 0).val :=
        congrArg (fun f : (⟨2, ![N, C]⟩ : Shape).Idx => (f 0).val) hf
      have e1 : ((rowDims N E C wf).start j idx 1 + (rowDims N E C wf).window j 1).toNat = (i 1).val :=
        congrArg (fun f : (⟨2, ![N, C]⟩ : Shape).Idx => (f 1).val) hf
      have p0 := (hall 0).1
      rw [h0] at e0 p0
      rw [h1] at e1
      refine ⟨?_, ?_⟩
      · omega
      · omega
    · rw [dif_neg hall] at h
      exact absurd h (by simp)
  · rintro ⟨hr, hc⟩
    have hsum : ∀ a, (rowDims N E C wf).start j idx a + (rowDims N E C wf).window j a = ((i a).val : Int) := by
      intro a
      match a with
      | ⟨0, _⟩ => exact h0.trans hr
      | ⟨1, _⟩ => exact h1.trans (by exact_mod_cast hc)
    have hall : ∀ a, 0 ≤ (rowDims N E C wf).start j idx a + (rowDims N E C wf).window j a ∧
        (rowDims N E C wf).start j idx a + (rowDims N E C wf).window j a < (⟨2, ![N, C]⟩ : Shape).size a := by
      intro a
      rw [hsum a]
      exact ⟨Int.natCast_nonneg _, by exact_mod_cast (i a).isLt⟩
    rw [dif_pos hall]
    congr 1
    funext a
    refine Fin.ext ?_
    show ((rowDims N E C wf).start j idx a + (rowDims N E C wf).window j a).toNat = (i a).val
    rw [hsum a]
    exact Int.toNat_natCast _

theorem rowDims_resultIdx?_ix2 (e : Fin E) (c' : Fin C) (idx : IVec ⟨2, ![E, 1]⟩ w) (n : Fin N) (c : Fin C) :
    (rowDims N E C wf).resultIdx? (ix2 e c') idx = some (ix2 n c) ↔
      (idx (ix2 e (0 : Fin 1))).toInt = (n.val : Int) ∧ c' = c := by
  rw [rowDims_resultIdx?_eq_some]
  exact ⟨fun h => ⟨h.1, Fin.ext h.2⟩, fun h => ⟨h.1, congrArg Fin.val h.2⟩⟩

theorem rowDims_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine sum_filter_reindex (fun e : Fin E => (ix2 e c : (⟨2, ![E, C]⟩ : Shape).Idx)) ?_ _ _ ?_ ?_ upd
  · intro e e' h
    exact congrFun h 0
  · intro e
    rw [rowDims_resultIdx?_ix2]
    exact ⟨fun h => ⟨h, rfl⟩, fun h => h.1⟩
  · intro j hj
    obtain ⟨_, hc⟩ := (rowDims_resultIdx?_eq_some wf j idx (ix2 n c)).1 hj
    refine ⟨j 0, ?_⟩
    funext a
    match a with
    | ⟨0, _⟩ => rfl
    | ⟨1, _⟩ => exact Fin.ext hc.symm

end Row

abbrev elemDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Elem
variable {N E w : Nat} (wf : ScatterDims.WF ⟨1, ![N]⟩ ⟨2, ![E, 1]⟩ ⟨1, ![E]⟩ [] [0] [0] 1)

theorem elemDims_start_zero (j : (⟨1, ![E]⟩ : Shape).Idx) (idx : IVec ⟨2, ![E, 1]⟩ w) :
    (elemDims N E wf).start j idx 0 = (idx (ix2 (j 0) (0 : Fin 1))).toInt := by
  unfold ScatterDims.start
  rw [dif_pos (show (0 : Fin 1) ∈ (elemDims N E wf).scatterDimsToOperandDims from List.mem_singleton.mpr rfl)]
  have hsi : (elemDims N E wf).siIdx j ⟨List.idxOf (0 : Fin 1) (elemDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem elemDims_start_add_window (j : (⟨1, ![E]⟩ : Shape).Idx) (idx : IVec ⟨2, ![E, 1]⟩ w) (a : Fin 1) :
    (elemDims N E wf).start j idx a + ((elemDims N E wf).window j a : Int) = (idx (ix2 (j 0) (0 : Fin 1))).toInt := by
  obtain rfl : a = 0 := Subsingleton.elim _ _
  rw [elemDims_start_zero]
  show _ + ((0 : Nat) : Int) = _
  omega

theorem elemDims_resultIdx?_eq_some (j : (⟨1, ![E]⟩ : Shape).Idx) (idx : IVec ⟨2, ![E, 1]⟩ w)
    (i : (⟨1, ![N]⟩ : Shape).Idx) :
    (elemDims N E wf).resultIdx? j idx = some i ↔ (idx (ix2 (j 0) (0 : Fin 1))).toInt = ((i 0).val : Int) := by
  have h0 := elemDims_start_add_window wf j idx
  unfold ScatterDims.resultIdx?
  constructor
  · intro h
    by_cases hall : ∀ a, 0 ≤ (elemDims N E wf).start j idx a + (elemDims N E wf).window j a ∧
        (elemDims N E wf).start j idx a + (elemDims N E wf).window j a < (⟨1, ![N]⟩ : Shape).size a
    · rw [dif_pos hall] at h
      have hf := Option.some.inj h
      have e0 : ((elemDims N E wf).start j idx 0 + (elemDims N E wf).window j 0).toNat = (i 0).val :=
        congrArg (fun f : (⟨1, ![N]⟩ : Shape).Idx => (f 0).val) hf
      have p0 := (hall 0).1
      rw [h0 0] at e0 p0
      omega
    · rw [dif_neg hall] at h
      exact absurd h (by simp)
  · intro hr
    have hsum : ∀ a, (elemDims N E wf).start j idx a + (elemDims N E wf).window j a = ((i a).val : Int) := by
      intro a
      obtain rfl : a = 0 := Subsingleton.elim _ _
      exact (h0 0).trans hr
    have hall : ∀ a, 0 ≤ (elemDims N E wf).start j idx a + (elemDims N E wf).window j a ∧
        (elemDims N E wf).start j idx a + (elemDims N E wf).window j a < (⟨1, ![N]⟩ : Shape).size a := by
      intro a
      rw [hsum a]
      exact ⟨Int.natCast_nonneg _, by exact_mod_cast (i a).isLt⟩
    rw [dif_pos hall]
    congr 1
    funext a
    refine Fin.ext ?_
    show ((elemDims N E wf).start j idx a + (elemDims N E wf).window j a).toNat = (i a).val
    rw [hsum a]
    exact Int.toNat_natCast _

theorem elemDims_resultIdx?_ix1 (e : Fin E) (idx : IVec ⟨2, ![E, 1]⟩ w) (n : Fin N) :
    (elemDims N E wf).resultIdx? (ix1 e) idx = some (ix1 n) ↔ (idx (ix2 e (0 : Fin 1))).toInt = (n.val : Int) :=
  elemDims_resultIdx?_eq_some wf (ix1 e) idx (ix1 n)

theorem elemDims_hostScatterAdd_apply (x : (⟨1, ![N]⟩ : Shape).Idx → EReal) (idx : IVec ⟨2, ![E, 1]⟩ w)
    (upd : (⟨1, ![E]⟩ : Shape).Idx → EReal) (n : Fin N) :
    Ideal.hostScatterAdd (elemDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine sum_filter_reindex (fun e : Fin E => (ix1 e : (⟨1, ![E]⟩ : Shape).Idx)) ?_ _ _ ?_ ?_ upd
  · intro e e' h
    exact congrFun h 0
  · intro e
    rw [elemDims_resultIdx?_ix1]
  · intro j _
    exact ⟨j 0, (eq_ix1 j).symm⟩

end Elem

section Gather
variable {α : Type} {N E C w : Nat}

end Gather

end Cert.Lib.ScatterAdd

end
-- ==== Proof.Bridge.ScatterIdx.lean ====
import proofs.«427718_j18545668784934_3_alg».proof.ReferenceIdeal
import proofs.«427718_j18545668784934_3_alg».proof.Proof.LibScatterAdd
import Idealize.ShloMosaic.Lib.ValueIdx

noncomputable section

open scoped BigOperators

namespace Cert.Bridge

open Cert.ReferenceIdeal Cert.Lib.ScatterAdd Idealize.ShloMosaic Idealize.ShloMosaic.ValueIdx

variable [Facts₀]

theorem poolScatter_apply (x : S64x128.Idx → EReal) (idx : IVec S100000x1 32) (upd : S100000x128.Idx → EReal)
    (g : Fin 64) (c : Fin 128) :
    Ideal.hostScatterAdd scatter_S64x128_S100000x1_S100000x128_1_0_0_1 x idx upd (ix2 g c)
      = x (ix2 g c) + ∑ n ∈ Finset.univ.filter (fun n : Fin 100000 => (idx (ix2 n (0 : Fin 1))).toInt = (g.val : Int)),
          upd (ix2 n c) :=
  rowDims_hostScatterAdd_apply _ x idx upd g c

theorem cntScatter_apply (x : S64.Idx → EReal) (idx : IVec S100000x1 32) (upd : S100000.Idx → EReal) (g : Fin 64) :
    Ideal.hostScatterAdd scatter_S64_S100000x1_S100000_n_0_0_1 x idx upd (ix1 g)
      = x (ix1 g) + ∑ n ∈ Finset.univ.filter (fun n : Fin 100000 => (idx (ix2 n (0 : Fin 1))).toInt = (g.val : Int)),
          upd (ix1 n) :=
  elemDims_hostScatterAdd_apply _ x idx upd g

section Gathers
variable {α : Type}

end Gathers

end Cert.Bridge

end
-- ==== Proof.Bridge.KHost.lean ====
import proofs.«427718_j18545668784934_3_alg».proof.Proof.KernelIdeal.LaunchP
import Idealize.ShloMosaic.Lib.StableHlo.Run

noncomputable section

namespace Cert.Bridge.KHost

open Cert.KernelIdeal Cert.KernelIdeal.Gen
open Idealize.ShloMosaic Idealize.ShloMosaic.TcCoe Idealize.ShloMosaic.StableHlo

variable {F : FTy → Type} [FloatOps F]

def srcOf (ei : Vec F S2x1600000 .i32) : Vec F S1700000 .i32 :=
  concatenate S1700000 0
    [⟨S1600000, shapeCast S1600000 (extractStridedSlice S1x1600000 ![0, 0] ei slices_S2x1600000_S1x1600000_0_0) shapeCasts_S1x1600000_S1600000⟩,
      ⟨S100000, iotaInDim S100000 32 0⟩]
    concatenates_S1600000_S100000_S1700000_d0

def dstOf (ei : Vec F S2x1600000 .i32) : Vec F S1700000 .i32 :=
  concatenate S1700000 0
    [⟨S1600000, shapeCast S1600000 (extractStridedSlice S1x1600000 ![1, 0] ei slices_S2x1600000_S1x1600000_1_0) shapeCasts_S1x1600000_S1600000⟩,
      ⟨S100000, iotaInDim S100000 32 0⟩]
    concatenates_S1600000_S100000_S1700000_d0

def degOf (dst : Vec F S1700000 .i32) : Vec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 dst)
    (broadcastInDim S1700000 ![] bcast_S_S1700000 (constant (F := F) S_ .f32 0x3F800000#32))

def disOf (dst : Vec F S1700000 .i32) : Vec F S100000 .f32 :=
  Host.rsqrt (degOf dst)

def disColOf (dst : Vec F S1700000 .i32) : Vec F S100000x1 .f32 :=
  broadcastInDim S100000x1 ![0] bcast_S100000_S100000x1_0 (disOf dst)

def wrapOf (src : Vec F S1700000 .i32) : Vec F S1700000 .i32 :=
  select (cmpi .slt src (broadcastInDim S1700000 ![] bcast_S_S1700000 (constantI S_ 32 0#32)))
    (addi src (broadcastInDim S1700000 ![] bcast_S_S1700000 (constantI S_ 32 100000#32)))
    src

def aggOf (src dst : Vec F S1700000 .i32) (h : Vec F S100000x128 .bf16) : Vec F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (extf .f32
      (Host.gather gather_S100000x128_S1700000x1_S1700000x128_1_0_n_n_0_1_1128 h
        (broadcastInDim S1700000x1 ![0] bcast_S1700000_S1700000x1_0 (wrapOf src)))
      bitsLt_bf16_f32)

def batchColOf (b : Vec F S100000 .i32) : Vec F S100000x1 .i32 :=
  broadcastInDim S100000x1 ![0] bcast_S100000_S100000x1_0 b

variable (Wv : Valuation τ sig (Elt F))

theorem after0_v3 : (StableHlo.after (hostOps0 (F := F)) Wv (Proc.devRef .tc main_v3) : Vec F S1700000 .i32)
    = srcOf (Wv (Proc.devRef .tc main_arg1)) := by
  show StableHlo.after (hostOps0 (F := F)) Wv (Proc.devRef .tc main_v3) = _
  after_results; rfl

theorem after0_v6 : (StableHlo.after (hostOps0 (F := F)) Wv (Proc.devRef .tc main_v6) : Vec F S1700000 .i32)
    = dstOf (Wv (Proc.devRef .tc main_arg1)) := by
  show StableHlo.after (hostOps0 (F := F)) Wv (Proc.devRef .tc main_v6) = _
  after_results; rfl

theorem after0_v12 : (StableHlo.after (hostOps0 (F := F)) Wv (Proc.devRef .tc main_v12) : Vec F S100000x1 .f32)
    = disColOf (dstOf (Wv (Proc.devRef .tc main_arg1))) := by
  show StableHlo.after (hostOps0 (F := F)) Wv (Proc.devRef .tc main_v12) = _
  after_results; rfl

set_option maxHeartbeats 1000000 in
theorem after1_v24 : (StableHlo.after (hostOps1 (F := F)) Wv (Proc.devRef .tc main_v24) : Vec F S100000x128 .f32)
    = aggOf (Wv (Proc.devRef .tc main_v3)) (Wv (Proc.devRef .tc main_v6)) (Wv (Proc.devRef .tc main_v13)) := by
  show StableHlo.after (hostOps1 (F := F)) Wv (Proc.devRef .tc main_v24) = _
  after_results; rfl

set_option maxHeartbeats 1000000 in
theorem after2_v36 : (StableHlo.after (hostOps2 (F := F)) Wv (Proc.devRef .tc main_v36) : Vec F S100000x128 .f32)
    = aggOf (Wv (Proc.devRef .tc main_v3)) (Wv (Proc.devRef .tc main_v6)) (Wv (Proc.devRef .tc main_v25)) := by
  show StableHlo.after (hostOps2 (F := F)) Wv (Proc.devRef .tc main_v36) = _
  after_results; rfl

set_option maxHeartbeats 1000000 in
theorem after3_v48 : (StableHlo.after (hostOps3 (F := F)) Wv (Proc.devRef .tc main_v48) : Vec F S100000x128 .f32)
    = aggOf (Wv (Proc.devRef .tc main_v3)) (Wv (Proc.devRef .tc main_v6)) (Wv (Proc.devRef .tc main_v37)) := by
  show StableHlo.after (hostOps3 (F := F)) Wv (Proc.devRef .tc main_v48) = _
  after_results; rfl

theorem after3_v49 : (StableHlo.after (hostOps3 (F := F)) Wv (Proc.devRef .tc main_v49) : Vec F S100000x1 .i32)
    = batchColOf (Wv (Proc.devRef .tc main_arg2)) := by
  show StableHlo.after (hostOps3 (F := F)) Wv (Proc.devRef .tc main_v49) = _
  after_results; rfl

end Cert.Bridge.KHost
-- ==== Proof.Bridge.HostEq.lean ====
import proofs.«427718_j18545668784934_3_alg».proof.Proof.Bridge.KHost
import proofs.«427718_j18545668784934_3_alg».proof.Proof.Reference.ReadP

noncomputable section

namespace Cert.Bridge.HostEq

open Cert.KernelIdeal Cert.KernelIdeal.Gen Cert.Bridge.KHost
open Idealize.ShloMosaic
open Cert.ReferenceIdeal (Read.val_main_v3 Read.val_main_v6 Read.val_main_v10 Read.val_main_v11 Read.val_main_v33 Read.val_main_v75
  Read.val_main_v117 Read.val_main_v38 Read.val_main_v39 Read.val_main_v80 Read.val_main_v81 Read.val_main_v122 Read.val_main_v123
  Read.val_main_v155 Read.val_main_v158)

variable {F : FTy → Type} [FloatOps F]

theorem disOf_eq (ei : Vec F S2x1600000 .i32) : disOf (dstOf ei) = Read.val_main_v11 (F := F) ei := rfl

theorem aggOf_eq1 (ei : Vec F S2x1600000 .i32) (h : Vec F S100000x128 .bf16) :
    aggOf (srcOf ei) (dstOf ei) h
      = Host.scatterAdd Cert.ReferenceIdeal.scatter_S100000x128_S1700000x1_S1700000x128_1_0_0_1 (Read.val_main_v38 (F := F)) (Read.val_main_v39 (F := F) ei)
          (extf .f32 (Host.gather Cert.ReferenceIdeal.gather_S100000x128_S1700000x1_S1700000x128_1_0_n_n_0_1_1128 h (Read.val_main_v33 (F := F) ei)) bitsLt_bf16_f32) := rfl

theorem aggOf_eq2 (ei : Vec F S2x1600000 .i32) (h : Vec F S100000x128 .bf16) :
    aggOf (srcOf ei) (dstOf ei) h
      = Host.scatterAdd Cert.ReferenceIdeal.scatter_S100000x128_S1700000x1_S1700000x128_1_0_0_1 (Read.val_main_v80 (F := F)) (Read.val_main_v81 (F := F) ei)
          (extf .f32 (Host.gather Cert.ReferenceIdeal.gather_S100000x128_S1700000x1_S1700000x128_1_0_n_n_0_1_1128 h (Read.val_main_v75 (F := F) ei)) bitsLt_bf16_f32) := rfl

theorem aggOf_eq3 (ei : Vec F S2x1600000 .i32) (h : Vec F S100000x128 .bf16) :
    aggOf (srcOf ei) (dstOf ei) h
      = Host.scatterAdd Cert.ReferenceIdeal.scatter_S100000x128_S1700000x1_S1700000x128_1_0_0_1 (Read.val_main_v122 (F := F)) (Read.val_main_v123 (F := F) ei)
          (extf .f32 (Host.gather Cert.ReferenceIdeal.gather_S100000x128_S1700000x1_S1700000x128_1_0_n_n_0_1_1128 h (Read.val_main_v117 (F := F) ei)) bitsLt_bf16_f32) := rfl

end Cert.Bridge.HostEq
-- ==== Proof.Bridge.Val0.lean ====
import proofs.«427718_j18545668784934_3_alg».proof.Proof.KernelIdeal.Reg0
import proofs.«427718_j18545668784934_3_alg».proof.Proof.Bridge.LayerNorm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

def G0 (x : S100000x128.Idx → EReal) (w : S128x128.Idx → EReal) (d : S100000x1.Idx → EReal) : S100000x128.Idx → EReal :=
  fun i => (∑ k : Fin 128, x (ix2 (n0 := 100000) (n1 := 128) (i 0) k) * w (ix2 (n0 := 128) (n1 := 128) k (i 1)))
    * d (ix2 (n0 := 100000) (n1 := 1) (i 0) 0)

theorem G0_apply (x : S100000x128.Idx → EReal) (w : S128x128.Idx → EReal) (d : S100000x1.Idx → EReal) (n : Fin 100000) (q : Fin 128) :
    G0 x w d (ix2 n q) = (∑ k : Fin 128, x (ix2 n k) * w (ix2 k q)) * d (ix2 n 0) := rfl

theorem lhs_blockdot_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_blockdot_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

theorem rhs_blockdot_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

theorem rhs_blockdot_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem blockdot_apply (v0 : Vec Ideal S5000x128 .f32) (v1 : Vec Ideal S128x128 .f32) (p : Fin 5000) (q : Fin 128) :
    matmul (F := Ideal) (φ₁ := .f32) (φ₂ := .f32) dot_S5000x128_S128x128_S5000x128_1_0_0_1_n_n none v0 v1 (constant (F := Ideal) S5000x128 .f32 0x00000000#32) (ix2 p q)
      = ∑ k : Fin 128, v0 (ix2 p k) * v1 (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]

theorem k0_pay1_apply (v0 : Vec Ideal S5000x128 .f32) (v1 : Vec Ideal S128x128 .f32) (v3 : Vec Ideal S5000x1 .f32) (p : Fin 5000) (q : Fin 128) :
    Gen.k0_pay1 v0 v1 v3 (ix2 p q) = (∑ k : Fin 128, v0 (ix2 p k) * v1 (ix2 k q)) * v3 (ix2 p 0) := by
  unfold Gen.k0_pay1
  rw [truncf_apply, mulf_apply, shapeCast_self]
  refine congrArg₂ (· * ·) (blockdot_apply v0 v1 p q) ?_
  exact broadcastTo_a1_ab_apply v3 _ p q

theorem k0_pay1_rows (X : S100000x128.Idx → EReal) (Wt : S128x128.Idx → EReal) (D : S100000x1.Idx → EReal)
    (x0 : Vec Ideal S5000x128 .f32) (x1 : Vec Ideal S128x128 .f32) (x2 : Vec Ideal S5000x1 .f32) (r : Fin 5000 → Fin 100000)
    (h0 : ∀ p k, x0 (ix2 p k) = X (ix2 (r p) k)) (h1 : ∀ k q, x1 (ix2 k q) = Wt (ix2 k q))
    (h2 : ∀ p, x2 (ix2 p 0) = D (ix2 (r p) 0)) (j : S5000x128.Idx) :
    Gen.k0_pay1 x0 x1 x2 j = G0 X Wt D (ix2 (r (j 0)) (j 1)) := by
  obtain ⟨p, q, rfl⟩ : ∃ (p : Fin 5000) (q : Fin 128), j = ix2 p q := ⟨j 0, j 1, eq_ix2 j⟩
  show Gen.k0_pay1 x0 x1 x2 (ix2 p q) = G0 X Wt D (ix2 (r p) q)
  rw [G0_apply, k0_pay1_apply, h2]
  refine congrArg (· * _) (Finset.sum_congr rfl fun k _ => ?_)
  rw [h0, h1]

variable (V : (c : Dev nD) → (b : Ref sig .tc) → Buf (Elt Ideal) ((c : Thread nD τ).loc b))

theorem zero_offset2 : (![0, 0] : Fin 2 → Nat) = fun _ => 0 := funext fun a => by fin_cases a <;> rfl

theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

abbrev xblk0 (c : Dev nD) (t : Fin cfg0.N) : Vec Ideal S5000x128 .f32 := iblk0 V c 0 t
abbrev wblk0 (c : Dev nD) (t : Fin cfg0.N) : Vec Ideal S128x128 .f32 := iblk0 V c 1 t
abbrev dblk0 (c : Dev nD) (t : Fin cfg0.N) : Vec Ideal S5000x1 .f32 := iblk0 V c 2 t

abbrev xarr0 (c : Dev nD) : S100000x128.Idx → EReal := V c main_arg0
abbrev warr0 (c : Dev nD) : S128x128.Idx → EReal := V c main_arg3
abbrev darr0 (c : Dev nD) : S100000x1.Idx → EReal := V c main_v12

theorem xblk0_apply (c : Dev nD) (t : Fin cfg0.N) (p : Fin 5000) (k : Fin 128) (n : Fin 100000) (hn : n.val = t.val * 5000 + p.val) :
    xblk0 V c t (ix2 p k) = xarr0 V c (ix2 n k) := by
  obtain ⟨e0, e1, -⟩ := block_indices0 t
  show V c main_arg0 (((cfg0.win 0).blk t).view.emb (ix2 p k)) = V c main_arg0 (ix2 n k)
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

theorem wblk0_apply (c : Dev nD) (t : Fin cfg0.N) (k : Fin 128) (q : Fin 128) :
    wblk0 V c t (ix2 k q) = warr0 V c (ix2 k q) := by
  obtain ⟨-, -, e0, e1, -⟩ := block_indices0 t
  show V c main_arg3 (((cfg0.win 1).blk t).view.emb (ix2 k q)) = V c main_arg3 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem dblk0_apply (c : Dev nD) (t : Fin cfg0.N) (p : Fin 5000) (n : Fin 100000) (hn : n.val = t.val * 5000 + p.val) :
    dblk0 V c t (ix2 p 0) = darr0 V c (ix2 n 0) := by
  obtain ⟨-, -, -, -, e0, e1, -⟩ := block_indices0 t
  show V c main_v12 (((cfg0.win 2).blk t).view.emb (ix2 p 0)) = V c main_v12 (ix2 n 0)
  refine congrArg _ (funext fun a => Fin.ext ?_)
  match a with
  | ⟨0, _⟩ => show win0_2.index t (0 : Fin 2) * 5000 + 1 * p.val = n.val; omega
  | ⟨1, _⟩ => show win0_2.index t (1 : Fin 2) * 1 + 1 * 0 = 0; omega

theorem flushed0_eq (c : Dev nD) (t : Fin cfg0.N) :
    (dat0 (F := Ideal) V c).flushed 3 t
      = ((cfg0.win 3).blk t).view.read (Elt Ideal) (G0 (V c main_arg0) (V c main_arg3) (V c main_v12)) := by
  show (cfg0.win 3).cut (grid0.coords t) ((dat0 (F := Ideal) V c).after 3 t) = _
  rw [after0_3]
  unfold out0_3
  rw [View.canon_unit_zero zero_offset2]
  simp only [View.ld_unit_zero (S := S5000x128) zero_offset2, View.ld_unit_zero (S := S128x128) zero_offset2,
    View.ld_unit_zero (S := S5000x1) zero_offset2]
  obtain ⟨-, -, -, -, -, -, e0, e1⟩ := block_indices0 t
  have ht : t.val < 20 := lt_of_lt_of_eq t.isLt N_0
  funext j
  show Gen.k0_pay1 (xblk0 V c t) (wblk0 V c t) (dblk0 V c t) j
    = G0 (xarr0 V c) (warr0 V c) (darr0 V c) (((cfg0.win 3).blk t).view.emb j)
  refine (k0_pay1_rows (xarr0 V c) (warr0 V c) (darr0 V c) (xblk0 V c t) (wblk0 V c t) (dblk0 V c t)
    (fun p => ⟨t.val * 5000 + p.val, by have := p.isLt; omega⟩)
    (fun p k => xblk0_apply V c t p k _ rfl) (fun k q => wblk0_apply V c t k q) (fun p => dblk0_apply V c t p _ rfl) j).trans ?_

  refine congrArg _ (funext fun a => Fin.ext ?_)
  match a with
  | ⟨0, _⟩ => show t.val * 5000 + (j 0).val = win0_3.index t (0 : Fin 2) * 5000 + 1 * (j 0).val; omega
  | ⟨1, _⟩ => show (j 1).val = win0_3.index t (1 : Fin 2) * 128 + 1 * (j 1).val; omega

theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

theorem block_onto0 : ∀ r : Fin 20, ∃ t : Fin cfg0.N, win0_3.index t = ![r.val, 0] :=
  (by decide +kernel : ∀ r : Fin 20, ∃ t : Fin grid0.N, win0_3.index t = ![r.val, 0])

theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem val0 (c : Dev nD) :
    (dat0 (F := Ideal) V c).arrAt 3 cfg0.N = G0 (V c main_arg0) (V c main_arg3) (V c main_v12) :=
  (dat0 (F := Ideal) V c).arrAt_eq_of_cover 3 (G0 (V c main_arg0) (V c main_arg3) (V c main_v12))
    (fun t _ => flushed0_eq V c t) covered0

end Cert.Bridge

end
-- ==== Proof.Bridge.LayerNormKernel.lean ====
import proofs.«427718_j18545668784934_3_alg».proof.Proof.Gen.KernelIdeal.Skeleton
import proofs.«427718_j18545668784934_3_alg».proof.Proof.Bridge.LayerNorm

noncomputable section

namespace Cert.Bridge

open Idealize.ShloMosaic Idealize.ShloMosaic.ValueIdx Cert.KernelIdeal

theorem rsqrt_apply {s : Shape} {φ : FTy} (x : FVec Ideal s φ) (i : s.Idx) : rsqrt x i = Ideal.rsqrt (x i) := rfl

theorem rowSum (x : FVec Ideal S5000x128 .f32) (p : Fin 5000) :
    multiReduction .add [1] S5000 x 0x00000000#32 Gen.reduces_S5000x128_S5000 (.inl rfl) rfl (ix1 p)
      = ∑ k : Fin 128, x (ix2 p k) :=
  multiReduction_add_cols_apply x _ _ _ _ p

theorem mm_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem mm_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem mm_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_block_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

set_option maxHeartbeats 2000000 in

theorem k1_pay2_apply (v0 : Vec Ideal S5000x128 .f32) (v2 : Vec Ideal S5000x1 .f32) (v6 v26 v30 : Vec Ideal S128 .f32)
    (v36 : Vec Ideal S128x128 .f32) (p : Fin 5000) (q : Fin 128) :
    Gen.k1_pay2 v0 v2 v6 v26 v30 v36 (ix2 p q)
      = ∑ k : Fin 128, lnRow (fun c => (v0 (ix2 p c) : EReal) * v2 (ix2 p 0) + v6 (ix1 c)) (fun c => v26 (ix1 c))
          (fun c => v30 (ix1 c)) k * v36 (ix2 k q) := by
  unfold Gen.k1_pay2
  simp only []
  rw [matmul_block_apply]
  refine Finset.sum_congr rfl fun k _ => congrArg (· * v36 (ix2 k q)) ?_
  simp only [maximumf_apply, addf_apply, mulf_apply, subf_apply, divf_apply, rsqrt_apply, broadcast_apply,
    shapeCast_self, broadcastTo_a1_ab_apply, broadcastTo_row_of_vector_apply, shapeCast_a_a1_apply]
  rw [rowSum, rowSum]
  simp only [maximumf_apply, addf_apply, mulf_apply, subf_apply, divf_apply, rsqrt_apply, broadcast_apply,
    shapeCast_self, broadcastTo_a1_ab_apply, broadcastTo_row_of_vector_apply, shapeCast_a_a1_apply]
  rw [rowSum]
  simp only [maximumf_apply, addf_apply, mulf_apply, subf_apply, divf_apply, rsqrt_apply, broadcast_apply,
    shapeCast_self, broadcastTo_a1_ab_apply, broadcastTo_row_of_vector_apply, shapeCast_a_a1_apply]
  rfl

theorem k1_pay3_apply (v38 : Vec Ideal S5000x1 .f32) (p : Fin 5000) (q : Fin 128) :
    Gen.k1_pay3 v38 (ix2 p q) = v38 (ix2 p 0) := by
  unfold Gen.k1_pay3
  simp only [shapeCast_self, broadcastTo_a1_ab_apply]

theorem k1_pay1_apply (v37 v40 : FVec Ideal S5000x128 .f32) (j : S5000x128.Idx) :
    Gen.k1_pay1 v37 v40 j = v37 j * v40 j := rfl

theorem k1_out_apply (v0 : Vec Ideal S5000x128 .f32) (v2 : Vec Ideal S5000x1 .f32) (v6 v26 v30 : Vec Ideal S128 .f32)
    (v36 : Vec Ideal S128x128 .f32) (v38 : Vec Ideal S5000x1 .f32) (p : Fin 5000) (q : Fin 128) :
    Gen.k1_pay1 (Gen.k1_pay2 v0 v2 v6 v26 v30 v36) (Gen.k1_pay3 v38) (ix2 p q)
      = (∑ k : Fin 128, lnRow (fun c => (v0 (ix2 p c) : EReal) * v2 (ix2 p 0) + v6 (ix1 c)) (fun c => v26 (ix1 c))
          (fun c => v30 (ix1 c)) k * v36 (ix2 k q)) * v38 (ix2 p 0) := by
  rw [k1_pay1_apply, k1_pay2_apply, k1_pay3_apply]

theorem k2_pay2_eq : Gen.k2_pay2 (F := Ideal) = Gen.k1_pay2 := rfl
theorem k2_pay3_eq : Gen.k2_pay3 (F := Ideal) = Gen.k1_pay3 := rfl

theorem k2_pay2_apply (v0 : Vec Ideal S5000x128 .f32) (v2 : Vec Ideal S5000x1 .f32) (v6 v26 v30 : Vec Ideal S128 .f32)
    (v36 : Vec Ideal S128x128 .f32) (p : Fin 5000) (q : Fin 128) :
    Gen.k2_pay2 v0 v2 v6 v26 v30 v36 (ix2 p q)
      = ∑ k : Fin 128, lnRow (fun c => (v0 (ix2 p c) : EReal) * v2 (ix2 p 0) + v6 (ix1 c)) (fun c => v26 (ix1 c))
          (fun c => v30 (ix1 c)) k * v36 (ix2 k q) := by
  rw [k2_pay2_eq]; exact k1_pay2_apply v0 v2 v6 v26 v30 v36 p q

theorem k2_pay3_apply (v38 : Vec Ideal S5000x1 .f32) (p : Fin 5000) (q : Fin 128) :
    Gen.k2_pay3 v38 (ix2 p q) = v38 (ix2 p 0) := by
  rw [k2_pay3_eq]; exact k1_pay3_apply v38 p q

theorem k2_pay1_apply (v37 v40 : FVec Ideal S5000x128 .f32) (j : S5000x128.Idx) :
    Gen.k2_pay1 v37 v40 j = v37 j * v40 j := rfl

theorem k2_out_apply (v0 : Vec Ideal S5000x128 .f32) (v2 : Vec Ideal S5000x1 .f32) (v6 v26 v30 : Vec Ideal S128 .f32)
    (v36 : Vec Ideal S128x128 .f32) (v38 : Vec Ideal S5000x1 .f32) (p : Fin 5000) (q : Fin 128) :
    Gen.k2_pay1 (Gen.k2_pay2 v0 v2 v6 v26 v30 v36) (Gen.k2_pay3 v38) (ix2 p q)
      = (∑ k : Fin 128, lnRow (fun c => (v0 (ix2 p c) : EReal) * v2 (ix2 p 0) + v6 (ix1 c)) (fun c => v26 (ix1 c))
          (fun c => v30 (ix1 c)) k * v36 (ix2 k q)) * v38 (ix2 p 0) := by
  rw [k2_pay1_apply, k2_pay2_apply, k2_pay3_apply]

set_option maxHeartbeats 1000000 in

theorem k3_pay7_apply (v3 : Vec Ideal S5000x128 .f32) (v5 : Vec Ideal S5000x1 .f32) (v9 v29 v33 : Vec Ideal S128 .f32)
    (p : Fin 5000) (q : Fin 128) :
    Gen.k3_pay7 v3 v5 v9 v29 v33 (ix2 p q)
      = lnRow (fun c => (v3 (ix2 p c) : EReal) * v5 (ix2 p 0) + v9 (ix1 c)) (fun c => v29 (ix1 c)) (fun c => v33 (ix1 c)) q := by
  unfold Gen.k3_pay7
  simp only [maximumf_apply, addf_apply, mulf_apply, subf_apply, divf_apply, rsqrt_apply, broadcast_apply,
    shapeCast_self, broadcastTo_a1_ab_apply, broadcastTo_row_of_vector_apply, shapeCast_a_a1_apply]
  rw [rowSum, rowSum]
  simp only [maximumf_apply, addf_apply, mulf_apply, subf_apply, divf_apply, rsqrt_apply, broadcast_apply,
    shapeCast_self, broadcastTo_a1_ab_apply, broadcastTo_row_of_vector_apply, shapeCast_a_a1_apply]
  rw [rowSum]
  simp only [maximumf_apply, addf_apply, mulf_apply, subf_apply, divf_apply, rsqrt_apply, broadcast_apply,
    shapeCast_self, broadcastTo_a1_ab_apply, broadcastTo_row_of_vector_apply, shapeCast_a_a1_apply]
  rfl

end Cert.Bridge
-- ==== Proof.Bridge.Val1.lean ====
import proofs.«427718_j18545668784934_3_alg».proof.Proof.KernelIdeal.Reg1
import proofs.«427718_j18545668784934_3_alg».proof.Proof.Bridge.LayerNorm
import proofs.«427718_j18545668784934_3_alg».proof.Proof.Bridge.LayerNormKernel
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

def G1 (a : S100000x128.Idx → EReal) (d : S100000x1.Idx → EReal) (b g be : S128.Idx → EReal) (w : S128x128.Idx → EReal) :
    S100000x128.Idx → EReal :=
  fun i => (∑ k : Fin 128, lnRow (fun cc => a (ix2 (n0 := 100000) (n1 := 128) (i 0) cc) * d (ix2 (n0 := 100000) (n1 := 1) (i 0) 0) + b (ix1 cc))
      (fun cc => g (ix1 cc)) (fun cc => be (ix1 cc)) k * w (ix2 (n0 := 128) (n1 := 128) k (i 1)))
    * d (ix2 (n0 := 100000) (n1 := 1) (i 0) 0)

theorem G1_apply (a : S100000x128.Idx → EReal) (d : S100000x1.Idx → EReal) (b g be : S128.Idx → EReal) (w : S128x128.Idx → EReal)
    (n : Fin 100000) (q : Fin 128) :
    G1 a d b g be w (ix2 n q) = (∑ k : Fin 128, lnRow (fun cc => a (ix2 n cc) * d (ix2 n 0) + b (ix1 cc))
      (fun cc => g (ix1 cc)) (fun cc => be (ix1 cc)) k * w (ix2 k q)) * d (ix2 n 0) := rfl

theorem k1_out_rows (A : S100000x128.Idx → EReal) (D : S100000x1.Idx → EReal) (B Gn Be : S128.Idx → EReal) (Wt : S128x128.Idx → EReal)
    (x0 : Vec Ideal S5000x128 .f32) (x1 : Vec Ideal S5000x1 .f32) (x2 x3 x4 : Vec Ideal S128 .f32) (x5 : Vec Ideal S128x128 .f32)
    (r : Fin 5000 → Fin 100000)
    (h0 : ∀ p k, x0 (ix2 p k) = A (ix2 (r p) k)) (h1 : ∀ p, x1 (ix2 p 0) = D (ix2 (r p) 0))
    (h2 : ∀ k, x2 (ix1 k) = B (ix1 k)) (h3 : ∀ k, x3 (ix1 k) = Gn (ix1 k)) (h4 : ∀ k, x4 (ix1 k) = Be (ix1 k))
    (h5 : ∀ k q, x5 (ix2 k q) = Wt (ix2 k q)) (j : S5000x128.Idx) :
    k1_pay1 (k1_pay2 x0 x1 x2 x3 x4 x5) (k1_pay3 x1) j = G1 A D B Gn Be Wt (ix2 (r (j 0)) (j 1)) := by
  obtain ⟨p, q, rfl⟩ : ∃ (p : Fin 5000) (q : Fin 128), j = ix2 p q := ⟨j 0, j 1, eq_ix2 j⟩
  show k1_pay1 (k1_pay2 x0 x1 x2 x3 x4 x5) (k1_pay3 x1) (ix2 p q) = G1 A D B Gn Be Wt (ix2 (r p) q)
  rw [G1_apply, k1_out_apply]
  simp only [h0, h1, h2, h3, h4, h5]

variable (V : (c : Dev nD) → (b : Ref sig .tc) → Buf (Elt Ideal) ((c : Thread nD τ).loc b))

theorem zero_pair1 : (![0, 0] : Fin 2 → Nat) = fun _ => 0 := funext fun a => by fin_cases a <;> rfl
theorem zero_single1 : (![0] : Fin 1 → Nat) = fun _ => 0 := funext fun a => by fin_cases a; rfl

theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

abbrev ablk1 (c : Dev nD) (t : Fin cfg1.N) : Vec Ideal S5000x128 .f32 := iblk1 V c 0 t
abbrev dblk1 (c : Dev nD) (t : Fin cfg1.N) : Vec Ideal S5000x1 .f32 := iblk1 V c 1 t
abbrev bblk1 (c : Dev nD) (t : Fin cfg1.N) : Vec Ideal S128 .f32 := iblk1 V c 2 t
abbrev gblk1 (c : Dev nD) (t : Fin cfg1.N) : Vec Ideal S128 .f32 := iblk1 V c 3 t
abbrev eblk1 (c : Dev nD) (t : Fin cfg1.N) : Vec Ideal S128 .f32 := iblk1 V c 4 t
abbrev wblk1 (c : Dev nD) (t : Fin cfg1.N) : Vec Ideal S128x128 .f32 := iblk1 V c 5 t

abbrev aarr1 (c : Dev nD) : S100000x128.Idx → EReal := V c main_v24
abbrev darr1 (c : Dev nD) : S100000x1.Idx → EReal := V c main_v12
abbrev barr1 (c : Dev nD) : S128.Idx → EReal := V c main_arg4
abbrev garr1 (c : Dev nD) : S128.Idx → EReal := V c main_arg5
abbrev earr1 (c : Dev nD) : S128.Idx → EReal := V c main_arg6
abbrev warr1 (c : Dev nD) : S128x128.Idx → EReal := V c main_arg7

theorem ablk1_apply (c : Dev nD) (t : Fin cfg1.N) (p : Fin 5000) (k : Fin 128) (n : Fin 100000) (hn : n.val = t.val * 5000 + p.val) :
    ablk1 V c t (ix2 p k) = aarr1 V c (ix2 n k) := by
  obtain ⟨e0, e1, -⟩ := block_indices1 t
  show V c main_v24 (((cfg1.win 0).blk t).view.emb (ix2 p k)) = V c main_v24 (ix2 n k)
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

theorem dblk1_apply (c : Dev nD) (t : Fin cfg1.N) (p : Fin 5000) (n : Fin 100000) (hn : n.val = t.val * 5000 + p.val) :
    dblk1 V c t (ix2 p 0) = darr1 V c (ix2 n 0) := by
  obtain ⟨-, -, e0, e1, -⟩ := block_indices1 t
  show V c main_v12 (((cfg1.win 1).blk t).view.emb (ix2 p 0)) = V c main_v12 (ix2 n 0)
  refine congrArg _ (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

theorem bblk1_apply (c : Dev nD) (t : Fin cfg1.N) (k : Fin 128) : bblk1 V c t (ix1 k) = barr1 V c (ix1 k) := by
  obtain ⟨-, -, -, -, e, -⟩ := block_indices1 t
  show V c main_arg4 (((cfg1.win 2).blk t).view.emb (ix1 k)) = V c main_arg4 (ix1 k)
  refine congrArg _ (funext fun a => Fin.ext ?_)
  match a with
  | ⟨0, _⟩ => show win1_2.index t (0 : Fin 1) * 128 + 1 * k.val = k.val; omega

theorem gblk1_apply (c : Dev nD) (t : Fin cfg1.N) (k : Fin 128) : gblk1 V c t (ix1 k) = garr1 V c (ix1 k) := by
  obtain ⟨-, -, -, -, -, e, -⟩ := block_indices1 t
  show V c main_arg5 (((cfg1.win 3).blk t).view.emb (ix1 k)) = V c main_arg5 (ix1 k)
  refine congrArg _ (funext fun a => Fin.ext ?_)
  match a with
  | ⟨0, _⟩ => show win1_3.index t (0 : Fin 1) * 128 + 1 * k.val = k.val; omega

theorem eblk1_apply (c : Dev nD) (t : Fin cfg1.N) (k : Fin 128) : eblk1 V c t (ix1 k) = earr1 V c (ix1 k) := by
  obtain ⟨-, -, -, -, -, -, e, -⟩ := block_indices1 t
  show V c main_arg6 (((cfg1.win 4).blk t).view.emb (ix1 k)) = V c main_arg6 (ix1 k)
  refine congrArg _ (funext fun a => Fin.ext ?_)
  match a with
  | ⟨0, _⟩ => show win1_4.index t (0 : Fin 1) * 128 + 1 * k.val = k.val; omega

theorem wblk1_apply (c : Dev nD) (t : Fin cfg1.N) (k : Fin 128) (q : Fin 128) :
    wblk1 V c t (ix2 k q) = warr1 V c (ix2 k q) := by
  obtain ⟨-, -, -, -, -, -, -, e0, e1, -⟩ := block_indices1 t
  show V c main_arg7 (((cfg1.win 5).blk t).view.emb (ix2 k q)) = V c main_arg7 (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

theorem flushed1_eq (c : Dev nD) (t : Fin cfg1.N) :
    (dat1 (F := Ideal) V c).flushed 6 t
      = ((cfg1.win 6).blk t).view.read (Elt Ideal)
          (G1 (V c main_v24) (V c main_v12) (V c main_arg4) (V c main_arg5) (V c main_arg6) (V c main_arg7)) := by
  show (cfg1.win 6).cut (grid1.coords t) ((dat1 (F := Ideal) V c).after 6 t) = _
  rw [after1_6]
  unfold out1_6
  rw [View.canon_unit_zero zero_pair1]
  simp only [View.ld_unit_zero (S := S5000x128) zero_pair1, View.ld_unit_zero (S := S128x128) zero_pair1,
    View.ld_unit_zero (S := S5000x1) zero_pair1, View.ld_unit_zero (S := S128) zero_single1]
  obtain ⟨-, -, -, -, -, -, -, -, -, e0, e1⟩ := block_indices1 t
  have ht : t.val < 20 := lt_of_lt_of_eq t.isLt N_1
  funext j
  show k1_pay1 (k1_pay2 (ablk1 V c t) (dblk1 V c t) (bblk1 V c t) (gblk1 V c t) (eblk1 V c t) (wblk1 V c t)) (k1_pay3 (dblk1 V c t)) j
    = G1 (aarr1 V c) (darr1 V c) (barr1 V c) (garr1 V c) (earr1 V c) (warr1 V c) (((cfg1.win 6).blk t).view.emb j)
  refine (k1_out_rows (aarr1 V c) (darr1 V c) (barr1 V c) (garr1 V c) (earr1 V c) (warr1 V c)
    (ablk1 V c t) (dblk1 V c t) (bblk1 V c t) (gblk1 V c t) (eblk1 V c t) (wblk1 V c t)
    (fun p => ⟨t.val * 5000 + p.val, by have := p.isLt; omega⟩)
    (fun p k => ablk1_apply V c t p k _ rfl) (fun p => dblk1_apply V c t p _ rfl)
    (fun k => bblk1_apply V c t k) (fun k => gblk1_apply V c t k) (fun k => eblk1_apply V c t k)
    (fun k q => wblk1_apply V c t k q) j).trans ?_

  refine congrArg _ (funext fun a => Fin.ext ?_)
  match a with
  | ⟨0, _⟩ => show t.val * 5000 + (j 0).val = win1_6.index t (0 : Fin 2) * 5000 + 1 * (j 0).val; omega
  | ⟨1, _⟩ => show (j 1).val = win1_6.index t (1 : Fin 2) * 128 + 1 * (j 1).val; omega

theorem mem_block1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v25).slice (win1_6.rect t)).set ↔ _
  rw [View.set_slice_whole, Rect.mem_set_unit]
  exact Iff.rfl

theorem block_onto1 : ∀ r : Fin 20, ∃ t : Fin cfg1.N, win1_6.index t = ![r.val, 0] :=
  (by decide +kernel : ∀ r : Fin 20, ∃ t : Fin grid1.N, win1_6.index t = ![r.val, 0])

theorem covered1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := block_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem val1 (c : Dev nD) :
    (dat1 (F := Ideal) V c).arrAt 6 cfg1.N
      = G1 (V c main_v24) (V c main_v12) (V c main_arg4) (V c main_arg5) (V c main_arg6) (V c main_arg7) :=
  (dat1 (F := Ideal) V c).arrAt_eq_of_cover 6
    (G1 (V c main_v24) (V c main_v12) (V c main_arg4) (V c main_arg5) (V c main_arg6) (V c main_arg7))
    (fun t _ => flushed1_eq V c t) covered1

end Cert.Bridge

end
-- ==== Proof.Bridge.Val2.lean ====
import proofs.«427718_j18545668784934_3_alg».proof.Proof.KernelIdeal.Reg2
import proofs.«427718_j18545668784934_3_alg».proof.Proof.Bridge.LayerNorm
import proofs.«427718_j18545668784934_3_alg».proof.Proof.Bridge.LayerNormKernel
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

def G2 (a : S100000x128.Idx → EReal) (d : S100000x1.Idx → EReal) (b g be : S128.Idx → EReal) (w : S128x128.Idx → EReal) :
    S100000x128.Idx → EReal :=
  fun i => (∑ k : Fin 128, lnRow (fun cc => a (ix2 (n0 := 100000) (n1 := 128) (i 0) cc) * d (ix2 (n0 := 100000) (n1 := 1) (i 0) 0) + b (ix1 cc))
      (fun cc => g (ix1 cc)) (fun cc => be (ix1 cc)) k * w (ix2 (n0 := 128) (n1 := 128) k (i 1)))
    * d (ix2 (n0 := 100000) (n1 := 1) (i 0) 0)

theorem G2_apply (a : S100000x128.Idx → EReal) (d : S100000x1.Idx → EReal) (b g be : S128.Idx → EReal) (w : S128x128.Idx → EReal)
    (n : Fin 100000) (q : Fin 128) :
    G2 a d b g be w (ix2 n q) = (∑ k : Fin 128, lnRow (fun cc => a (ix2 n cc) * d (ix2 n 0) + b (ix1 cc))
      (fun cc => g (ix1 cc)) (fun cc => be (ix1 cc)) k * w (ix2 k q)) * d (ix2 n 0) := rfl

theorem k2_out_rows (A : S100000x128.Idx → EReal) (D : S100000x1.Idx → EReal) (B Gn Be : S128.Idx → EReal) (Wt : S128x128.Idx → EReal)
    (x0 : Vec Ideal S5000x128 .f32) (x1 : Vec Ideal S5000x1 .f32) (x2 x3 x4 : Vec Ideal S128 .f32) (x5 : Vec Ideal S128x128 .f32)
    (r : Fin 5000 → Fin 100000)
    (h0 : ∀ p k, x0 (ix2 p k) = A (ix2 (r p) k)) (h1 : ∀ p, x1 (ix2 p 0) = D (ix2 (r p) 0))
    (h2 : ∀ k, x2 (ix1 k) = B (ix1 k)) (h3 : ∀ k, x3 (ix1 k) = Gn (ix1 k)) (h4 : ∀ k, x4 (ix1 k) = Be (ix1 k))
    (h5 : ∀ k q, x5 (ix2 k q) = Wt (ix2 k q)) (j : S5000x128.Idx) :
    k2_pay1 (k2_pay2 x0 x1 x2 x3 x4 x5) (k2_pay3 x1) j = G2 A D B Gn Be Wt (ix2 (r (j 0)) (j 1)) := by
  obtain ⟨p, q, rfl⟩ : ∃ (p : Fin 5000) (q : Fin 128), j = ix2 p q := ⟨j 0, j 1, eq_ix2 j⟩
  show k2_pay1 (k2_pay2 x0 x1 x2 x3 x4 x5) (k2_pay3 x1) (ix2 p q) = G2 A D B Gn Be Wt (ix2 (r p) q)
  rw [G2_apply, k2_out_apply]
  simp only [h0, h1, h2, h3, h4, h5]

variable (V : (c : Dev nD) → (b : Ref sig .tc) → Buf (Elt Ideal) ((c : Thread nD τ).loc b))

theorem zero_pair2 : (![0, 0] : Fin 2 → Nat) = fun _ => 0 := funext fun a => by fin_cases a <;> rfl
theorem zero_single2 : (![0] : Fin 1 → Nat) = fun _ => 0 := funext fun a => by fin_cases a; rfl

theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0 ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

abbrev ablk2 (c : Dev nD) (t : Fin cfg2.N) : Vec Ideal S5000x128 .f32 := iblk2 V c 0 t
abbrev dblk2 (c : Dev nD) (t : Fin cfg2.N) : Vec Ideal S5000x1 .f32 := iblk2 V c 1 t
abbrev bblk2 (c : Dev nD) (t : Fin cfg2.N) : Vec Ideal S128 .f32 := iblk2 V c 2 t
abbrev gblk2 (c : Dev nD) (t : Fin cfg2.N) : Vec Ideal S128 .f32 := iblk2 V c 3 t
abbrev eblk2 (c : Dev nD) (t : Fin cfg2.N) : Vec Ideal S128 .f32 := iblk2 V c 4 t
abbrev wblk2 (c : Dev nD) (t : Fin cfg2.N) : Vec Ideal S128x128 .f32 := iblk2 V c 5 t

abbrev aarr2 (c : Dev nD) : S100000x128.Idx → EReal := V c main_v36
abbrev darr2 (c : Dev nD) : S100000x1.Idx → EReal := V c main_v12
abbrev barr2 (c : Dev nD) : S128.Idx → EReal := V c main_arg8
abbrev garr2 (c : Dev nD) : S128.Idx → EReal := V c main_arg9
abbrev earr2 (c : Dev nD) : S128.Idx → EReal := V c main_arg10
abbrev warr2 (c : Dev nD) : S128x128.Idx → EReal := V c main_arg11

theorem ablk2_apply (c : Dev nD) (t : Fin cfg2.N) (p : Fin 5000) (k : Fin 128) (n : Fin 100000) (hn : n.val = t.val * 5000 + p.val) :
    ablk2 V c t (ix2 p k) = aarr2 V c (ix2 n k) := by
  obtain ⟨e0, e1, -⟩ := block_indices2 t
  show V c main_v36 (((cfg2.win 0).blk t).view.emb (ix2 p k)) = V c main_v36 (ix2 n k)
  refine congrArg _ (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

theorem dblk2_apply (c : Dev nD) (t : Fin cfg2.N) (p : Fin 5000) (n : Fin 100000) (hn : n.val = t.val * 5000 + p.val) :
    dblk2 V c t (ix2 p 0) = darr2 V c (ix2 n 0) := by
  obtain ⟨-, -, e0, e1, -⟩ := block_indices2 t
  show V c main_v12 (((cfg2.win 1).blk t).view.emb (ix2 p 0)) = V c main_v12 (ix2 n 0)
  refine congrArg _ (funext fun a => Fin.ext ?_)
  match a with
  | ⟨0, _⟩ => show win2_1.index t (0 : Fin 2) * 5000 + 1 * p.val = n.val; omega
  | ⟨1, _⟩ => show win2_1.index t (1 : Fin 2) * 1 + 1 * 0 = 0; omega

theorem bblk2_apply (c : Dev nD) (t : Fin cfg2.N) (k : Fin 128) : bblk2 V c t (ix1 k) = barr2 V c (ix1 k) := by
  obtain ⟨-, -, -, -, e, -⟩ := block_indices2 t
  show V c main_arg8 (((cfg2.win 2).blk t).view.emb (ix1 k)) = V c main_arg8 (ix1 k)
  refine congrArg _ (funext fun a => Fin.ext ?_)
  match a with
  | ⟨0, _⟩ => show win2_2.index t (0 : Fin 1) * 128 + 1 * k.val = k.val; omega

theorem gblk2_apply (c : Dev nD) (t : Fin cfg2.N) (k : Fin 128) : gblk2 V c t (ix1 k) = garr2 V c (ix1 k) := by
  obtain ⟨-, -, -, -, -, e, -⟩ := block_indices2 t
  show V c main_arg9 (((cfg2.win 3).blk t).view.emb (ix1 k)) = V c main_arg9 (ix1 k)
  refine congrArg _ (funext fun a => Fin.ext ?_)
  match a with
  | ⟨0, _⟩ => show win2_3.index t (0 : Fin 1) * 128 + 1 * k.val = k.val; omega

theorem eblk2_apply (c : Dev nD) (t : Fin cfg2.N) (k : Fin 128) : eblk2 V c t (ix1 k) = earr2 V c (ix1 k) := by
  obtain ⟨-, -, -, -, -, -, e, -⟩ := block_indices2 t
  show V c main_arg10 (((cfg2.win 4).blk t).view.emb (ix1 k)) = V c main_arg10 (ix1 k)
  refine congrArg _ (funext fun a => Fin.ext ?_)
  match a with
  | ⟨0, _⟩ => show win2_4.index t (0 : Fin 1) * 128 + 1 * k.val = k.val; omega

theorem wblk2_apply (c : Dev nD) (t : Fin cfg2.N) (k : Fin 128) (q : Fin 128) :
    wblk2 V c t (ix2 k q) = warr2 V c (ix2 k q) := by
  obtain ⟨-, -, -, -, -, -, -, e0, e1, -⟩ := block_indices2 t
  show V c main_arg11 (((cfg2.win 5).blk t).view.emb (ix2 k q)) = V c main_arg11 (ix2 k q)
  refine congrArg _ (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

theorem flushed2_eq (c : Dev nD) (t : Fin cfg2.N) :
    (dat2 (F := Ideal) V c).flushed 6 t
      = ((cfg2.win 6).blk t).view.read (Elt Ideal)
          (G2 (V c main_v36) (V c main_v12) (V c main_arg8) (V c main_arg9) (V c main_arg10) (V c main_arg11)) := by
  show (cfg2.win 6).cut (grid2.coords t) ((dat2 (F := Ideal) V c).after 6 t) = _
  rw [after2_6]
  unfold out2_6
  rw [View.canon_unit_zero zero_pair2]
  simp only [View.ld_unit_zero (S := S5000x128) zero_pair2, View.ld_unit_zero (S := S128x128) zero_pair2,
    View.ld_unit_zero (S := S5000x1) zero_pair2, View.ld_unit_zero (S := S128) zero_single2]
  obtain ⟨-, -, -, -, -, -, -, -, -, e0, e1⟩ := block_indices2 t
  have ht : t.val < 20 := lt_of_lt_of_eq t.isLt N_2
  funext j
  show k2_pay1 (k2_pay2 (ablk2 V c t) (dblk2 V c t) (bblk2 V c t) (gblk2 V c t) (eblk2 V c t) (wblk2 V c t)) (k2_pay3 (dblk2 V c t)) j
    = G2 (aarr2 V c) (darr2 V c) (barr2 V c) (garr2 V c) (earr2 V c) (warr2 V c) (((cfg2.win 6).blk t).view.emb j)
  refine (k2_out_rows (aarr2 V c) (darr2 V c) (barr2 V c) (garr2 V c) (earr2 V c) (warr2 V c)
    (ablk2 V c t) (dblk2 V c t) (bblk2 V c t) (gblk2 V c t) (eblk2 V c t) (wblk2 V c t)
    (fun p => ⟨t.val * 5000 + p.val, by have := p.isLt; omega⟩)
    (fun p k => ablk2_apply V c t p k _ rfl) (fun p => dblk2_apply V c t p _ rfl)
    (fun k => bblk2_apply V c t k) (fun k => gblk2_apply V c t k) (fun k => eblk2_apply V c t k)
    (fun k q => wblk2_apply V c t k q) j).trans ?_

  refine congrArg _ (funext fun a => Fin.ext ?_)
  match a with
  | ⟨0, _⟩ => show t.val * 5000 + (j 0).val = win2_6.index t (0 : Fin 2) * 5000 + 1 * (j 0).val; omega
  | ⟨1, _⟩ => show (j 1).val = win2_6.index t (1 : Fin 2) * 128 + 1 * (j 1).val; omega

theorem mem_block2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v37).slice (win2_6.rect t)).set ↔ _
  rw [View.set_slice_whole, Rect.mem_set_unit]
  exact Iff.rfl

theorem block_onto2 : ∀ r : Fin 20, ∃ t : Fin cfg2.N, win2_6.index t = ![r.val, 0] :=
  (by decide +kernel : ∀ r : Fin 20, ∃ t : Fin grid2.N, win2_6.index t = ![r.val, 0])

theorem covered2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := block_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_block2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

theorem val2 (c : Dev nD) :
    (dat2 (F := Ideal) V c).arrAt 6 cfg2.N
      = G2 (V c main_v36) (V c main_v12) (V c main_arg8) (V c main_arg9) (V c main_arg10) (V c main_arg11) :=
  (dat2 (F := Ideal) V c).arrAt_eq_of_cover 6
    (G2 (V c main_v36) (V c main_v12) (V c main_arg8) (V c main_arg9) (V c main_arg10) (V c main_arg11))
    (fun t _ => flushed2_eq V c t) covered2

end Cert.Bridge

end
-- ==== Proof.Bridge.RefConv.lean ====
import proofs.«427718_j18545668784934_3_alg».proof.Proof.Reference.ReadP
import proofs.«427718_j18545668784934_3_alg».proof.Proof.Gen.ReferenceIdeal
import Idealize.ShloMosaic.Lib.ValueIdx
import Idealize.ShloMosaic.Lib.IdealHost
import Idealize.ShloMosaic.Lib.StableHlo.Predicate
import Idealize.ShloMosaic.Lib.Pipeline.Value
import Idealize.ShloMosaic.PureOps.Ideal.Laws
import Mathlib.Data.EReal.Operations

noncomputable section

namespace Cert.Bridge

open Cert.ReferenceIdeal Cert.ReferenceIdeal.Gen Idealize.ShloMosaic Idealize.ShloMosaic.ValueIdx
open scoped BigOperators

theorem sum_mul_coe_of_nonneg {ι : Type} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

def nodeOf (i : S100000x128.Idx) : S100000.Idx := ix1 (⟨(i 0).val, idx2_lt0 i⟩ : Fin 100000)

def edgeOf (j : S1700000x128.Idx) : S1700000.Idx := ix1 (⟨(j 0).val, idx2_lt0 j⟩ : Fin 1700000)

def wrapIdx (x : BitVec 32) : BitVec 32 :=
  Scalar.select (IntOp.cmpi .slt x 0#32) (IntOp.addi x 100000#32) x

def clampNode (x : BitVec 32) : S100000.Idx := ix1 (⟨min x.toInt.toNat 99999, by omega⟩ : Fin 100000)

theorem wrapIdx_of_nonneg (x : BitVec 32) (hx : 0 ≤ x.toInt) : wrapIdx x = x := by
  have h : IntOp.cmpi .slt x 0#32 = 0#1 := by
    show BitVec.ofBool (x.slt 0#32) = 0#1
    have : x.slt 0#32 = false := by
      simp only [BitVec.slt, BitVec.toInt_zero, decide_eq_false_iff_not, not_lt]; exact hx
    rw [this]; rfl
  unfold wrapIdx
  rw [h]; exact select_zero _ _

theorem clampNode_of_toInt (x : BitVec 32) (n : Fin 100000) (hx : x.toInt = (n.val : Int)) :
    clampNode x = ix1 n := by
  unfold clampNode
  congr 1
  apply Fin.ext
  show min x.toInt.toNat 99999 = n.val
  have := n.isLt
  omega

theorem rowGather_operandIdx (idx : IVec S1700000x1 32) (e : Fin 1700000) (q : Fin 128) :
    gather_S100000x128_S1700000x1_S1700000x128_1_0_n_n_0_1_1128.operandIdx (ix2 e q) idx
      = ix2 (⟨min (idx (ix2 e (0 : Fin 1))).toInt.toNat 99999, by omega⟩ : Fin 100000) q := by
  funext a
  refine Fin.ext ?_
  match a with
  | ⟨0, _⟩ =>
    show gather_S100000x128_S1700000x1_S1700000x128_1_0_n_n_0_1_1128.start (ix2 e q) idx 0
      + gather_S100000x128_S1700000x1_S1700000x128_1_0_n_n_0_1_1128.batchCoord (ix2 e q) 0
      + gather_S100000x128_S1700000x1_S1700000x128_1_0_n_n_0_1_1128.offCoord (ix2 e q) 0 = _
    rw [GatherDims.batchCoord_eq_zero _ _ _ List.not_mem_nil,
      GatherDims.offCoord_eq_zero _ _ _ (by decide)]
    simp only [Nat.add_zero]
    unfold GatherDims.start
    rw [dif_pos (show (0 : Fin S100000x128.rank) ∈ gather_S100000x128_S1700000x1_S1700000x128_1_0_n_n_0_1_1128.startIndexMap from List.mem_singleton.mpr rfl)]
    have hsi : gather_S100000x128_S1700000x1_S1700000x128_1_0_n_n_0_1_1128.siIdx (ix2 e q)
        ⟨List.idxOf (0 : Fin S100000x128.rank) gather_S100000x128_S1700000x1_S1700000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x128_S1700000x1_S1700000x128_1_0_n_n_0_1_1128.start (ix2 e q) idx 1
      + gather_S100000x128_S1700000x1_S1700000x128_1_0_n_n_0_1_1128.batchCoord (ix2 e q) 1
      + gather_S100000x128_S1700000x1_S1700000x128_1_0_n_n_0_1_1128.offCoord (ix2 e q) 1 = _
    rw [GatherDims.batchCoord_eq_zero _ _ _ List.not_mem_nil]
    unfold GatherDims.start
    rw [dif_neg (by decide)]
    unfold GatherDims.offCoord
    rw [dif_pos (by decide)]
    simp only [Nat.zero_add]
    rfl

theorem nodeOf_rowGather (idx : IVec S1700000x1 32) (e : Fin 1700000) (q : Fin 128) :
    nodeOf (gather_S100000x128_S1700000x1_S1700000x128_1_0_n_n_0_1_1128.operandIdx (ix2 e q) idx)
      = clampNode (idx (ix2 e (0 : Fin 1))) := by
  rw [rowGather_operandIdx]; rfl

theorem eltGather_apply {α : Type} (x : S100000.Idx → α) (idx : IVec S1700000x1 32) (e : Fin 1700000) :
    Host.gather gather_S100000_S1700000x1_S1700000_n_0_n_n_0_1_1 x idx (ix1 e)
      = x (clampNode (idx (ix2 e (0 : Fin 1)))) := by
  unfold Host.gather
  congr 1
  funext a
  refine Fin.ext ?_
  match a with
  | ⟨0, _⟩ =>
    show gather_S100000_S1700000x1_S1700000_n_0_n_n_0_1_1.start (ix1 e) idx 0
      + gather_S100000_S1700000x1_S1700000_n_0_n_n_0_1_1.batchCoord (ix1 e) 0
      + gather_S100000_S1700000x1_S1700000_n_0_n_n_0_1_1.offCoord (ix1 e) 0 = _
    rw [GatherDims.batchCoord_eq_zero _ _ _ List.not_mem_nil,
      GatherDims.offCoord_eq_zero _ _ _ (by decide)]
    simp only [Nat.add_zero]
    unfold GatherDims.start
    rw [dif_pos (show (0 : Fin S100000.rank) ∈ gather_S100000_S1700000x1_S1700000_n_0_n_n_0_1_1.startIndexMap from List.mem_singleton.mpr rfl)]
    have hsi : gather_S100000_S1700000x1_S1700000_n_0_n_n_0_1_1.siIdx (ix1 e)
        ⟨List.idxOf (0 : Fin S100000.rank) gather_S100000_S1700000x1_S1700000_n_0_n_n_0_1_1.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

private theorem rows_start0 (idx : IVec S1700000x1 32) (e : Fin 1700000) (q : Fin 128) :
    scatter_S100000x128_S1700000x1_S1700000x128_1_0_0_1.start (ix2 e q) idx 0 = (idx (ix2 e (0 : Fin 1))).toInt := by
  unfold ScatterDims.start
  rw [dif_pos (show (0 : Fin S100000x128.rank) ∈ scatter_S100000x128_S1700000x1_S1700000x128_1_0_0_1.scatterDimsToOperandDims from List.mem_singleton.mpr rfl)]
  have hsi : scatter_S100000x128_S1700000x1_S1700000x128_1_0_0_1.siIdx (ix2 e q)
      ⟨List.idxOf (0 : Fin S100000x128.rank) scatter_S100000x128_S1700000x1_S1700000x128_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem rows_start1 (idx : IVec S1700000x1 32) (e : Fin 1700000) (q : Fin 128) :
    scatter_S100000x128_S1700000x1_S1700000x128_1_0_0_1.start (ix2 e q) idx 1 = 0 := by
  unfold ScatterDims.start
  rw [dif_neg (by decide)]

private theorem rows_window0 (e : Fin 1700000) (q : Fin 128) :
    scatter_S100000x128_S1700000x1_S1700000x128_1_0_0_1.window (ix2 e q) 0 = 0 := by
  unfold ScatterDims.window
  rw [dif_neg (by decide)]

private theorem rows_window1 (e : Fin 1700000) (q : Fin 128) :
    scatter_S100000x128_S1700000x1_S1700000x128_1_0_0_1.window (ix2 e q) 1 = q.val := by
  unfold ScatterDims.window
  rw [dif_pos (by decide)]
  rfl

theorem rowScatter_lands (idx : IVec S1700000x1 32) (e : Fin 1700000) (q : Fin 128) (i : S100000x128.Idx)
    (h : scatter_S100000x128_S1700000x1_S1700000x128_1_0_0_1.resultIdx? (ix2 e q) idx = some i) :
    (idx (ix2 e (0 : Fin 1))).toInt = ((i 0).val : Int) ∧ (i 1).val = q.val := by
  unfold ScatterDims.resultIdx? at h
  split at h
  · next hb =>
    have hi := Option.some.inj h
    have h0 := hb 0
    have h1 := hb 1
    have e0 : (scatter_S100000x128_S1700000x1_S1700000x128_1_0_0_1.start (ix2 e q) idx 0
        + ((scatter_S100000x128_S1700000x1_S1700000x128_1_0_0_1.window (ix2 e q) 0 : Nat) : Int)).toNat = (i 0).val :=
      congrArg Fin.val (congrFun hi 0)
    have e1 : (scatter_S100000x128_S1700000x1_S1700000x128_1_0_0_1.start (ix2 e q) idx 1
        + ((scatter_S100000x128_S1700000x1_S1700000x128_1_0_0_1.window (ix2 e q) 1 : Nat) : Int)).toNat = (i 1).val :=
      congrArg Fin.val (congrFun hi 1)
    rw [rows_start0, rows_window0] at h0 e0
    rw [rows_start1, rows_window1] at e1
    constructor <;> omega
  · exact absurd h (by simp)

theorem eltScatter_lands (idx : IVec S1700000x1 32) (e : Fin 1700000) (n : Fin 100000)
    (h : (idx (ix2 e (0 : Fin 1))).toInt = (n.val : Int)) :
    scatter_S100000_S1700000x1_S1700000_n_0_0_1.resultIdx? (ix1 e) idx = some (ix1 n) := by
  have hs : scatter_S100000_S1700000x1_S1700000_n_0_0_1.start (ix1 e) idx 0 = (idx (ix2 e (0 : Fin 1))).toInt := by
    unfold ScatterDims.start
    rw [dif_pos (show (0 : Fin S100000.rank) ∈ scatter_S100000_S1700000x1_S1700000_n_0_0_1.scatterDimsToOperandDims from List.mem_singleton.mpr rfl)]
    have hsi : scatter_S100000_S1700000x1_S1700000_n_0_0_1.siIdx (ix1 e)
        ⟨List.idxOf (0 : Fin S100000.rank) scatter_S100000_S1700000x1_S1700000_n_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : scatter_S100000_S1700000x1_S1700000_n_0_0_1.window (ix1 e) 0 = 0 := by
    unfold ScatterDims.window
    rw [dif_neg (by decide)]
  have hb : ∀ a, 0 ≤ scatter_S100000_S1700000x1_S1700000_n_0_0_1.start (ix1 e) idx a
        + ((scatter_S100000_S1700000x1_S1700000_n_0_0_1.window (ix1 e) a : Nat) : Int)
      ∧ scatter_S100000_S1700000x1_S1700000_n_0_0_1.start (ix1 e) idx a
        + ((scatter_S100000_S1700000x1_S1700000_n_0_0_1.window (ix1 e) a : Nat) : Int) < ((S100000.size a : Nat) : Int) := by
    intro a
    match a with
    | ⟨0, _⟩ =>
      show 0 ≤ scatter_S100000_S1700000x1_S1700000_n_0_0_1.start (ix1 e) idx 0
            + ((scatter_S100000_S1700000x1_S1700000_n_0_0_1.window (ix1 e) 0 : Nat) : Int)
          ∧ scatter_S100000_S1700000x1_S1700000_n_0_0_1.start (ix1 e) idx 0
            + ((scatter_S100000_S1700000x1_S1700000_n_0_0_1.window (ix1 e) 0 : Nat) : Int) < ((100000 : Nat) : Int)
      rw [hs, hw, h]; have := n.isLt; omega
  unfold ScatterDims.resultIdx?
  rw [dif_pos hb]
  refine congrArg some (funext fun a => Fin.ext ?_)
  match a with
  | ⟨0, _⟩ =>
    show (scatter_S100000_S1700000x1_S1700000_n_0_0_1.start (ix1 e) idx 0
        + ((scatter_S100000_S1700000x1_S1700000_n_0_0_1.window (ix1 e) 0 : Nat) : Int)).toNat = n.val
    rw [hs, hw, h]; omega

theorem conv_rearranged (dis : S100000.Idx → EReal) (hdis : ∀ n, ∃ r : ℝ, 0 ≤ r ∧ dis n = (r : EReal))
    (hW : S100000x128.Idx → EReal) (src dst : IVec S1700000 32) (sidx didx : IVec S1700000x1 32)
    (norm : S1700000.Idx → EReal)
    (hs : ∀ e : Fin 1700000, sidx (ix2 e (0 : Fin 1)) = wrapIdx (src (ix1 e)))
    (hd : ∀ e : Fin 1700000, didx (ix2 e (0 : Fin 1)) = dst (ix1 e))
    (hn : ∀ e : Fin 1700000, norm (ix1 e)
      = dis (clampNode (wrapIdx (src (ix1 e)))) * dis (clampNode (wrapIdx (dst (ix1 e)))))
    (i : S100000x128.Idx) :
    Ideal.hostScatterAdd scatter_S100000x128_S1700000x1_S1700000x128_1_0_0_1 (fun _ => (0 : EReal)) didx
        (fun j => hW (gather_S100000x128_S1700000x1_S1700000x128_1_0_n_n_0_1_1128.operandIdx j sidx) * norm (edgeOf j)) i
      = Ideal.hostScatterAdd scatter_S100000x128_S1700000x1_S1700000x128_1_0_0_1 (fun _ => (0 : EReal)) didx
        (fun j => hW (gather_S100000x128_S1700000x1_S1700000x128_1_0_n_n_0_1_1128.operandIdx j sidx)
          * dis (nodeOf (gather_S100000x128_S1700000x1_S1700000x128_1_0_n_n_0_1_1128.operandIdx j sidx))) i
        * dis (nodeOf i) := by
  obtain ⟨r, hr, hri⟩ := hdis (nodeOf i)
  simp only [Ideal.hostScatterAdd]
  rw [hri, zero_add, zero_add, sum_mul_coe_of_nonneg _ _ hr]
  refine Finset.sum_congr rfl fun j hj => ?_
  have hj' := (Finset.mem_filter.1 hj).2
  obtain ⟨e, q, rfl⟩ : ∃ (e : Fin 1700000) (q : Fin 128), j = ix2 e q := ⟨j 0, j 1, eq_ix2 j⟩
  obtain ⟨h0, _⟩ := rowScatter_lands didx e q i hj'
  have hE : edgeOf (ix2 e q) = ix1 e := rfl
  have hdst : clampNode (wrapIdx (dst (ix1 e))) = nodeOf i := by
    rw [hd] at h0
    rw [wrapIdx_of_nonneg _ (by omega)]
    exact clampNode_of_toInt _ ⟨(i 0).val, idx2_lt0 i⟩ h0
  rw [nodeOf_rowGather, hE, hn, hs, hdst, hri, mul_assoc]

def selfLoop (n : Fin 100000) : Fin 1700000 := ⟨1600000 + n.val, by have := n.isLt; omega⟩

theorem degree_count (idx : IVec S1700000x1 32) (n : Fin 100000)
    (hself : (idx (ix2 (selfLoop n) (0 : Fin 1))).toInt = (n.val : Int)) :
    ∃ k : ℕ, 1 ≤ k ∧ Ideal.hostScatterAdd scatter_S100000_S1700000x1_S1700000_n_0_0_1 (fun _ => (0 : EReal)) idx
      (fun _ => (1 : EReal)) (ix1 n) = ((k : ℝ) : EReal) := by
  refine ⟨(Finset.univ.filter fun j : S1700000.Idx =>
      scatter_S100000_S1700000x1_S1700000_n_0_0_1.resultIdx? j idx = some (ix1 n)).card, ?_, ?_⟩
  · exact Finset.card_pos.2 ⟨ix1 (selfLoop n),
      Finset.mem_filter.2 ⟨Finset.mem_univ _, eltScatter_lands idx (selfLoop n) n hself⟩⟩
  · simp only [Ideal.hostScatterAdd]
    rw [zero_add, Finset.sum_const, nsmul_one]
    exact EReal.coe_natCast.symm

theorem rsqrt_count (k : ℕ) (hk : 1 ≤ k) : ∃ r : ℝ, 0 ≤ r ∧ Ideal.rsqrt ((k : ℝ) : EReal) = (r : EReal) := by
  have hk' : (0 : ℝ) < (k : ℝ) := by exact_mod_cast hk
  refine ⟨(Real.sqrt (k : ℝ))⁻¹, inv_nonneg.2 (Real.sqrt_nonneg _), ?_⟩
  rw [Ideal.rsqrt_coe, if_neg (not_lt.2 hk'.le), if_neg hk'.ne']

section Reference

open Cert.ReferenceIdeal.Read

variable (x1 : (⟨S2x1600000, .i32⟩ : BufTy).Contents (Elt Ideal))

theorem dst_selfLoop (n : Fin 100000) :
    val_main_v6 (F := Ideal) x1 (ix1 (selfLoop n)) = BitVec.ofNat 32 n.val := by
  unfold val_main_v6
  exact (concatenate_pair_apply_right (t := S1700000) (s₁ := S1600000) (s₂ := S100000) (0 : Fin S1700000.rank) _ _ _ (ix1 (selfLoop n)) rfl rfl (ix1 n)
    (fun b hb => absurd (Subsingleton.elim _ _) hb)
    (by show n.val + 1600000 = 1600000 + n.val; omega)).trans (val_main_v0_apply (ix1 n))

theorem dstCol9 (e : Fin 1700000) :
    val_main_v9 (F := Ideal) x1 (ix2 e (0 : Fin 1)) = val_main_v6 x1 (ix1 e) := by
  rw [val_main_v9_apply]
  exact congrArg _ (funext fun a => match a with | ⟨0, _⟩ => rfl)

theorem selfLoop_word (m : Fin 100000) :
    (val_main_v9 (F := Ideal) x1 (ix2 (selfLoop m) (0 : Fin 1))).toInt = (m.val : Int) := by
  rw [dstCol9, dst_selfLoop]
  exact StableHlo.Predicate.toInt_ofNat_small m.val (by have := m.isLt; omega)

theorem zeros8 : val_main_v8 (F := Ideal) = fun _ => (0 : EReal) := by
  funext i
  rw [val_main_v8_apply, val_main_cst_0_apply]
  exact Ideal.ofBits_zero_f32

theorem ones7 : val_main_v7 (F := Ideal) = fun _ => (1 : EReal) := by
  funext i
  rw [val_main_v7_apply, val_main_cst_apply]
  exact Ideal.ofBits_one_f32

theorem dis_as_count (m : Fin 100000) :
    val_main_v11 (F := Ideal) x1 (ix1 m)
      = Ideal.rsqrt (Ideal.hostScatterAdd scatter_S100000_S1700000x1_S1700000_n_0_0_1 (fun _ => (0 : EReal))
          (val_main_v9 (F := Ideal) x1) (fun _ => (1 : EReal)) (ix1 m)) := by
  have h10 : val_main_v10 (F := Ideal) x1
      = Ideal.hostScatterAdd scatter_S100000_S1700000x1_S1700000_n_0_0_1 (val_main_v8 (F := Ideal))
          (val_main_v9 (F := Ideal) x1) (val_main_v7 (F := Ideal)) := rfl
  rw [val_main_v11_apply, Ideal.hostUnary_rsqrt_def, h10, zeros8, ones7]

theorem dis_real (n : S100000.Idx) : ∃ r : ℝ, 0 ≤ r ∧ val_main_v11 (F := Ideal) x1 n = (r : EReal) := by
  obtain ⟨m, rfl⟩ : ∃ m : Fin 100000, n = ix1 m := ⟨n 0, eq_ix1 n⟩
  obtain ⟨k, hk, hdeg⟩ := degree_count (val_main_v9 (F := Ideal) x1) m (selfLoop_word x1 m)
  obtain ⟨r, hr, hrk⟩ := rsqrt_count k hk
  exact ⟨r, hr, by rw [dis_as_count, hdeg, hrk]⟩

end Reference

section Layers

open Cert.ReferenceIdeal.Read

variable (x0 : (⟨S100000x128, .f32⟩ : BufTy).Contents (Elt Ideal))
  (x1 : (⟨S2x1600000, .i32⟩ : BufTy).Contents (Elt Ideal))
  (x3 : (⟨S128x128, .f32⟩ : BufTy).Contents (Elt Ideal))
  (x4 x5 x6 : (⟨S128, .f32⟩ : BufTy).Contents (Elt Ideal))
  (x7 : (⟨S128x128, .f32⟩ : BufTy).Contents (Elt Ideal))
  (x8 x9 x10 : (⟨S128, .f32⟩ : BufTy).Contents (Elt Ideal))
  (x11 : (⟨S128x128, .f32⟩ : BufTy).Contents (Elt Ideal))

theorem srcCol17 (e : Fin 1700000) :
    val_main_v17 (F := Ideal) x1 (ix2 e (0 : Fin 1)) = wrapIdx (val_main_v3 (F := Ideal) x1 (ix1 e)) := by
  rw [val_main_v17_apply,
    show idx_main_v17 (ix2 e (0 : Fin 1)) = ix1 e from funext fun a => match a with | ⟨0, _⟩ => rfl,
    val_main_v16_apply, val_main_v13_apply, val_main_v15_apply, val_main_v12_apply, val_main_v14_apply,
    val_main_c_apply, val_main_c_1_apply]
  rfl

theorem dstCol24 (e : Fin 1700000) :
    val_main_v24 (F := Ideal) x1 (ix2 e (0 : Fin 1)) = wrapIdx (val_main_v6 (F := Ideal) x1 (ix1 e)) := by
  rw [val_main_v24_apply,
    show idx_main_v24 (ix2 e (0 : Fin 1)) = ix1 e from funext fun a => match a with | ⟨0, _⟩ => rfl,
    val_main_v23_apply, val_main_v20_apply, val_main_v22_apply, val_main_v19_apply, val_main_v21_apply,
    val_main_c_2_apply, val_main_c_3_apply]
  rfl

theorem srcCol33 (e : Fin 1700000) :
    val_main_v33 (F := Ideal) x1 (ix2 e (0 : Fin 1)) = wrapIdx (val_main_v3 (F := Ideal) x1 (ix1 e)) := by
  rw [val_main_v33_apply,
    show idx_main_v33 (ix2 e (0 : Fin 1)) = ix1 e from funext fun a => match a with | ⟨0, _⟩ => rfl,
    val_main_v32_apply, val_main_v29_apply, val_main_v31_apply, val_main_v28_apply, val_main_v30_apply,
    val_main_c_4_apply, val_main_c_5_apply]
  rfl

theorem srcCol75 (e : Fin 1700000) :
    val_main_v75 (F := Ideal) x1 (ix2 e (0 : Fin 1)) = wrapIdx (val_main_v3 (F := Ideal) x1 (ix1 e)) := by
  rw [val_main_v75_apply,
    show idx_main_v75 (ix2 e (0 : Fin 1)) = ix1 e from funext fun a => match a with | ⟨0, _⟩ => rfl,
    val_main_v74_apply, val_main_v71_apply, val_main_v73_apply, val_main_v70_apply, val_main_v72_apply,
    val_main_c_12_apply, val_main_c_13_apply]
  rfl

theorem srcCol117 (e : Fin 1700000) :
    val_main_v117 (F := Ideal) x1 (ix2 e (0 : Fin 1)) = wrapIdx (val_main_v3 (F := Ideal) x1 (ix1 e)) := by
  rw [val_main_v117_apply,
    show idx_main_v117 (ix2 e (0 : Fin 1)) = ix1 e from funext fun a => match a with | ⟨0, _⟩ => rfl,
    val_main_v116_apply, val_main_v113_apply, val_main_v115_apply, val_main_v112_apply, val_main_v114_apply,
    val_main_c_20_apply, val_main_c_21_apply]
  rfl

theorem dstCol39 (e : Fin 1700000) :
    val_main_v39 (F := Ideal) x1 (ix2 e (0 : Fin 1)) = val_main_v6 (F := Ideal) x1 (ix1 e) := by
  rw [val_main_v39_apply]
  exact congrArg _ (funext fun a => match a with | ⟨0, _⟩ => rfl)

theorem dstCol81 (e : Fin 1700000) :
    val_main_v81 (F := Ideal) x1 (ix2 e (0 : Fin 1)) = val_main_v6 (F := Ideal) x1 (ix1 e) := by
  rw [val_main_v81_apply]
  exact congrArg _ (funext fun a => match a with | ⟨0, _⟩ => rfl)

theorem dstCol123 (e : Fin 1700000) :
    val_main_v123 (F := Ideal) x1 (ix2 e (0 : Fin 1)) = val_main_v6 (F := Ideal) x1 (ix1 e) := by
  rw [val_main_v123_apply]
  exact congrArg _ (funext fun a => match a with | ⟨0, _⟩ => rfl)

theorem norm26 (e : Fin 1700000) :
    val_main_v26 (F := Ideal) x1 (ix1 e)
      = val_main_v11 (F := Ideal) x1 (clampNode (wrapIdx (val_main_v3 (F := Ideal) x1 (ix1 e))))
        * val_main_v11 (F := Ideal) x1 (clampNode (wrapIdx (val_main_v6 (F := Ideal) x1 (ix1 e)))) := by
  have h18 : val_main_v18 (F := Ideal) x1
      = Host.gather gather_S100000_S1700000x1_S1700000_n_0_n_n_0_1_1 (val_main_v11 (F := Ideal) x1)
          (val_main_v17 (F := Ideal) x1) := rfl
  have h25 : val_main_v25 (F := Ideal) x1
      = Host.gather gather_S100000_S1700000x1_S1700000_n_0_n_n_0_1_1 (val_main_v11 (F := Ideal) x1)
          (val_main_v24 (F := Ideal) x1) := rfl
  rw [val_main_v26_apply, Ideal.mulf_def, h18, h25, eltGather_apply, eltGather_apply, srcCol17, dstCol24]

theorem zeros38 : val_main_v38 (F := Ideal) = fun _ => (0 : EReal) := by
  funext i
  rw [val_main_v38_apply, val_main_cst_6_apply]
  exact Ideal.ofBits_zero_f32

theorem updates37 : val_main_v37 (F := Ideal) x0 x1 x3
    = fun j => val_main_v27 (F := Ideal) x0 x3 (gather_S100000x128_S1700000x1_S1700000x128_1_0_n_n_0_1_1128.operandIdx j (val_main_v33 (F := Ideal) x1))
        * val_main_v26 (F := Ideal) x1 (edgeOf j) := by
  funext j
  have hg : val_main_v34 (F := Ideal) x0 x1 x3 j
      = val_main_v27 (F := Ideal) x0 x3 (gather_S100000x128_S1700000x1_S1700000x128_1_0_n_n_0_1_1128.operandIdx j (val_main_v33 (F := Ideal) x1)) := rfl
  rw [val_main_v37_apply, Ideal.mulf_def, hg, val_main_v36_apply, val_main_v35_apply,
    show idx_main_v35 (idx_main_v36 j) = edgeOf j from funext fun a => match a with | ⟨0, _⟩ => rfl]

-- scaling the gathered rows by dis[src] and the summed rows by dis[dst] gives the reference's edge weight dis[src] * dis[dst]
theorem conv1_of_scaled (H : S100000x128.Idx → EReal)
    (hH : ∀ i', H i' = val_main_v27 (F := Ideal) x0 x3 i' * val_main_v11 (F := Ideal) x1 (nodeOf i'))
    (i : S100000x128.Idx) :
    Ideal.hostScatterAdd scatter_S100000x128_S1700000x1_S1700000x128_1_0_0_1 (fun _ => (0 : EReal)) (val_main_v39 (F := Ideal) x1)
        (Host.gather gather_S100000x128_S1700000x1_S1700000x128_1_0_n_n_0_1_1128 H (val_main_v33 (F := Ideal) x1)) i
      * val_main_v11 (F := Ideal) x1 (nodeOf i)
      = val_main_v40 (F := Ideal) x0 x1 x3 i := by
  rw [funext hH, show val_main_v40 (F := Ideal) x0 x1 x3
      = Ideal.hostScatterAdd scatter_S100000x128_S1700000x1_S1700000x128_1_0_0_1 (val_main_v38 (F := Ideal)) (val_main_v39 (F := Ideal) x1) (val_main_v37 (F := Ideal) x0 x1 x3) from rfl,
    zeros38, updates37]
  exact (conv_rearranged (val_main_v11 (F := Ideal) x1) (dis_real x1) (val_main_v27 (F := Ideal) x0 x3)
    (val_main_v3 (F := Ideal) x1) (val_main_v6 (F := Ideal) x1) (val_main_v33 (F := Ideal) x1)
    (val_main_v39 (F := Ideal) x1) (val_main_v26 (F := Ideal) x1) (srcCol33 x1) (dstCol39 x1) (norm26 x1) i).symm

theorem zeros80 : val_main_v80 (F := Ideal) = fun _ => (0 : EReal) := by
  funext i
  rw [val_main_v80_apply, val_main_cst_14_apply]
  exact Ideal.ofBits_zero_f32

theorem updates79 : val_main_v79 (F := Ideal) x0 x1 x3 x4 x5 x6 x7
    = fun j => val_main_v69 (F := Ideal) x0 x1 x3 x4 x5 x6 x7 (gather_S100000x128_S1700000x1_S1700000x128_1_0_n_n_0_1_1128.operandIdx j (val_main_v75 (F := Ideal) x1))
        * val_main_v26 (F := Ideal) x1 (edgeOf j) := by
  funext j
  have hg : val_main_v76 (F := Ideal) x0 x1 x3 x4 x5 x6 x7 j
      = val_main_v69 (F := Ideal) x0 x1 x3 x4 x5 x6 x7 (gather_S100000x128_S1700000x1_S1700000x128_1_0_n_n_0_1_1128.operandIdx j (val_main_v75 (F := Ideal) x1)) := rfl
  rw [val_main_v79_apply, Ideal.mulf_def, hg, val_main_v78_apply, val_main_v77_apply,
    show idx_main_v77 (idx_main_v78 j) = edgeOf j from funext fun a => match a with | ⟨0, _⟩ => rfl]

theorem conv2_of_scaled (H : S100000x128.Idx → EReal)
    (hH : ∀ i', H i' = val_main_v69 (F := Ideal) x0 x1 x3 x4 x5 x6 x7 i' * val_main_v11 (F := Ideal) x1 (nodeOf i'))
    (i : S100000x128.Idx) :
    Ideal.hostScatterAdd scatter_S100000x128_S1700000x1_S1700000x128_1_0_0_1 (fun _ => (0 : EReal)) (val_main_v81 (F := Ideal) x1)
        (Host.gather gather_S100000x128_S1700000x1_S1700000x128_1_0_n_n_0_1_1128 H (val_main_v75 (F := Ideal) x1)) i
      * val_main_v11 (F := Ideal) x1 (nodeOf i)
      = val_main_v82 (F := Ideal) x0 x1 x3 x4 x5 x6 x7 i := by
  rw [funext hH, show val_main_v82 (F := Ideal) x0 x1 x3 x4 x5 x6 x7
      = Ideal.hostScatterAdd scatter_S100000x128_S1700000x1_S1700000x128_1_0_0_1 (val_main_v80 (F := Ideal)) (val_main_v81 (F := Ideal) x1) (val_main_v79 (F := Ideal) x0 x1 x3 x4 x5 x6 x7) from rfl,
    zeros80, updates79]
  exact (conv_rearranged (val_main_v11 (F := Ideal) x1) (dis_real x1) (val_main_v69 (F := Ideal) x0 x1 x3 x4 x5 x6 x7)
    (val_main_v3 (F := Ideal) x1) (val_main_v6 (F := Ideal) x1) (val_main_v75 (F := Ideal) x1)
    (val_main_v81 (F := Ideal) x1) (val_main_v26 (F := Ideal) x1) (srcCol75 x1) (dstCol81 x1) (norm26 x1) i).symm

theorem zeros122 : val_main_v122 (F := Ideal) = fun _ => (0 : EReal) := by
  funext i
  rw [val_main_v122_apply, val_main_cst_22_apply]
  exact Ideal.ofBits_zero_f32

theorem updates121 : val_main_v121 (F := Ideal) x0 x1 x3 x4 x5 x6 x7 x8 x9 x10 x11
    = fun j => val_main_v111 (F := Ideal) x0 x1 x3 x4 x5 x6 x7 x8 x9 x10 x11 (gather_S100000x128_S1700000x1_S1700000x128_1_0_n_n_0_1_1128.operandIdx j (val_main_v117 (F := Ideal) x1))
        * val_main_v26 (F := Ideal) x1 (edgeOf j) := by
  funext j
  have hg : val_main_v118 (F := Ideal) x0 x1 x3 x4 x5 x6 x7 x8 x9 x10 x11 j
      = val_main_v111 (F := Ideal) x0 x1 x3 x4 x5 x6 x7 x8 x9 x10 x11 (gather_S100000x128_S1700000x1_S1700000x128_1_0_n_n_0_1_1128.operandIdx j (val_main_v117 (F := Ideal) x1)) := rfl
  rw [val_main_v121_apply, Ideal.mulf_def, hg, val_main_v120_apply, val_main_v119_apply,
    show idx_main_v119 (idx_main_v120 j) = edgeOf j from funext fun a => match a with | ⟨0, _⟩ => rfl]

theorem conv3_of_scaled (H : S100000x128.Idx → EReal)
    (hH : ∀ i', H i' = val_main_v111 (F := Ideal) x0 x1 x3 x4 x5 x6 x7 x8 x9 x10 x11 i' * val_main_v11 (F := Ideal) x1 (nodeOf i'))
    (i : S100000x128.Idx) :
    Ideal.hostScatterAdd scatter_S100000x128_S1700000x1_S1700000x128_1_0_0_1 (fun _ => (0 : EReal)) (val_main_v123 (F := Ideal) x1)
        (Host.gather gather_S100000x128_S1700000x1_S1700000x128_1_0_n_n_0_1_1128 H (val_main_v117 (F := Ideal) x1)) i
      * val_main_v11 (F := Ideal) x1 (nodeOf i)
      = val_main_v124 (F := Ideal) x0 x1 x3 x4 x5 x6 x7 x8 x9 x10 x11 i := by
  rw [funext hH, show val_main_v124 (F := Ideal) x0 x1 x3 x4 x5 x6 x7 x8 x9 x10 x11
      = Ideal.hostScatterAdd scatter_S100000x128_S1700000x1_S1700000x128_1_0_0_1 (val_main_v122 (F := Ideal)) (val_main_v123 (F := Ideal) x1) (val_main_v121 (F := Ideal) x0 x1 x3 x4 x5 x6 x7 x8 x9 x10 x11) from rfl,
    zeros122, updates121]
  exact (conv_rearranged (val_main_v11 (F := Ideal) x1) (dis_real x1) (val_main_v111 (F := Ideal) x0 x1 x3 x4 x5 x6 x7 x8 x9 x10 x11)
    (val_main_v3 (F := Ideal) x1) (val_main_v6 (F := Ideal) x1) (val_main_v117 (F := Ideal) x1)
    (val_main_v123 (F := Ideal) x1) (val_main_v26 (F := Ideal) x1) (srcCol117 x1) (dstCol123 x1) (norm26 x1) i).symm

end Layers

end Cert.Bridge
-- ==== Proof.Bridge.LayerNormRef.lean ====
import proofs.«427718_j18545668784934_3_alg».proof.Proof.Reference.ReadP
import proofs.«427718_j18545668784934_3_alg».proof.Proof.Bridge.LayerNorm

noncomputable section

namespace Cert.Bridge

open Idealize.ShloMosaic Idealize.ShloMosaic.ValueIdx Cert.ReferenceIdeal Cert.ReferenceIdeal.Read

theorem ref_mean1 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (n : Fin 100000) (u : Fin 1) :
    val_main_v47 (F := Ideal) x0 x1 x3 x4 (ix2 n u)
      = lnMean (fun c => val_main_v43 (F := Ideal) x0 x1 x3 x4 (ix2 n c)) := by
  have hrow : ∀ k : Fin 128, idx_main_v44 (idx_main_v45 (ix2 n u)) k = ix2 n k := fun k =>
    funext fun a => Fin.ext (by match a with | ⟨0, _⟩ => rfl | ⟨1, _⟩ => rfl)
  rw [val_main_v47_apply, val_main_v45_apply, val_main_v44_apply, val_main_v46_apply, val_main_cst_8_apply,
    val_main_cst_7_apply, Ideal.hostDivf_def, Ideal.ofBits_def, Ideal.ofBits_def, Ideal.ofBits_zero_f32, zero_add]
  unfold lnMean
  refine congrArg₂ Ideal.div (Finset.sum_congr rfl fun k _ => ?_) rfl
  rw [hrow k]

theorem ref_var1 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (n : Fin 100000) (u : Fin 1) :
    val_main_v54 (F := Ideal) x0 x1 x3 x4 (ix2 n u)
      = lnVar (fun c => val_main_v43 (F := Ideal) x0 x1 x3 x4 (ix2 n c)) := by
  have hrow : ∀ k : Fin 128, idx_main_v51 (idx_main_v52 (ix2 n u)) k = ix2 n k := fun k =>
    funext fun a => Fin.ext (by match a with | ⟨0, _⟩ => rfl | ⟨1, _⟩ => rfl)
  have hcol : ∀ k : Fin 128, idx_main_v48 (ix2 n k) = ix2 n (0 : Fin 1) := fun k =>
    funext fun a => Fin.ext (by match a with | ⟨0, _⟩ => rfl | ⟨1, _⟩ => rfl)
  rw [val_main_v54_apply, val_main_v52_apply, val_main_v51_apply, val_main_v53_apply, val_main_cst_10_apply,
    val_main_cst_9_apply, Ideal.hostDivf_def, Ideal.ofBits_def, Ideal.ofBits_def, Ideal.ofBits_zero_f32, zero_add]
  unfold lnVar
  refine congrArg₂ Ideal.div (Finset.sum_congr rfl fun k _ => ?_) rfl
  rw [hrow k, val_main_v50_apply, val_main_v49_apply, val_main_v48_apply, hcol k, ref_mean1, Ideal.mulf_def,
    Ideal.subf_def]

theorem ref_ln1_apply (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (n : Fin 100000) (q : Fin 128) :
    val_main_v68 (F := Ideal) x0 x1 x3 x4 x5 x6 (ix2 n q)
      = lnRow (fun c => val_main_v43 (F := Ideal) x0 x1 x3 x4 (ix2 n c)) (fun c => x5 (ix1 c)) (fun c => x6 (ix1 c)) q := by
  have e_be : idx_main_v65 (idx_main_v66 (ix2 n q)) = ix1 q :=
    funext fun a => Fin.ext (by match a with | ⟨0, _⟩ => rfl)
  have e_g : idx_main_v62 (idx_main_v63 (ix2 n q)) = ix1 q :=
    funext fun a => Fin.ext (by match a with | ⟨0, _⟩ => rfl)
  have e_rs : idx_main_v60 (ix2 n q) = ix2 n (0 : Fin 1) :=
    funext fun a => Fin.ext (by match a with | ⟨0, _⟩ => rfl | ⟨1, _⟩ => rfl)
  have e_mu : idx_main_v55 (ix2 n q) = ix2 n (0 : Fin 1) :=
    funext fun a => Fin.ext (by match a with | ⟨0, _⟩ => rfl | ⟨1, _⟩ => rfl)
  rw [val_main_v68_apply, val_main_call0_v0_apply, val_main_call0_cst_apply, val_main_v67_apply, val_main_v66_apply,
    val_main_v65_apply, e_be, val_main_v64_apply, val_main_v63_apply, val_main_v62_apply, e_g, val_main_v61_apply,
    val_main_v60_apply, e_rs, val_main_v59_apply, val_main_v58_apply, val_main_v57_apply, val_main_cst_11_apply,
    ref_var1, val_main_v56_apply, val_main_v55_apply, e_mu, ref_mean1]
  simp only [Ideal.maximumf_def, Ideal.addf_def, Ideal.mulf_def, Ideal.subf_def, Ideal.hostUnary_rsqrt_def,
    Ideal.ofBits_def, lnRow]

theorem ref_dot1_apply (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (n : Fin 100000) (q : Fin 128) :
    val_main_v69 (F := Ideal) x0 x1 x3 x4 x5 x6 x7 (ix2 n q)
      = ∑ k : Fin 128, val_main_v68 (F := Ideal) x0 x1 x3 x4 x5 x6 (ix2 n k) * x7 (ix2 k q) := by
  rw [val_main_v69_apply]
  refine Finset.sum_congr rfl fun k _ => ?_
  have el : lidx_main_v69 (ix2 n q) k = ix2 n k :=
    funext fun a => Fin.ext (by match a with | ⟨0, _⟩ => rfl | ⟨1, _⟩ => rfl)
  have er : ridx_main_v69 (ix2 n q) k = ix2 k q :=
    funext fun a => Fin.ext (by match a with | ⟨0, _⟩ => rfl | ⟨1, _⟩ => rfl)
  rw [el, er]

theorem ref_mean2 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 : (⟨S128, .f32⟩ : BufTy).Contents (Elt Ideal))
    (n : Fin 100000) (u : Fin 1) :
    val_main_v89 (F := Ideal) x0 x1 x3 x4 x5 x6 x7 x8 (ix2 n u)
      = lnMean (fun c => val_main_v85 (F := Ideal) x0 x1 x3 x4 x5 x6 x7 x8 (ix2 n c)) := by
  have hrow : ∀ k : Fin 128, idx_main_v86 (idx_main_v87 (ix2 n u)) k = ix2 n k := fun k =>
    funext fun a => Fin.ext (by match a with | ⟨0, _⟩ => rfl | ⟨1, _⟩ => rfl)
  rw [val_main_v89_apply, val_main_v87_apply, val_main_v86_apply, val_main_v88_apply, val_main_cst_16_apply,
    val_main_cst_15_apply, Ideal.hostDivf_def, Ideal.ofBits_def, Ideal.ofBits_def, Ideal.ofBits_zero_f32, zero_add]
  unfold lnMean
  refine congrArg₂ Ideal.div (Finset.sum_congr rfl fun k _ => ?_) rfl
  rw [hrow k]

theorem ref_var2 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 : (⟨S128, .f32⟩ : BufTy).Contents (Elt Ideal))
    (n : Fin 100000) (u : Fin 1) :
    val_main_v96 (F := Ideal) x0 x1 x3 x4 x5 x6 x7 x8 (ix2 n u)
      = lnVar (fun c => val_main_v85 (F := Ideal) x0 x1 x3 x4 x5 x6 x7 x8 (ix2 n c)) := by
  have hrow : ∀ k : Fin 128, idx_main_v93 (idx_main_v94 (ix2 n u)) k = ix2 n k := fun k =>
    funext fun a => Fin.ext (by match a with | ⟨0, _⟩ => rfl | ⟨1, _⟩ => rfl)
  have hcol : ∀ k : Fin 128, idx_main_v90 (ix2 n k) = ix2 n (0 : Fin 1) := fun k =>
    funext fun a => Fin.ext (by match a with | ⟨0, _⟩ => rfl | ⟨1, _⟩ => rfl)
  rw [val_main_v96_apply, val_main_v94_apply, val_main_v93_apply, val_main_v95_apply, val_main_cst_18_apply,
    val_main_cst_17_apply, Ideal.hostDivf_def, Ideal.ofBits_def, Ideal.ofBits_def, Ideal.ofBits_zero_f32, zero_add]
  unfold lnVar
  refine congrArg₂ Ideal.div (Finset.sum_congr rfl fun k _ => ?_) rfl
  rw [hrow k, val_main_v92_apply, val_main_v91_apply, val_main_v90_apply, hcol k, ref_mean2, Ideal.mulf_def,
    Ideal.subf_def]

theorem ref_ln2_apply (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (n : Fin 100000) (q : Fin 128) :
    val_main_v110 (F := Ideal) x0 x1 x3 x4 x5 x6 x7 x8 x9 x10 (ix2 n q)
      = lnRow (fun c => val_main_v85 (F := Ideal) x0 x1 x3 x4 x5 x6 x7 x8 (ix2 n c)) (fun c => x9 (ix1 c))
          (fun c => x10 (ix1 c)) q := by
  have e_be : idx_main_v107 (idx_main_v108 (ix2 n q)) = ix1 q :=
    funext fun a => Fin.ext (by match a with | ⟨0, _⟩ => rfl)
  have e_g : idx_main_v104 (idx_main_v105 (ix2 n q)) = ix1 q :=
    funext fun a => Fin.ext (by match a with | ⟨0, _⟩ => rfl)
  have e_rs : idx_main_v102 (ix2 n q) = ix2 n (0 : Fin 1) :=
    funext fun a => Fin.ext (by match a with | ⟨0, _⟩ => rfl | ⟨1, _⟩ => rfl)
  have e_mu : idx_main_v97 (ix2 n q) = ix2 n (0 : Fin 1) :=
    funext fun a => Fin.ext (by match a with | ⟨0, _⟩ => rfl | ⟨1, _⟩ => rfl)
  rw [val_main_v110_apply, val_main_call1_v0_apply, val_main_call1_cst_apply, val_main_v109_apply,
    val_main_v108_apply, val_main_v107_apply, e_be, val_main_v106_apply, val_main_v105_apply, val_main_v104_apply,
    e_g, val_main_v103_apply, val_main_v102_apply, e_rs, val_main_v101_apply, val_main_v100_apply,
    val_main_v99_apply, val_main_cst_19_apply, ref_var2, val_main_v98_apply, val_main_v97_apply, e_mu, ref_mean2]
  simp only [Ideal.maximumf_def, Ideal.addf_def, Ideal.mulf_def, Ideal.subf_def, Ideal.hostUnary_rsqrt_def,
    Ideal.ofBits_def, lnRow]

theorem ref_dot2_apply (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (n : Fin 100000) (q : Fin 128) :
    val_main_v111 (F := Ideal) x0 x1 x3 x4 x5 x6 x7 x8 x9 x10 x11 (ix2 n q)
      = ∑ k : Fin 128, val_main_v110 (F := Ideal) x0 x1 x3 x4 x5 x6 x7 x8 x9 x10 (ix2 n k) * x11 (ix2 k q) := by
  rw [val_main_v111_apply]
  refine Finset.sum_congr rfl fun k _ => ?_
  have el : lidx_main_v111 (ix2 n q) k = ix2 n k :=
    funext fun a => Fin.ext (by match a with | ⟨0, _⟩ => rfl | ⟨1, _⟩ => rfl)
  have er : ridx_main_v111 (ix2 n q) k = ix2 k q :=
    funext fun a => Fin.ext (by match a with | ⟨0, _⟩ => rfl | ⟨1, _⟩ => rfl)
  rw [el, er]

theorem ref_mean3 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 : (⟨S128, .f32⟩ : BufTy).Contents (Elt Ideal))
    (n : Fin 100000) (u : Fin 1) :
    val_main_v131 (F := Ideal) x0 x1 x3 x4 x5 x6 x7 x8 x9 x10 x11 x12 (ix2 n u)
      = lnMean (fun c => val_main_v127 (F := Ideal) x0 x1 x3 x4 x5 x6 x7 x8 x9 x10 x11 x12 (ix2 n c)) := by
  have hrow : ∀ k : Fin 128, idx_main_v128 (idx_main_v129 (ix2 n u)) k = ix2 n k := fun k =>
    funext fun a => Fin.ext (by match a with | ⟨0, _⟩ => rfl | ⟨1, _⟩ => rfl)
  rw [val_main_v131_apply, val_main_v129_apply, val_main_v128_apply, val_main_v130_apply, val_main_cst_24_apply,
    val_main_cst_23_apply, Ideal.hostDivf_def, Ideal.ofBits_def, Ideal.ofBits_def, Ideal.ofBits_zero_f32, zero_add]
  unfold lnMean
  refine congrArg₂ Ideal.div (Finset.sum_congr rfl fun k _ => ?_) rfl
  rw [hrow k]

theorem ref_var3 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 : (⟨S128, .f32⟩ : BufTy).Contents (Elt Ideal))
    (n : Fin 100000) (u : Fin 1) :
    val_main_v138 (F := Ideal) x0 x1 x3 x4 x5 x6 x7 x8 x9 x10 x11 x12 (ix2 n u)
      = lnVar (fun c => val_main_v127 (F := Ideal) x0 x1 x3 x4 x5 x6 x7 x8 x9 x10 x11 x12 (ix2 n c)) := by
  have hrow : ∀ k : Fin 128, idx_main_v135 (idx_main_v136 (ix2 n u)) k = ix2 n k := fun k =>
    funext fun a => Fin.ext (by match a with | ⟨0, _⟩ => rfl | ⟨1, _⟩ => rfl)
  have hcol : ∀ k : Fin 128, idx_main_v132 (ix2 n k) = ix2 n (0 : Fin 1) := fun k =>
    funext fun a => Fin.ext (by match a with | ⟨0, _⟩ => rfl | ⟨1, _⟩ => rfl)
  rw [val_main_v138_apply, val_main_v136_apply, val_main_v135_apply, val_main_v137_apply, val_main_cst_26_apply,
    val_main_cst_25_apply, Ideal.hostDivf_def, Ideal.ofBits_def, Ideal.ofBits_def, Ideal.ofBits_zero_f32, zero_add]
  unfold lnVar
  refine congrArg₂ Ideal.div (Finset.sum_congr rfl fun k _ => ?_) rfl
  rw [hrow k, val_main_v134_apply, val_main_v133_apply, val_main_v132_apply, hcol k, ref_mean3, Ideal.mulf_def,
    Ideal.subf_def]

theorem ref_ln3_apply (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal))
    (n : Fin 100000) (q : Fin 128) :
    val_main_v152 (F := Ideal) x0 x1 x3 x4 x5 x6 x7 x8 x9 x10 x11 x12 x13 x14 (ix2 n q)
      = lnRow (fun c => val_main_v127 (F := Ideal) x0 x1 x3 x4 x5 x6 x7 x8 x9 x10 x11 x12 (ix2 n c))
          (fun c => x13 (ix1 c)) (fun c => x14 (ix1 c)) q := by
  have e_be : idx_main_v149 (idx_main_v150 (ix2 n q)) = ix1 q :=
    funext fun a => Fin.ext (by match a with | ⟨0, _⟩ => rfl)
  have e_g : idx_main_v146 (idx_main_v147 (ix2 n q)) = ix1 q :=
    funext fun a => Fin.ext (by match a with | ⟨0, _⟩ => rfl)
  have e_rs : idx_main_v144 (ix2 n q) = ix2 n (0 : Fin 1) :=
    funext fun a => Fin.ext (by match a with | ⟨0, _⟩ => rfl | ⟨1, _⟩ => rfl)
  have e_mu : idx_main_v139 (ix2 n q) = ix2 n (0 : Fin 1) :=
    funext fun a => Fin.ext (by match a with | ⟨0, _⟩ => rfl | ⟨1, _⟩ => rfl)
  rw [val_main_v152_apply, val_main_call2_v0_apply, val_main_call2_cst_apply, val_main_v151_apply,
    val_main_v150_apply, val_main_v149_apply, e_be, val_main_v148_apply, val_main_v147_apply, val_main_v146_apply,
    e_g, val_main_v145_apply, val_main_v144_apply, e_rs, val_main_v143_apply, val_main_v142_apply,
    val_main_v141_apply, val_main_cst_27_apply, ref_var3, val_main_v140_apply, val_main_v139_apply, e_mu, ref_mean3]
  simp only [Ideal.maximumf_def, Ideal.addf_def, Ideal.mulf_def, Ideal.subf_def, Ideal.hostUnary_rsqrt_def,
    Ideal.ofBits_def, lnRow]

end Cert.Bridge
-- ==== Proof.Bridge.Layers.lean ====
import proofs.«427718_j18545668784934_3_alg».proof.Proof.Reference.ReadP
import proofs.«427718_j18545668784934_3_alg».proof.Proof.Bridge.LayerNorm
import proofs.«427718_j18545668784934_3_alg».proof.Proof.Bridge.ScatterIdx
import proofs.«427718_j18545668784934_3_alg».proof.Proof.Bridge.KHost
import proofs.«427718_j18545668784934_3_alg».proof.Proof.Bridge.HostEq
import proofs.«427718_j18545668784934_3_alg».proof.Proof.Bridge.Val0
import proofs.«427718_j18545668784934_3_alg».proof.Proof.Bridge.Val1
import proofs.«427718_j18545668784934_3_alg».proof.Proof.Bridge.Val2
import proofs.«427718_j18545668784934_3_alg».proof.Proof.Bridge.RefConv
import proofs.«427718_j18545668784934_3_alg».proof.Proof.Bridge.LayerNormRef
import proofs.«427718_j18545668784934_3_alg».proof.Proof.LibScatterAdd
import Idealize.ShloMosaic.Lib.Pipeline.Value

noncomputable section

open scoped BigOperators

namespace Cert.Bridge

open Cert.ReferenceIdeal Cert.ReferenceIdeal.Gen Cert.ReferenceIdeal.Read
open Idealize.ShloMosaic Idealize.ShloMosaic.ValueIdx Cert.Lib.ScatterAdd

theorem nodeOf_ix2 (n : Fin 100000) (q : Fin 128) : nodeOf (ix2 n q) = ix1 n := rfl

def rowScaled (a : S100000x128.Idx → EReal) (D : S100000.Idx → EReal) : S100000x128.Idx → EReal :=
  fun i => a i * D (nodeOf i)
theorem rowScaled_apply (a : S100000x128.Idx → EReal) (D : S100000.Idx → EReal) (i : S100000x128.Idx) :
    rowScaled a D i = a i * D (nodeOf i) := rfl

theorem disCol_apply (dst : Vec Ideal Cert.KernelIdeal.S1700000 .i32) (n : Fin 100000) :
    KHost.disColOf dst (ix2 n (0 : Fin 1)) = KHost.disOf dst (ix1 n) := by
  unfold KHost.disColOf
  exact broadcastInDim_apply _ _ _ _ _ (fun a => match a with
    | ⟨0, _⟩ => by show n.val = if (100000 : Nat) = 1 then 0 else n.val; rw [if_neg (by decide)])

theorem bias1_apply (x4 : (⟨S128, .f32⟩ : BufTy).Contents (Elt Ideal)) (n : Fin 100000) (cc : Fin 128) :
    val_main_v42 (F := Ideal) x4 (ix2 n cc) = x4 (ix1 cc) := by
  rw [val_main_v42_apply, val_main_v41_apply]
  exact congrArg x4 (funext fun a => match a with | ⟨0, _⟩ => rfl)
theorem bias2_apply (x8 : (⟨S128, .f32⟩ : BufTy).Contents (Elt Ideal)) (n : Fin 100000) (cc : Fin 128) :
    val_main_v84 (F := Ideal) x8 (ix2 n cc) = x8 (ix1 cc) := by
  rw [val_main_v84_apply, val_main_v83_apply]
  exact congrArg x8 (funext fun a => match a with | ⟨0, _⟩ => rfl)

theorem layer0 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (d : Cert.KernelIdeal.S100000x1.Idx → EReal)
    (hd : ∀ n : Fin 100000, d (ix2 n (0 : Fin 1)) = val_main_v11 (F := Ideal) x1 (ix1 n)) :
    G0 x0 x3 d = rowScaled (val_main_v27 (F := Ideal) x0 x3) (val_main_v11 (F := Ideal) x1) := by
  funext i
  rw [rowScaled_apply]
  obtain ⟨n, q, rfl⟩ : ∃ (n : Fin 100000) (q : Fin 128), i = ix2 n q := ⟨i 0, i 1, eq_ix2 i⟩
  have hl : ∀ k : Fin 128, lidx_main_v27 (ix2 n q) k = ix2 n k := fun k =>
    funext fun a => match a with | ⟨0, _⟩ => rfl | ⟨1, _⟩ => rfl
  have hr : ∀ k : Fin 128, ridx_main_v27 (ix2 n q) k = ix2 k q := fun k =>
    funext fun a => match a with | ⟨0, _⟩ => rfl | ⟨1, _⟩ => rfl
  rw [G0_apply, hd, val_main_v27_apply, nodeOf_ix2]
  simp only [hl, hr]

theorem zeros_eq (z : (⟨S_, .f32⟩ : BufTy).Contents (Elt Ideal)) (hz : ∀ i, z i = Ideal.ofBits .f32 0x00000000#32) :
    broadcastInDim S100000x128 ![] bcast_S_S100000x128 z = fun _ => (0 : EReal) := by
  funext i
  rw [broadcastInDim_apply _ bcast_S_S100000x128 z i (fun a => a.elim0) (fun a => a.elim0), hz, Ideal.ofBits_zero_f32]

theorem agg_plain (z : FVec Ideal S100000x128 .f32) (hz : z = fun _ => (0 : EReal))
    (idxS idxG : IVec S1700000x1 32) (H : FVec Ideal S100000x128 .bf16) :
    Host.scatterAdd (F := Ideal) scatter_S100000x128_S1700000x1_S1700000x128_1_0_0_1 z idxS
        (extf .f32 (Host.gather gather_S100000x128_S1700000x1_S1700000x128_1_0_n_n_0_1_1128 H idxG) Cert.KernelIdeal.Gen.bitsLt_bf16_f32)
      = Ideal.hostScatterAdd scatter_S100000x128_S1700000x1_S1700000x128_1_0_0_1 (fun _ => (0 : EReal)) idxS (Host.gather gather_S100000x128_S1700000x1_S1700000x128_1_0_n_n_0_1_1128 H idxG) := by
  subst hz; rfl

theorem agg1 (x0 : (⟨S100000x128, .f32⟩ : BufTy).Contents (Elt Ideal)) (x1 : (⟨S2x1600000, .i32⟩ : BufTy).Contents (Elt Ideal)) (x3 : (⟨S128x128, .f32⟩ : BufTy).Contents (Elt Ideal))
    (H : Vec Ideal Cert.KernelIdeal.S100000x128 .bf16)
    (hH : H = rowScaled (val_main_v27 (F := Ideal) x0 x3) (val_main_v11 (F := Ideal) x1)) :
    rowScaled (KHost.aggOf (KHost.srcOf x1) (KHost.dstOf x1) H) (val_main_v11 (F := Ideal) x1) = val_main_v40 (F := Ideal) x0 x1 x3 := by
  funext i
  rw [rowScaled_apply, HostEq.aggOf_eq1 x1 H,
    agg_plain (val_main_v38 (F := Ideal)) (zeros_eq _ fun _ => rfl) (val_main_v39 (F := Ideal) x1) (val_main_v33 (F := Ideal) x1) H]
  exact conv1_of_scaled x0 x1 x3 H (fun i' => congrFun hH i') i

theorem agg2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal))
    (H : Vec Ideal Cert.KernelIdeal.S100000x128 .bf16)
    (hH : H = rowScaled (val_main_v69 (F := Ideal) x0 x1 x3 x4 x5 x6 x7) (val_main_v11 (F := Ideal) x1)) :
    rowScaled (KHost.aggOf (KHost.srcOf x1) (KHost.dstOf x1) H) (val_main_v11 (F := Ideal) x1) = val_main_v82 (F := Ideal) x0 x1 x3 x4 x5 x6 x7 := by
  funext i
  rw [rowScaled_apply, HostEq.aggOf_eq2 x1 H,
    agg_plain (val_main_v80 (F := Ideal)) (zeros_eq _ fun _ => rfl) (val_main_v81 (F := Ideal) x1) (val_main_v75 (F := Ideal) x1) H]
  exact conv2_of_scaled x0 x1 x3 x4 x5 x6 x7 H (fun i' => congrFun hH i') i

theorem agg3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x128, .f32⟩ : BufTy).Contents (Elt Ideal))
    (H : Vec Ideal Cert.KernelIdeal.S100000x128 .bf16)
    (hH : H = rowScaled (val_main_v111 (F := Ideal) x0 x1 x3 x4 x5 x6 x7 x8 x9 x10 x11) (val_main_v11 (F := Ideal) x1)) :
    rowScaled (KHost.aggOf (KHost.srcOf x1) (KHost.dstOf x1) H) (val_main_v11 (F := Ideal) x1) = val_main_v124 (F := Ideal) x0 x1 x3 x4 x5 x6 x7 x8 x9 x10 x11 := by
  funext i
  rw [rowScaled_apply, HostEq.aggOf_eq3 x1 H,
    agg_plain (val_main_v122 (F := Ideal)) (zeros_eq _ fun _ => rfl) (val_main_v123 (F := Ideal) x1) (val_main_v117 (F := Ideal) x1) H]
  exact conv3_of_scaled x0 x1 x3 x4 x5 x6 x7 x8 x9 x10 x11 H (fun i' => congrFun hH i') i

theorem lnLayer (D : S100000.Idx → EReal) (R0 R1 R2 R3 : S100000x128.Idx → EReal)
    (a : Cert.KernelIdeal.S100000x128.Idx → EReal) (d : Cert.KernelIdeal.S100000x1.Idx → EReal)
    (b g be : Cert.KernelIdeal.S128.Idx → EReal) (w : Cert.KernelIdeal.S128x128.Idx → EReal)
    (hd : ∀ n : Fin 100000, d (ix2 n (0 : Fin 1)) = D (ix1 n))
    (ha : rowScaled a D = R0)
    (h1 : ∀ (n : Fin 100000) (cc : Fin 128), R1 (ix2 n cc) = R0 (ix2 n cc) + b (ix1 cc))
    (h2 : ∀ (n : Fin 100000) (q : Fin 128), R2 (ix2 n q) = lnRow (fun c => R1 (ix2 n c)) (fun c => g (ix1 c)) (fun c => be (ix1 c)) q)
    (h3 : ∀ (n : Fin 100000) (q : Fin 128), R3 (ix2 n q) = ∑ k : Fin 128, R2 (ix2 n k) * w (ix2 k q))
    : G1 a d b g be w = rowScaled R3 D := by
  funext i
  rw [rowScaled_apply]
  have ha' : ∀ i, a i * D (nodeOf i) = R0 i := fun i => congrFun ha i
  obtain ⟨n, q, rfl⟩ : ∃ (n : Fin 100000) (q : Fin 128), i = ix2 n q := ⟨i 0, i 1, eq_ix2 i⟩
  rw [G1_apply, hd, nodeOf_ix2, h3]
  refine congrArg (· * _) (Finset.sum_congr rfl fun k _ => ?_)
  rw [h2]
  refine congrArg (fun s => lnRow s _ _ k * _) (funext fun cc => ?_)
  rw [h1, ← ha', nodeOf_ix2]

theorem layer1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal))
    (a : Cert.KernelIdeal.S100000x128.Idx → EReal) (d : Cert.KernelIdeal.S100000x1.Idx → EReal)
    (hd : ∀ n : Fin 100000, d (ix2 n (0 : Fin 1)) = val_main_v11 (F := Ideal) x1 (ix1 n))
    (ha : rowScaled a (val_main_v11 (F := Ideal) x1) = val_main_v40 (F := Ideal) x0 x1 x3) :
    G1 a d x4 x5 x6 x7 = rowScaled (val_main_v69 (F := Ideal) x0 x1 x3 x4 x5 x6 x7) (val_main_v11 (F := Ideal) x1) :=
  lnLayer (val_main_v11 (F := Ideal) x1) (val_main_v40 (F := Ideal) x0 x1 x3) (val_main_v43 (F := Ideal) x0 x1 x3 x4)
    (val_main_v68 (F := Ideal) x0 x1 x3 x4 x5 x6) (val_main_v69 (F := Ideal) x0 x1 x3 x4 x5 x6 x7) a d x4 x5 x6 x7 hd ha
    (fun n cc => by rw [val_main_v43_apply, bias1_apply]; rfl)
    (ref_ln1_apply x0 x1 x3 x4 x5 x6) (ref_dot1_apply x0 x1 x3 x4 x5 x6 x7)

theorem layer2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x128, .f32⟩ : BufTy).Contents (Elt Ideal))
    (a : Cert.KernelIdeal.S100000x128.Idx → EReal) (d : Cert.KernelIdeal.S100000x1.Idx → EReal)
    (hd : ∀ n : Fin 100000, d (ix2 n (0 : Fin 1)) = val_main_v11 (F := Ideal) x1 (ix1 n))
    (ha : rowScaled a (val_main_v11 (F := Ideal) x1) = val_main_v82 (F := Ideal) x0 x1 x3 x4 x5 x6 x7) :
    G2 a d x8 x9 x10 x11 = rowScaled (val_main_v111 (F := Ideal) x0 x1 x3 x4 x5 x6 x7 x8 x9 x10 x11) (val_main_v11 (F := Ideal) x1) :=
  lnLayer (val_main_v11 (F := Ideal) x1) (val_main_v82 (F := Ideal) x0 x1 x3 x4 x5 x6 x7) (val_main_v85 (F := Ideal) x0 x1 x3 x4 x5 x6 x7 x8)
    (val_main_v110 (F := Ideal) x0 x1 x3 x4 x5 x6 x7 x8 x9 x10) (val_main_v111 (F := Ideal) x0 x1 x3 x4 x5 x6 x7 x8 x9 x10 x11) a d x8 x9 x10 x11 hd ha
    (fun n cc => by rw [val_main_v85_apply, bias2_apply]; rfl)
    (ref_ln2_apply x0 x1 x3 x4 x5 x6 x7 x8 x9 x10) (ref_dot2_apply x0 x1 x3 x4 x5 x6 x7 x8 x9 x10 x11)

end Cert.Bridge

end
-- ==== Proof.Bridge.Chain.lean ====
import proofs.«427718_j18545668784934_3_alg».proof.Proof.KernelIdeal.Run
import proofs.«427718_j18545668784934_3_alg».proof.Proof.Bridge.Layers

set_option maxRecDepth 16384

noncomputable section

open scoped BigOperators

namespace Cert.Bridge

section Chain

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)
local notation "x₁₁" => m ((c : Thread nD τ).loc main_arg11)
local notation "x₁₂" => m ((c : Thread nD τ).loc main_arg12)
local notation "x₁₃" => m ((c : Thread nD τ).loc main_arg13)
local notation "x₁₄" => m ((c : Thread nD τ).loc main_arg14)
local notation "x₁₅" => m ((c : Thread nD τ).loc main_arg15)
local notation "x₁₆" => m ((c : Thread nD τ).loc main_arg16)
local notation "x₁₇" => m ((c : Thread nD τ).loc main_arg17)
local notation "x₁₈" => m ((c : Thread nD τ).loc main_arg18)

local notation "𝐃" => Cert.ReferenceIdeal.Read.val_main_v11 (F := Ideal) x₁

local notation "𝐝" => KHost.disColOf (F := Ideal) (KHost.dstOf (F := Ideal) x₁)

section Back
variable (b : Ref sig .tc)
  (h0 : b ∉ hostOps0_W) (h1 : b ∉ hostOps1_W) (h2 : b ∉ hostOps2_W) (h3 : b ∉ hostOps3_W)
  (k0 : ∀ w, Pipeline.arrRef spec0 w = b → (cfg0.win w).isOut = false)
  (k1 : ∀ w, Pipeline.arrRef spec1 w = b → (cfg1.win w).isOut = false)
  (k2 : ∀ w, Pipeline.arrRef spec2 w = b → (cfg2.win w).isOut = false)
include k0 in
theorem back2 : W2 m ρ c (Proc.devRef .tc b) = W1 m ρ c (Proc.devRef .tc b) := W2_keep m ρ c b k0
include k0 h1 in
theorem back3 : W3 m ρ c (Proc.devRef .tc b) = W1 m ρ c (Proc.devRef .tc b) := (W3_keep m ρ c b h1).trans (back2 m ρ c b k0)
include k0 h1 k1 in
theorem back4 : W4 m ρ c (Proc.devRef .tc b) = W1 m ρ c (Proc.devRef .tc b) := (W4_keep m ρ c b k1).trans (back3 m ρ c b h1 k0)
include k0 h1 k1 h2 in
theorem back5 : W5 m ρ c (Proc.devRef .tc b) = W1 m ρ c (Proc.devRef .tc b) := (W5_keep m ρ c b h2).trans (back4 m ρ c b h1 k0 k1)
include k0 h1 k1 h2 k2 in
theorem back6 : W6 m ρ c (Proc.devRef .tc b) = W1 m ρ c (Proc.devRef .tc b) := (W6_keep m ρ c b k2).trans (back5 m ρ c b h1 h2 k0 k1)
include k0 h1 k1 h2 k2 h3 in
theorem back7 : W7 m ρ c (Proc.devRef .tc b) = W1 m ρ c (Proc.devRef .tc b) := (W7_keep m ρ c b h3).trans (back6 m ρ c b h1 h2 k0 k1 k2)
include h0 in
theorem launch1 : W1 m ρ c (Proc.devRef .tc b) = m ((c : Thread nD τ).loc b) := W1_keep m ρ c b h0
end Back

theorem W1_v3 : W1 m ρ c (Proc.devRef .tc main_v3) = KHost.srcOf (F := Ideal) x₁ := KHost.after0_v3 (W0 m ρ c)
theorem W1_v6 : W1 m ρ c (Proc.devRef .tc main_v6) = KHost.dstOf (F := Ideal) x₁ := KHost.after0_v6 (W0 m ρ c)
theorem W1_v12 : W1 m ρ c (Proc.devRef .tc main_v12) = 𝐝 := KHost.after0_v12 (W0 m ρ c)

theorem dcol_apply (n : Fin 100000) : 𝐝 (ix2 n (0 : Fin 1)) = 𝐃 (ix1 n) :=
  (disCol_apply _ n).trans (congrFun (HostEq.disOf_eq (F := Ideal) x₁) (ix1 n))

theorem W2_v13 : W2 m ρ c (Proc.devRef .tc main_v13) = G0 x₀ x₃ 𝐝 :=
  (W2_arr m ρ c 3).trans <| (val0 (V1 m ρ) c).trans <| by
    rw [show V1 m ρ c main_arg0 = x₀ from launch1 m ρ c main_arg0 (by decide),
      show V1 m ρ c main_arg3 = x₃ from launch1 m ρ c main_arg3 (by decide),
      show V1 m ρ c main_v12 = 𝐝 from W1_v12 m ρ c]

theorem out0 : W2 (F := Ideal) m ρ c (Proc.devRef .tc main_v13) = rowScaled (Cert.ReferenceIdeal.Read.val_main_v27 (F := Ideal) x₀ x₃) 𝐃 :=
  (W2_v13 m ρ c).trans (layer0 x₀ x₁ x₃ 𝐝 (dcol_apply m c))

theorem W3_v24 : W3 m ρ c (Proc.devRef .tc main_v24)
    = KHost.aggOf (F := Ideal) (KHost.srcOf x₁) (KHost.dstOf x₁) (W2 m ρ c (Proc.devRef .tc main_v13)) :=
  (KHost.after1_v24 (W2 m ρ c)).trans <| by
    rw [show W2 m ρ c (Proc.devRef .tc main_v3) = KHost.srcOf (F := Ideal) x₁ from (back2 m ρ c main_v3 (by decide)).trans (W1_v3 m ρ c),
      show W2 m ρ c (Proc.devRef .tc main_v6) = KHost.dstOf (F := Ideal) x₁ from (back2 m ρ c main_v6 (by decide)).trans (W1_v6 m ρ c)]

theorem sum1 : rowScaled (W3 (F := Ideal) m ρ c (Proc.devRef .tc main_v24)) 𝐃 = Cert.ReferenceIdeal.Read.val_main_v40 (F := Ideal) x₀ x₁ x₃ := by
  rw [W3_v24]; exact agg1 x₀ x₁ x₃ _ (out0 m ρ c)

theorem W4_v25 : W4 m ρ c (Proc.devRef .tc main_v25) = G1 (W3 m ρ c (Proc.devRef .tc main_v24)) 𝐝 x₄ x₅ x₆ x₇ :=
  (W4_arr m ρ c 6).trans <| (val1 (V3 m ρ) c).trans <| by
    rw [show V3 m ρ c main_v12 = 𝐝 from (back3 m ρ c main_v12 (by decide) (by decide)).trans (W1_v12 m ρ c),
      show V3 m ρ c main_arg4 = x₄ from (back3 m ρ c main_arg4 (by decide) (by decide)).trans (launch1 m ρ c main_arg4 (by decide)),
      show V3 m ρ c main_arg5 = x₅ from (back3 m ρ c main_arg5 (by decide) (by decide)).trans (launch1 m ρ c main_arg5 (by decide)),
      show V3 m ρ c main_arg6 = x₆ from (back3 m ρ c main_arg6 (by decide) (by decide)).trans (launch1 m ρ c main_arg6 (by decide)),
      show V3 m ρ c main_arg7 = x₇ from (back3 m ρ c main_arg7 (by decide) (by decide)).trans (launch1 m ρ c main_arg7 (by decide))]

theorem out1 : W4 (F := Ideal) m ρ c (Proc.devRef .tc main_v25) = rowScaled (Cert.ReferenceIdeal.Read.val_main_v69 (F := Ideal) x₀ x₁ x₃ x₄ x₅ x₆ x₇) 𝐃 :=
  (W4_v25 m ρ c).trans (layer1 x₀ x₁ x₃ x₄ x₅ x₆ x₇ _ 𝐝 (dcol_apply m c) (sum1 m ρ c))

theorem W5_v36 : W5 m ρ c (Proc.devRef .tc main_v36)
    = KHost.aggOf (F := Ideal) (KHost.srcOf x₁) (KHost.dstOf x₁) (W4 m ρ c (Proc.devRef .tc main_v25)) :=
  (KHost.after2_v36 (W4 m ρ c)).trans <| by
    rw [show W4 m ρ c (Proc.devRef .tc main_v3) = KHost.srcOf (F := Ideal) x₁ from (back4 m ρ c main_v3 (by decide) (by decide) (by decide)).trans (W1_v3 m ρ c),
      show W4 m ρ c (Proc.devRef .tc main_v6) = KHost.dstOf (F := Ideal) x₁ from (back4 m ρ c main_v6 (by decide) (by decide) (by decide)).trans (W1_v6 m ρ c)]

theorem sum2 : rowScaled (W5 (F := Ideal) m ρ c (Proc.devRef .tc main_v36)) 𝐃 = Cert.ReferenceIdeal.Read.val_main_v82 (F := Ideal) x₀ x₁ x₃ x₄ x₅ x₆ x₇ := by
  rw [W5_v36]; exact agg2 x₀ x₁ x₃ x₄ x₅ x₆ x₇ _ (out1 m ρ c)

theorem W6_v37 : W6 m ρ c (Proc.devRef .tc main_v37) = G2 (W5 m ρ c (Proc.devRef .tc main_v36)) 𝐝 x₈ x₉ x₁₀ x₁₁ :=
  (W6_arr m ρ c 6).trans <| (val2 (V5 m ρ) c).trans <| by
    rw [show V5 m ρ c main_v12 = 𝐝 from (back5 m ρ c main_v12 (by decide) (by decide) (by decide) (by decide)).trans (W1_v12 m ρ c),
      show V5 m ρ c main_arg8 = x₈ from (back5 m ρ c main_arg8 (by decide) (by decide) (by decide) (by decide)).trans (launch1 m ρ c main_arg8 (by decide)),
      show V5 m ρ c main_arg9 = x₉ from (back5 m ρ c main_arg9 (by decide) (by decide) (by decide) (by decide)).trans (launch1 m ρ c main_arg9 (by decide)),
      show V5 m ρ c main_arg10 = x₁₀ from (back5 m ρ c main_arg10 (by decide) (by decide) (by decide) (by decide)).trans (launch1 m ρ c main_arg10 (by decide)),
      show V5 m ρ c main_arg11 = x₁₁ from (back5 m ρ c main_arg11 (by decide) (by decide) (by decide) (by decide)).trans (launch1 m ρ c main_arg11 (by decide))]

theorem out2 : W6 (F := Ideal) m ρ c (Proc.devRef .tc main_v37) = rowScaled (Cert.ReferenceIdeal.Read.val_main_v111 (F := Ideal) x₀ x₁ x₃ x₄ x₅ x₆ x₇ x₈ x₉ x₁₀ x₁₁) 𝐃 :=
  (W6_v37 m ρ c).trans (layer2 x₀ x₁ x₃ x₄ x₅ x₆ x₇ x₈ x₉ x₁₀ x₁₁ _ 𝐝 (dcol_apply m c) (sum2 m ρ c))

theorem W7_v48 : W7 m ρ c (Proc.devRef .tc main_v48)
    = KHost.aggOf (F := Ideal) (KHost.srcOf x₁) (KHost.dstOf x₁) (W6 m ρ c (Proc.devRef .tc main_v37)) :=
  (KHost.after3_v48 (W6 m ρ c)).trans <| by
    rw [show W6 m ρ c (Proc.devRef .tc main_v3) = KHost.srcOf (F := Ideal) x₁ from (back6 m ρ c main_v3 (by decide) (by decide) (by decide) (by decide) (by decide)).trans (W1_v3 m ρ c),
      show W6 m ρ c (Proc.devRef .tc main_v6) = KHost.dstOf (F := Ideal) x₁ from (back6 m ρ c main_v6 (by decide) (by decide) (by decide) (by decide) (by decide)).trans (W1_v6 m ρ c)]

theorem sum3 : rowScaled (W7 (F := Ideal) m ρ c (Proc.devRef .tc main_v48)) 𝐃 = Cert.ReferenceIdeal.Read.val_main_v124 (F := Ideal) x₀ x₁ x₃ x₄ x₅ x₆ x₇ x₈ x₉ x₁₀ x₁₁ := by
  rw [W7_v48]; exact agg3 x₀ x₁ x₃ x₄ x₅ x₆ x₇ x₈ x₉ x₁₀ x₁₁ _ (out2 m ρ c)

theorem agg3_W7 (i : Cert.ReferenceIdeal.S100000x128.Idx) :
    rowScaled (W7 (F := Ideal) m ρ c (Proc.devRef .tc main_v48)) 𝐃 i = Cert.ReferenceIdeal.Read.val_main_v124 (F := Ideal) x₀ x₁ x₃ x₄ x₅ x₆ x₇ x₈ x₉ x₁₀ x₁₁ i :=
  congrFun (sum3 m ρ c) i

theorem W7_v12 : W7 (F := Ideal) m ρ c (Proc.devRef .tc main_v12) = 𝐝 :=
  (back7 m ρ c main_v12 (by decide) (by decide) (by decide) (by decide) (by decide) (by decide)).trans (W1_v12 m ρ c)
theorem W7_v12_apply (n : Fin 100000) :
    W7 (F := Ideal) m ρ c (Proc.devRef .tc main_v12) (ix2 n (0 : Fin 1)) = 𝐃 (ix1 n) := by
  rw [W7_v12]; exact dcol_apply m c n

end Chain

end Cert.Bridge

end
-- ==== Proof.Bridge.PoolMlp.lean ====
import proofs.«427718_j18545668784934_3_alg».proof.Proof.Gen.KernelIdeal.Skeleton
import proofs.«427718_j18545668784934_3_alg».proof.Proof.Reference.ReadP
import proofs.«427718_j18545668784934_3_alg».proof.Proof.Bridge.ScatterIdx
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Pool

open Idealize.ShloMosaic Idealize.ShloMosaic.ValueIdx

def member (w : BitVec 32) (b : Fin 64) : EReal := if w.toInt = (b.val : ℤ) then 1 else 0

theorem word_eq_graph_iff (w : BitVec 32) (b : Fin 64) : w = BitVec.ofNat 32 b.val ↔ w.toInt = (b.val : ℤ) := by
  have hb := b.isLt
  have e : (BitVec.ofNat 32 b.val).toInt = (b.val : ℤ) := by
    rw [BitVec.toInt_ofNat']
    simp only [Int.bmod]
    omega
  constructor
  · rintro rfl
    exact e
  · intro h
    exact BitVec.eq_of_toInt_eq (h.trans e.symm)

theorem flag_toInt (c : Bool) : ((BitVec.ofBool c).setWidth 32).toInt = if c then 1 else 0 := by
  cases c <;> decide

theorem onehot_word (w : BitVec 32) (b : Fin 64) :
    (FloatOps.sitofp (F := Ideal) .f32 ((IntOp.cmpi .eq w (BitVec.ofNat 32 b.val)).setWidth 32) : EReal) = member w b := by
  show ((((BitVec.ofBool (w == BitVec.ofNat 32 b.val)).setWidth 32).toInt : ℝ) : EReal) = _
  rw [flag_toInt]
  unfold member
  by_cases h : w = BitVec.ofNat 32 b.val
  · rw [if_pos ((word_eq_graph_iff w b).mp h), if_pos (beq_iff_eq.mpr h)]; simp
  · rw [if_neg (fun h' => h ((word_eq_graph_iff w b).mpr h')), if_neg (fun h' => h (beq_iff_eq.mp h'))]; simp

theorem member_mul (w : BitVec 32) (b : Fin 64) (x : EReal) :
    member w b * x = if w.toInt = (b.val : ℤ) then x else 0 := by
  unfold member
  split <;> simp

theorem one_word : Ideal.ofBits .f32 0x3F800000#32 = 1 := IdealRules.sign_bit.ideal_onePat .f32

def mlp (S : Fin 64 → Fin 128 → EReal) (C : Fin 64 → EReal) (w1 : Fin 128 → Fin 64 → EReal) (b1 : Fin 64 → EReal)
    (w2 : Fin 64 → Fin 2 → EReal) (b2 : Fin 2 → EReal) (g : Fin 64) (o : Fin 2) : EReal :=
  (∑ k : Fin 64, max ((∑ j : Fin 128, Ideal.div (S g j) (max (C g) (Ideal.ofBits .f32 0x3F800000#32)) * w1 j k) + b1 k)
      (Ideal.ofBits .f32 0x00000000#32) * w2 k o) + b2 o

section Kernel

open Cert.KernelIdeal Cert.KernelIdeal.Gen

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_apply (bcol : IVec S5000x1 32) (p : Fin 5000) (b : Fin 64) :
    k3_pay1 (F := Ideal) bcol (ix2 p b) = member (bcol (ix2 p (0 : Fin 1))) b := by
  unfold k3_pay1
  dsimp only
  rw [sitofp_apply, extui_apply]
  show FloatOps.sitofp (F := Ideal) .f32 ((IntOp.cmpi .eq (broadcastTo S5000x64 bcol broadcasts_S5000x1_S5000x64 (ix2 p b))
      (iota .tc S5000x64 32 [1] iota_S5000x64_d1_w32 (ix2 p b))).setWidth 32) = _
  rw [iota_single_apply, broadcastTo_col_apply]
  exact onehot_word _ b

theorem poolSum_lhs0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem poolSum_lhs1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem poolSum_rhs0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem poolSum_rhs1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem sumStep_apply (h : FVec Ideal S5000x128 .f32) (bcol : IVec S5000x1 32) (acc : Vec Ideal S64x128 .f32)
    (b : Fin 64) (f : Fin 128) :
    k3_pay2 (F := Ideal) h bcol acc (ix2 b f)
      = acc (ix2 b f) + ∑ p : Fin 5000, member (bcol (ix2 p (0 : Fin 1))) b * h (ix2 p f) := by
  unfold k3_pay2
  rw [shapeCast_self, addf_apply]
  refine congrArg (acc (ix2 b f) + ·) ?_
  simp only [matmul]
  rw [Ideal.matmul_constant_zero_apply, ← Equiv.sum_comp (contrEquiv1 dot_S5000x64_S5000x128_S64x128_0_0_1_1_n_n 5000 rfl rfl).symm]
  refine Finset.sum_congr rfl fun p _ => ?_
  have hk := contrEquiv1_symm_val dot_S5000x64_S5000x128_S64x128_0_0_1_1_n_n 5000 rfl rfl p
  have el : dot_S5000x64_S5000x128_S64x128_0_0_1_1_n_n.lhsIdx (ix2 b f) ((contrEquiv1 dot_S5000x64_S5000x128_S64x128_0_0_1_1_n_n 5000 rfl rfl).symm p) = ix2 p b := funext fun a => Fin.ext (by
    match a with
    | ⟨0, _⟩ => exact (poolSum_lhs0 _ _).trans hk
    | ⟨1, _⟩ => exact poolSum_lhs1 _ _)
  have er : dot_S5000x64_S5000x128_S64x128_0_0_1_1_n_n.rhsIdx (ix2 b f) ((contrEquiv1 dot_S5000x64_S5000x128_S64x128_0_0_1_1_n_n 5000 rfl rfl).symm p) = ix2 p f := funext fun a => Fin.ext (by
    match a with
    | ⟨0, _⟩ => exact (poolSum_rhs0 _ _).trans hk
    | ⟨1, _⟩ => exact poolSum_rhs1 _ _)
  rw [el, er, onehot_apply]

theorem poolCnt_lhs0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem poolCnt_lhs1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl

theorem cntStep_apply (bcol : IVec S5000x1 32) (acc : Vec Ideal S64x1 .f32) (b : Fin 64) :
    k3_pay3 (F := Ideal) bcol acc (ix2 b (0 : Fin 1))
      = acc (ix2 b (0 : Fin 1)) + ∑ p : Fin 5000, member (bcol (ix2 p (0 : Fin 1))) b := by
  unfold k3_pay3
  rw [shapeCast_self, addf_apply]
  refine congrArg (acc (ix2 b (0 : Fin 1)) + ·) ?_
  simp only [matmul]
  rw [Ideal.matmul_constant_zero_apply, ← Equiv.sum_comp (contrEquiv1 dot_S5000x64_S5000x1_S64x1_0_0_1_1_n_n 5000 rfl rfl).symm]
  refine Finset.sum_congr rfl fun p _ => ?_
  have hk := contrEquiv1_symm_val dot_S5000x64_S5000x1_S64x1_0_0_1_1_n_n 5000 rfl rfl p
  have el : dot_S5000x64_S5000x1_S64x1_0_0_1_1_n_n.lhsIdx (ix2 b (0 : Fin 1)) ((contrEquiv1 dot_S5000x64_S5000x1_S64x1_0_0_1_1_n_n 5000 rfl rfl).symm p) = ix2 p b := funext fun a => Fin.ext (by
    match a with
    | ⟨0, _⟩ => exact (poolCnt_lhs0 _ _).trans hk
    | ⟨1, _⟩ => exact poolCnt_lhs1 _ _)
  rw [el, onehot_apply]
  show member (bcol (ix2 p (0 : Fin 1))) b * Ideal.ofBits .f32 0x3F800000#32 = _
  rw [one_word, mul_one]

theorem sumReset_apply (i : S64x128.Idx) : k3_pay5 (F := Ideal) i = 0 := by
  unfold k3_pay5
  rw [shapeCast_self]
  exact Ideal.ofBits_zero_f32

theorem cntReset_apply (i : S64x1.Idx) : k3_pay6 (F := Ideal) i = 0 := by
  unfold k3_pay6
  rw [shapeCast_self]
  exact Ideal.ofBits_zero_f32

theorem fc1_lhs0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem fc1_lhs1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q
theorem fc1_rhs0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q
theorem fc1_rhs1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

theorem fc1_apply (x : FVec Ideal S64x128 .f32) (w1 : FVec Ideal S128x64 .f32) (g k : Fin 64) :
    matmul dot_S64x128_S128x64_S64x64_1_0_0_1_n_n none x w1 (constant (F := Ideal) S64x64 .f32 0x00000000#32) (ix2 g k)
      = ∑ j : Fin 128, x (ix2 g j) * w1 (ix2 j k) := by
  simp only [matmul]
  rw [Ideal.matmul_constant_zero_apply, ← Equiv.sum_comp (contrEquiv1 dot_S64x128_S128x64_S64x64_1_0_0_1_n_n 128 rfl rfl).symm]
  refine Finset.sum_congr rfl fun j _ => ?_
  have hk := contrEquiv1_symm_val dot_S64x128_S128x64_S64x64_1_0_0_1_n_n 128 rfl rfl j
  have el : dot_S64x128_S128x64_S64x64_1_0_0_1_n_n.lhsIdx (ix2 g k) ((contrEquiv1 dot_S64x128_S128x64_S64x64_1_0_0_1_n_n 128 rfl rfl).symm j) = ix2 g j := funext fun a => Fin.ext (by
    match a with
    | ⟨0, _⟩ => exact fc1_lhs0 _ _
    | ⟨1, _⟩ => exact (fc1_lhs1 _ _).trans hk)
  have er : dot_S64x128_S128x64_S64x64_1_0_0_1_n_n.rhsIdx (ix2 g k) ((contrEquiv1 dot_S64x128_S128x64_S64x64_1_0_0_1_n_n 128 rfl rfl).symm j) = ix2 j k := funext fun a => Fin.ext (by
    match a with
    | ⟨0, _⟩ => exact (fc1_rhs0 _ _).trans hk
    | ⟨1, _⟩ => exact fc1_rhs1 _ _)
  rw [el, er]

theorem fc2_lhs0 (i : S64x2.Idx) (q : dot_S64x64_S64x2_S64x2_1_0_0_1_n_n.contr.Idx) :
    (dot_S64x64_S64x2_S64x2_1_0_0_1_n_n.lhsIdx i q 0).val = (i 0).val := by
  unfold DotDims.lhsIdx
  rw [dif_neg (show ¬(0 : Fin S64x64.rank) ∈ dot_S64x64_S64x2_S64x2_1_0_0_1_n_n.lhsBatch by decide), dif_pos (show (0 : Fin S64x64.rank) ∈ dot_S64x64_S64x2_S64x2_1_0_0_1_n_n.lhsNonContracting by decide)]
  rfl
theorem fc2_lhs1 (i : S64x2.Idx) (q : dot_S64x64_S64x2_S64x2_1_0_0_1_n_n.contr.Idx) :
    (dot_S64x64_S64x2_S64x2_1_0_0_1_n_n.lhsIdx i q 1).val = (q ⟨0, by decide⟩).val :=
  dot_S64x64_S64x2_S64x2_1_0_0_1_n_n.lhsIdx_val_of_single rfl i q
theorem fc2_rhs0 (i : S64x2.Idx) (q : dot_S64x64_S64x2_S64x2_1_0_0_1_n_n.contr.Idx) :
    (dot_S64x64_S64x2_S64x2_1_0_0_1_n_n.rhsIdx i q 0).val = (q ⟨0, by decide⟩).val :=
  dot_S64x64_S64x2_S64x2_1_0_0_1_n_n.rhsIdx_val_of_single rfl i q
theorem fc2_rhs1 (i : S64x2.Idx) (q : dot_S64x64_S64x2_S64x2_1_0_0_1_n_n.contr.Idx) :
    (dot_S64x64_S64x2_S64x2_1_0_0_1_n_n.rhsIdx i q 1).val = (i 1).val := by
  unfold DotDims.rhsIdx
  rw [dif_neg (show ¬(1 : Fin S64x2.rank) ∈ dot_S64x64_S64x2_S64x2_1_0_0_1_n_n.rhsBatch by decide), dif_pos (show (1 : Fin S64x2.rank) ∈ dot_S64x64_S64x2_S64x2_1_0_0_1_n_n.rhsNonContracting by decide)]
  rfl

theorem fc2_apply (x : FVec Ideal S64x64 .f32) (w2 : FVec Ideal S64x2 .f32) (g : Fin 64) (o : Fin 2) :
    matmul dot_S64x64_S64x2_S64x2_1_0_0_1_n_n none x w2 (constant (F := Ideal) S64x2 .f32 0x00000000#32) (ix2 g o)
      = ∑ k : Fin 64, x (ix2 g k) * w2 (ix2 k o) := by
  simp only [matmul]
  rw [Ideal.matmul_constant_zero_apply, ← Equiv.sum_comp (contrEquiv1 dot_S64x64_S64x2_S64x2_1_0_0_1_n_n 64 rfl rfl).symm]
  refine Finset.sum_congr rfl fun k _ => ?_
  have hk := contrEquiv1_symm_val dot_S64x64_S64x2_S64x2_1_0_0_1_n_n 64 rfl rfl k
  have el : dot_S64x64_S64x2_S64x2_1_0_0_1_n_n.lhsIdx (ix2 g o) ((contrEquiv1 dot_S64x64_S64x2_S64x2_1_0_0_1_n_n 64 rfl rfl).symm k) = ix2 g k := funext fun a => Fin.ext (by
    match a with
    | ⟨0, _⟩ => exact fc2_lhs0 _ _
    | ⟨1, _⟩ => exact (fc2_lhs1 _ _).trans hk)
  have er : dot_S64x64_S64x2_S64x2_1_0_0_1_n_n.rhsIdx (ix2 g o) ((contrEquiv1 dot_S64x64_S64x2_S64x2_1_0_0_1_n_n 64 rfl rfl).symm k) = ix2 k o := funext fun a => Fin.ext (by
    match a with
    | ⟨0, _⟩ => exact (fc2_rhs0 _ _).trans hk
    | ⟨1, _⟩ => exact fc2_rhs1 _ _)
  rw [el, er]

theorem mlpPayload_apply (s : Vec Ideal S64x128 .f32) (c : Vec Ideal S64x1 .f32) (w1 : Vec Ideal S128x64 .f32)
    (b1 : Vec Ideal S64 .f32) (w2 : Vec Ideal S64x2 .f32) (b2 : Vec Ideal S2 .f32) (g : Fin 64) (o : Fin 2) :
    k3_pay4 (F := Ideal) s c w1 b1 w2 b2 (ix2 g o)
      = mlp (fun g j => s (ix2 g j)) (fun g => c (ix2 g (0 : Fin 1))) (fun j k => w1 (ix2 j k)) (fun k => b1 (ix1 k))
          (fun k o => w2 (ix2 k o)) (fun o => b2 (ix1 o)) g o := by
  unfold k3_pay4 mlp
  rw [addf_apply, fc2_apply, broadcastTo_1b_ab_apply, shapeCast_a_1a_apply]
  refine congrArg (· + b2 (ix1 o)) (Finset.sum_congr rfl fun k _ => ?_)
  rw [maximumf_apply, addf_apply, fc1_apply, broadcastTo_1b_ab_apply, shapeCast_a_1a_apply]
  have e : ∀ j : Fin 128, divf s (broadcastTo S64x128 (maximumf c (broadcast S64x1 (Scalar.ofBits (F := Ideal) .f32 0x3F800000#32))) broadcasts_S64x1_S64x128) (ix2 g j)
      = Ideal.div (s (ix2 g j)) (max (c (ix2 g (0 : Fin 1))) (Ideal.ofBits .f32 0x3F800000#32)) := fun j => by
    rw [divf_apply, broadcastTo_col_apply]; rfl
  simp only [e]
  rfl

end Kernel

section Reference

open Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 x5 x6 : (⟨S128, .f32⟩ : BufTy).Contents (Elt Ideal)) (x7 : (⟨S128x128, .f32⟩ : BufTy).Contents (Elt Ideal))
  (x8 x9 x10 : (⟨S128, .f32⟩ : BufTy).Contents (Elt Ideal)) (x11 : (⟨S128x128, .f32⟩ : BufTy).Contents (Elt Ideal))
  (x12 x13 x14 : (⟨S128, .f32⟩ : BufTy).Contents (Elt Ideal)) (x15 : (⟨S128x64, .f32⟩ : BufTy).Contents (Elt Ideal))
  (x16 : (⟨S64, .f32⟩ : BufTy).Contents (Elt Ideal)) (x17 : (⟨S64x2, .f32⟩ : BufTy).Contents (Elt Ideal))
  (x18 : (⟨S2, .f32⟩ : BufTy).Contents (Elt Ideal))

theorem batchCol_apply (n : Fin 100000) : val_main_v158 (F := Ideal) x2 (ix2 n (0 : Fin 1)) = x2 (ix1 n) := by
  rw [val_main_v158_apply]
  exact congrArg x2 (funext fun a => Fin.ext (by match a with | ⟨0, _⟩ => rfl))

theorem batchCol_apply' (n : Fin 100000) : val_main_v155 (F := Ideal) x2 (ix2 n (0 : Fin 1)) = x2 (ix1 n) := by
  rw [val_main_v155_apply]
  exact congrArg x2 (funext fun a => Fin.ext (by match a with | ⟨0, _⟩ => rfl))

theorem ones_apply (i : S100000.Idx) : val_main_v153 (F := Ideal) i = 1 := by
  rw [val_main_v153_apply, val_main_cst_28_apply, Ideal.ofBits_def, one_word]

theorem pooledSum_ref (g : Fin 64) (c : Fin 128) :
    val_main_v159 (F := Ideal) x0 x1 x2 x3 x4 x5 x6 x7 x8 x9 x10 x11 x12 x13 x14 (ix2 g c)
      = ∑ n : Fin 100000, member (x2 (ix1 n)) g
          * val_main_v152 (F := Ideal) x0 x1 x3 x4 x5 x6 x7 x8 x9 x10 x11 x12 x13 x14 (ix2 n c) := by
  unfold val_main_v159
  generalize val_main_v152 (F := Ideal) x0 x1 x3 x4 x5 x6 x7 x8 x9 x10 x11 x12 x13 x14 = h3
  show Ideal.hostScatterAdd scatter_S64x128_S100000x1_S100000x128_1_0_0_1 (val_main_v157 (F := Ideal))
      (val_main_v158 (F := Ideal) x2) h3 (ix2 g c) = _
  rw [poolScatter_apply, val_main_v157_apply, val_main_cst_30_apply, Ideal.ofBits_def, Ideal.ofBits_zero_f32, zero_add]
  simp only [batchCol_apply, member_mul]
  rw [Finset.sum_filter]

theorem nodeCount_ref (g : Fin 64) :
    val_main_v156 (F := Ideal) x2 (ix1 g) = ∑ n : Fin 100000, member (x2 (ix1 n)) g := by
  unfold val_main_v156
  show Ideal.hostScatterAdd scatter_S64_S100000x1_S100000_n_0_0_1 (val_main_v154 (F := Ideal))
      (val_main_v155 (F := Ideal) x2) (val_main_v153 (F := Ideal)) (ix1 g) = _
  rw [cntScatter_apply, val_main_v154_apply, val_main_cst_29_apply, Ideal.ofBits_def, Ideal.ofBits_zero_f32, zero_add]
  simp only [batchCol_apply', ones_apply]
  rw [Finset.sum_filter]
  exact Finset.sum_congr rfl fun n _ => rfl

theorem mean_ref (g : Fin 64) (j : Fin 128) :
    val_main_v164 (F := Ideal) x0 x1 x2 x3 x4 x5 x6 x7 x8 x9 x10 x11 x12 x13 x14 (ix2 g j)
      = Ideal.div (val_main_v159 (F := Ideal) x0 x1 x2 x3 x4 x5 x6 x7 x8 x9 x10 x11 x12 x13 x14 (ix2 g j))
          (max (val_main_v156 (F := Ideal) x2 (ix1 g)) (Ideal.ofBits .f32 0x3F800000#32)) := by
  have e1 : idx_main_v163 (ix2 g j) = ix2 g (0 : Fin 1) :=
    funext fun a => Fin.ext (by match a with | ⟨0, _⟩ => rfl | ⟨1, _⟩ => rfl)
  have e2 : idx_main_v162 (ix2 g (0 : Fin 1)) = ix1 g :=
    funext fun a => Fin.ext (by match a with | ⟨0, _⟩ => rfl)
  rw [val_main_v164_apply, val_main_v163_apply, e1, val_main_v162_apply, e2, val_main_v161_apply, val_main_v160_apply,
    val_main_cst_31_apply]
  rfl

theorem fc1_ref (g k : Fin 64) :
    val_main_v165 (F := Ideal) x0 x1 x2 x3 x4 x5 x6 x7 x8 x9 x10 x11 x12 x13 x14 x15 (ix2 g k)
      = ∑ j : Fin 128, val_main_v164 (F := Ideal) x0 x1 x2 x3 x4 x5 x6 x7 x8 x9 x10 x11 x12 x13 x14 (ix2 g j) * x15 (ix2 j k) := by
  rw [val_main_v165_apply]
  refine Finset.sum_congr rfl fun j _ => ?_
  have el : lidx_main_v165 (ix2 g k) j = ix2 g j :=
    funext fun a => Fin.ext (by match a with | ⟨0, _⟩ => rfl | ⟨1, _⟩ => rfl)
  have er : ridx_main_v165 (ix2 g k) j = ix2 j k :=
    funext fun a => Fin.ext (by match a with | ⟨0, _⟩ => rfl | ⟨1, _⟩ => rfl)
  rw [el, er]

theorem hidden_ref (g k : Fin 64) :
    val_main_v169 (F := Ideal) x0 x1 x2 x3 x4 x5 x6 x7 x8 x9 x10 x11 x12 x13 x14 x15 x16 (ix2 g k)
      = max (val_main_v165 (F := Ideal) x0 x1 x2 x3 x4 x5 x6 x7 x8 x9 x10 x11 x12 x13 x14 x15 (ix2 g k) + x16 (ix1 k))
          (Ideal.ofBits .f32 0x00000000#32) := by
  have e1 : idx_main_v167 (ix2 g k) = ix2 (0 : Fin 1) k :=
    funext fun a => Fin.ext (by match a with | ⟨0, _⟩ => rfl | ⟨1, _⟩ => rfl)
  have e2 : idx_main_v166 (ix2 (0 : Fin 1) k) = ix1 k :=
    funext fun a => Fin.ext (by match a with | ⟨0, _⟩ => rfl)
  rw [val_main_v169_apply, val_main_v168_apply, val_main_call3_v0_apply, val_main_call3_cst_apply, val_main_v167_apply, e1,
    val_main_v166_apply, e2]
  rfl

theorem fc2_ref (g : Fin 64) (o : Fin 2) :
    val_main_v170 (F := Ideal) x0 x1 x2 x3 x4 x5 x6 x7 x8 x9 x10 x11 x12 x13 x14 x15 x16 x17 (ix2 g o)
      = ∑ k : Fin 64, val_main_v169 (F := Ideal) x0 x1 x2 x3 x4 x5 x6 x7 x8 x9 x10 x11 x12 x13 x14 x15 x16 (ix2 g k) * x17 (ix2 k o) := by
  rw [val_main_v170_apply]
  refine Finset.sum_congr rfl fun k _ => ?_
  have el : lidx_main_v170 (ix2 g o) k = ix2 g k :=
    funext fun a => Fin.ext (by match a with | ⟨0, _⟩ => rfl | ⟨1, _⟩ => rfl)
  have er : ridx_main_v170 (ix2 g o) k = ix2 k o :=
    funext fun a => Fin.ext (by match a with | ⟨0, _⟩ => rfl | ⟨1, _⟩ => rfl)
  rw [el, er]

theorem logits_ref (g : Fin 64) (o : Fin 2) :
    val_main_v173 (F := Ideal) x0 x1 x2 x3 x4 x5 x6 x7 x8 x9 x10 x11 x12 x13 x14 x15 x16 x17 x18 (ix2 g o)
      = mlp (fun g j => val_main_v159 (F := Ideal) x0 x1 x2 x3 x4 x5 x6 x7 x8 x9 x10 x11 x12 x13 x14 (ix2 g j))
          (fun g => val_main_v156 (F := Ideal) x2 (ix1 g)) (fun j k => x15 (ix2 j k)) (fun k => x16 (ix1 k))
          (fun k o => x17 (ix2 k o)) (fun o => x18 (ix1 o)) g o := by
  have e1 : idx_main_v172 (ix2 g o) = ix2 (0 : Fin 1) o :=
    funext fun a => Fin.ext (by match a with | ⟨0, _⟩ => rfl | ⟨1, _⟩ => rfl)
  have e2 : idx_main_v171 (ix2 (0 : Fin 1) o) = ix1 o :=
    funext fun a => Fin.ext (by match a with | ⟨0, _⟩ => rfl)
  unfold mlp
  rw [val_main_v173_apply, fc2_ref, val_main_v172_apply, e1, val_main_v171_apply, e2]
  simp only [hidden_ref, fc1_ref, mean_ref]
  rfl

end Reference

section Both

open Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 x5 x6 : (⟨S128, .f32⟩ : BufTy).Contents (Elt Ideal)) (x7 : (⟨S128x128, .f32⟩ : BufTy).Contents (Elt Ideal))
  (x8 x9 x10 : (⟨S128, .f32⟩ : BufTy).Contents (Elt Ideal)) (x11 : (⟨S128x128, .f32⟩ : BufTy).Contents (Elt Ideal))
  (x12 x13 x14 : (⟨S128, .f32⟩ : BufTy).Contents (Elt Ideal)) (x15 : (⟨S128x64, .f32⟩ : BufTy).Contents (Elt Ideal))
  (x16 : (⟨S64, .f32⟩ : BufTy).Contents (Elt Ideal)) (x17 : (⟨S64x2, .f32⟩ : BufTy).Contents (Elt Ideal))
  (x18 : (⟨S2, .f32⟩ : BufTy).Contents (Elt Ideal))

theorem logits_eq (sumAcc : Vec Ideal Cert.KernelIdeal.S64x128 .f32) (cntAcc : Vec Ideal Cert.KernelIdeal.S64x1 .f32)
    (hs : ∀ (g : Fin 64) (c : Fin 128), sumAcc (ix2 g c)
      = ∑ n : Fin 100000, member (x2 (ix1 n)) g
          * val_main_v152 (F := Ideal) x0 x1 x3 x4 x5 x6 x7 x8 x9 x10 x11 x12 x13 x14 (ix2 n c))
    (hc : ∀ g : Fin 64, cntAcc (ix2 g (0 : Fin 1)) = ∑ n : Fin 100000, member (x2 (ix1 n)) g) :
    Cert.KernelIdeal.Gen.k3_pay4 (F := Ideal) sumAcc cntAcc x15 x16 x17 x18
      = val_main_v173 (F := Ideal) x0 x1 x2 x3 x4 x5 x6 x7 x8 x9 x10 x11 x12 x13 x14 x15 x16 x17 x18 := by
  funext i
  obtain ⟨g, o, rfl⟩ : ∃ (g : Fin 64) (o : Fin 2), i = ix2 g o := ⟨i 0, i 1, eq_ix2 i⟩
  rw [mlpPayload_apply, logits_ref]
  simp only [hs, hc, pooledSum_ref, nodeCount_ref]

end Both

end Cert.Bridge.Pool

end
-- ==== Proof.LibBlockSum.lean ====
import Mathlib.Algebra.BigOperators.Fin
import Mathlib.Algebra.BigOperators.Intervals
import Mathlib.Data.EReal.Basic

noncomputable section

open scoped BigOperators

namespace Cert.Lib.BlockSum

theorem blockRow_lt {T B : ℕ} (t : Fin T) (p : Fin B) : B * t.val + p.val < T * B := by
  have ht : t.val + 1 ≤ T := t.isLt
  have hp := p.isLt
  calc B * t.val + p.val < B * t.val + B := by omega
    _ = B * (t.val + 1) := by ring
    _ ≤ B * T := Nat.mul_le_mul_left _ ht
    _ = T * B := Nat.mul_comm _ _

theorem blockRow_lt' {T B : ℕ} (t : Fin T) (p : Fin B) : t.val * B + p.val < T * B := by
  rw [Nat.mul_comm t.val B]
  exact blockRow_lt t p

section Monoid
variable {M : Type*} [AddCommMonoid M]

theorem sum_blocks (T B : ℕ) (f : Fin (T * B) → M) :
    ∑ n : Fin (T * B), f n = ∑ t : Fin T, ∑ p : Fin B, f ⟨B * t.val + p.val, blockRow_lt t p⟩ := by
  rw [← finProdFinEquiv.sum_comp, Fintype.sum_prod_type]
  refine Finset.sum_congr rfl fun t _ => Finset.sum_congr rfl fun p _ => ?_
  congr 1
  refine Fin.ext ?_
  show p.val + B * t.val = B * t.val + p.val
  omega

theorem sum_blocks' (T B : ℕ) (f : Fin (T * B) → M) :
    ∑ n : Fin (T * B), f n = ∑ t : Fin T, ∑ p : Fin B, f ⟨t.val * B + p.val, blockRow_lt' t p⟩ := by
  rw [sum_blocks]
  refine Finset.sum_congr rfl fun t _ => Finset.sum_congr rfl fun p _ => ?_
  congr 1
  exact Fin.ext (by show B * t.val + p.val = t.val * B + p.val; rw [Nat.mul_comm])

theorem sum_blocks_20_5000' (f : Fin 100000 → M) :
    ∑ n : Fin 100000, f n
      = ∑ t : Fin 20, ∑ p : Fin 5000, f ⟨t.val * 5000 + p.val, blockRow_lt' (T := 20) (B := 5000) t p⟩ :=
  sum_blocks' 20 5000 f

end Monoid

end Cert.Lib.BlockSum

end
-- ==== Proof.Bridge.Val3.lean ====
import proofs.«427718_j18545668784934_3_alg».proof.Proof.KernelIdeal.Reg3
import proofs.«427718_j18545668784934_3_alg».proof.Proof.Bridge.LayerNormKernel
import proofs.«427718_j18545668784934_3_alg».proof.Proof.Bridge.PoolMlp
import proofs.«427718_j18545668784934_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.Bridge.Val3

open Cert.KernelIdeal Cert.KernelIdeal.Gen Cert.KernelIdeal.Fr Cert.Bridge
open Idealize.ShloMosaic Idealize.ShloMosaic.TcCoe Idealize.ShloMosaic.ValueIdx Idealize.ShloMosaic.Tactic Idealize.SL.Sem
open Idealize.ShloMosaic.Pipeline (Dat)

section AnyFloat

variable {F : FTy → Type} [FloatOps F]
variable (V : (c : Dev nD) → (b : Ref sig .tc) → Buf (Elt F) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

abbrev blk3_0 (c : Dev nD) (t : Fin cfg3.N) : Vec F S5000x128 .f32 := iblk3 V c 0 t
abbrev blk3_1 (c : Dev nD) (t : Fin cfg3.N) : Vec F S5000x1 .f32 := iblk3 V c 1 t
abbrev blk3_2 (c : Dev nD) (t : Fin cfg3.N) : Vec F S128 .f32 := iblk3 V c 2 t
abbrev blk3_3 (c : Dev nD) (t : Fin cfg3.N) : Vec F S128 .f32 := iblk3 V c 3 t
abbrev blk3_4 (c : Dev nD) (t : Fin cfg3.N) : Vec F S128 .f32 := iblk3 V c 4 t
abbrev blk3_5 (c : Dev nD) (t : Fin cfg3.N) : Vec F S5000x1 .i32 := iblk3 V c 5 t
abbrev blk3_6 (c : Dev nD) (t : Fin cfg3.N) : Vec F S128x64 .f32 := iblk3 V c 6 t
abbrev blk3_7 (c : Dev nD) (t : Fin cfg3.N) : Vec F S64 .f32 := iblk3 V c 7 t
abbrev blk3_8 (c : Dev nD) (t : Fin cfg3.N) : Vec F S64x2 .f32 := iblk3 V c 8 t
abbrev blk3_9 (c : Dev nD) (t : Fin cfg3.N) : Vec F S2 .f32 := iblk3 V c 9 t

def hrow3 (c : Dev nD) (t : Fin cfg3.N) : Vec F S5000x128 .f32 :=
  k3_pay7 (blk3_0 V c t) (blk3_1 V c t) (blk3_2 V c t) (blk3_3 V c t) (blk3_4 V c t)

def bidx3 (c : Dev nD) (t : Fin cfg3.N) : IVec S5000x1 32 := k3_pay8 (blk3_5 V c t)

theorem sumsA (c : Dev nD) (t : Fin cfg3.N) (h0 : t.val % 20 = 0) :
    sout3_A_0 V c t h0 = k3_pay2 (hrow3 V c t) (bidx3 V c t) (k3_pay5 (F := F)) := by
  unfold sout3_A_0
  rw [View.read_writes_eq_canon _ _ _ (scover3_A_0 V c t h0)]
  unfold runA3 kernelRun3_A
  dsimp only
  sl_unfold_words
  rw [View.canon_cons_unit_zero (S := S64x128) off2_zero, View.readCov_unit_zero (S := S64x128) _ off2_zero]
  unfold hrow3 bidx3
  simp only [View.readAt_eq_ld, (hs3_0 t).read_unread, (hs3_1 t).read_unread, (hs3_2 t).read_unread,
    (hs3_3 t).read_unread, (hs3_4 t).read_unread, (hs3_5 t).read_unread,
    View.ld_unit_zero (S := S5000x128) off2_zero, View.ld_unit_zero (S := S5000x1) off2_zero,
    View.ld_unit_zero (S := S128) off1_zero]

theorem cntsA (c : Dev nD) (t : Fin cfg3.N) (h0 : t.val % 20 = 0) :
    sout3_A_1 V c t h0 = k3_pay3 (bidx3 V c t) (k3_pay6 (F := F)) := by
  unfold sout3_A_1
  rw [View.read_writes_eq_canon _ _ _ (scover3_A_1 V c t h0)]
  unfold runA3 kernelRun3_A
  dsimp only
  sl_unfold_words
  rw [View.canon_cons_unit_zero (S := S64x1) off2_zero, View.readCov_unit_zero (S := S64x1) _ off2_zero]
  unfold bidx3
  simp only [View.readAt_eq_ld, (hs3_5 t).read_unread, View.ld_unit_zero (S := S5000x1) off2_zero]

theorem sumsB (c : Dev nD) (t : Fin cfg3.N) (h0 : ¬t.val % 20 = 0) (h1 : ¬t.val % 20 = 19) (xs0 : Vec F S64x128 .f32) (xs1 : Vec F S64x1 .f32) :
    sout3_B_0 V c t h0 h1 xs0 xs1 = k3_pay2 (hrow3 V c t) (bidx3 V c t) xs0 := by
  unfold sout3_B_0
  rw [View.read_writes_eq_canon _ _ _ (scover3_B_0 V c t h0 h1 xs0 xs1)]
  unfold runB3 kernelRun3_B
  dsimp only
  sl_unfold_words
  rw [View.canon_unit_zero (S := S64x128) off2_zero]
  unfold hrow3 bidx3
  simp only [View.readAt_eq_ld, (hs3_0 t).read_unread, (hs3_1 t).read_unread, (hs3_2 t).read_unread,
    (hs3_3 t).read_unread, (hs3_4 t).read_unread, (hs3_5 t).read_unread, (Memref.isWhole_whole _).read_unread,
    View.ld_unit_zero (S := S5000x128) off2_zero, View.ld_unit_zero (S := S5000x1) off2_zero,
    View.ld_unit_zero (S := S128) off1_zero, View.ld_unit_zero (S := S64x128) off2_zero]

theorem cntsB (c : Dev nD) (t : Fin cfg3.N) (h0 : ¬t.val % 20 = 0) (h1 : ¬t.val % 20 = 19) (xs0 : Vec F S64x128 .f32) (xs1 : Vec F S64x1 .f32) :
    sout3_B_1 V c t h0 h1 xs0 xs1 = k3_pay3 (bidx3 V c t) xs1 := by
  unfold sout3_B_1
  rw [View.read_writes_eq_canon _ _ _ (scover3_B_1 V c t h0 h1 xs0 xs1)]
  unfold runB3 kernelRun3_B
  dsimp only
  sl_unfold_words
  rw [View.canon_unit_zero (S := S64x1) off2_zero]
  unfold bidx3
  simp only [View.readAt_eq_ld, (hs3_5 t).read_unread, (Memref.isWhole_whole _).read_unread,
    View.ld_unit_zero (S := S5000x1) off2_zero, View.ld_unit_zero (S := S64x1) off2_zero]

theorem sumsC (c : Dev nD) (t : Fin cfg3.N) (h1 : t.val % 20 = 19) (xs0 : Vec F S64x128 .f32) (xs1 : Vec F S64x1 .f32) :
    sout3_C_0 V c t h1 xs0 xs1 = k3_pay2 (hrow3 V c t) (bidx3 V c t) xs0 := by
  unfold sout3_C_0
  rw [View.read_writes_eq_canon _ _ _ (scover3_C_0 V c t h1 xs0 xs1)]
  unfold runC3 kernelRun3_C
  dsimp only
  sl_unfold_words
  rw [View.canon_unit_zero (S := S64x128) off2_zero]
  unfold hrow3 bidx3
  simp only [View.readAt_eq_ld, (hs3_0 t).read_unread, (hs3_1 t).read_unread, (hs3_2 t).read_unread,
    (hs3_3 t).read_unread, (hs3_4 t).read_unread, (hs3_5 t).read_unread, (Memref.isWhole_whole _).read_unread,
    View.ld_unit_zero (S := S5000x128) off2_zero, View.ld_unit_zero (S := S5000x1) off2_zero,
    View.ld_unit_zero (S := S128) off1_zero, View.ld_unit_zero (S := S64x128) off2_zero]

theorem cntsC (c : Dev nD) (t : Fin cfg3.N) (h1 : t.val % 20 = 19) (xs0 : Vec F S64x128 .f32) (xs1 : Vec F S64x1 .f32) :
    sout3_C_1 V c t h1 xs0 xs1 = k3_pay3 (bidx3 V c t) xs1 := by
  unfold sout3_C_1
  rw [View.read_writes_eq_canon _ _ _ (scover3_C_1 V c t h1 xs0 xs1)]
  unfold runC3 kernelRun3_C
  dsimp only
  sl_unfold_words
  rw [View.canon_unit_zero (S := S64x1) off2_zero]
  unfold bidx3
  simp only [View.readAt_eq_ld, (hs3_5 t).read_unread, (Memref.isWhole_whole _).read_unread,
    View.ld_unit_zero (S := S5000x1) off2_zero, View.ld_unit_zero (S := S64x1) off2_zero]

theorem resC (c : Dev nD) (t : Fin cfg3.N) (h1 : t.val % 20 = 19) (xs0 : Vec F S64x128 .f32) (xs1 : Vec F S64x1 .f32) :
    out3_C_10 V c t h1 xs0 xs1
      = k3_pay4 (k3_pay2 (hrow3 V c t) (bidx3 V c t) xs0) (k3_pay3 (bidx3 V c t) xs1) (blk3_6 V c t) (blk3_7 V c t) (blk3_8 V c t) (blk3_9 V c t) := by
  unfold out3_C_10
  rw [View.read_writes_eq_canon _ _ _ (cover3_C_10 V c t h1 xs0 xs1)]
  unfold runC3 kernelRun3_C
  dsimp only
  sl_unfold_words
  rw [View.canon_unit_zero (S := S64x2) off2_zero]
  unfold hrow3 bidx3
  simp only [View.readAt_eq_ld, (hs3_0 t).read_unread, (hs3_1 t).read_unread, (hs3_2 t).read_unread,
    (hs3_3 t).read_unread, (hs3_4 t).read_unread, (hs3_5 t).read_unread, (hs3_6 t).read_unread, (hs3_7 t).read_unread,
    (hs3_8 t).read_unread, (hs3_9 t).read_unread, (Memref.isWhole_whole _).read_unread,
    View.readCov_unit_zero (S := S64x128) _ off2_zero, View.readCov_unit_zero (S := S64x1) _ off2_zero,
    View.ld_unit_zero (S := S5000x128) off2_zero, View.ld_unit_zero (S := S5000x1) off2_zero,
    View.ld_unit_zero (S := S128) off1_zero, View.ld_unit_zero (S := S64x128) off2_zero, View.ld_unit_zero (S := S64x1) off2_zero,
    View.ld_unit_zero (S := S128x64) off2_zero, View.ld_unit_zero (S := S64) off1_zero, View.ld_unit_zero (S := S64x2) off2_zero,
    View.ld_unit_zero (S := S2) off1_zero]

def sumAt3 (c : Dev nD) : (n : ℕ) → n < cfg3.N → Vec F S64x128 .f32
  | 0, h => k3_pay2 (hrow3 V c ⟨0, h⟩) (bidx3 V c ⟨0, h⟩) (k3_pay5 (F := F))
  | n + 1, h => k3_pay2 (hrow3 V c ⟨n + 1, h⟩) (bidx3 V c ⟨n + 1, h⟩) (sumAt3 c n (Nat.lt_of_succ_lt h))

def cntAt3 (c : Dev nD) : (n : ℕ) → n < cfg3.N → Vec F S64x1 .f32
  | 0, h => k3_pay3 (bidx3 V c ⟨0, h⟩) (k3_pay6 (F := F))
  | n + 1, h => k3_pay3 (bidx3 V c ⟨n + 1, h⟩) (cntAt3 c n (Nat.lt_of_succ_lt h))

theorem acc3_eq (c : Dev nD) : ∀ (n : ℕ) (h : n < cfg3.N),
    (outsAt3 V c n h).2.1 = sumAt3 V c n h ∧ (outsAt3 V c n h).2.2 = cntAt3 V c n h
      ∧ (n % 20 = 19 → (outsAt3 V c n h).1
          = k3_pay4 (sumAt3 V c n h) (cntAt3 V c n h) (blk3_6 V c ⟨n, h⟩) (blk3_7 V c ⟨n, h⟩) (blk3_8 V c ⟨n, h⟩) (blk3_9 V c ⟨n, h⟩))
  | 0, h => by
    rw [outsAt3_A V c ⟨0, h⟩ (Nat.zero_mod _)]; dsimp only
    exact ⟨sumsA V c ⟨0, h⟩ (Nat.zero_mod _), cntsA V c ⟨0, h⟩ (Nat.zero_mod _), fun e => absurd e (by decide)⟩
  | n + 1, h => by
    obtain ⟨ihS, ihC, -⟩ := acc3_eq c n (Nat.lt_of_succ_lt h)
    by_cases h1 : (n + 1) % 20 = 19
    · rw [outsAt3_C V c ⟨n + 1, h⟩ h1]; dsimp only
      have eS : (outsAt3 V c (n + 1 - 1) (Nat.lt_of_le_of_lt (Nat.sub_le _ _) h)).2.1 = sumAt3 V c n (Nat.lt_of_succ_lt h) := ihS
      have eC : (outsAt3 V c (n + 1 - 1) (Nat.lt_of_le_of_lt (Nat.sub_le _ _) h)).2.2 = cntAt3 V c n (Nat.lt_of_succ_lt h) := ihC
      rw [eS, eC]
      exact ⟨sumsC V c ⟨n + 1, h⟩ h1 _ _, cntsC V c ⟨n + 1, h⟩ h1 _ _, fun _ => resC V c ⟨n + 1, h⟩ h1 _ _⟩
    · rw [outsAt3_B V c ⟨n + 1, h⟩ (succ_not_first3 h) h1]; dsimp only
      have eS : (outsAt3 V c (n + 1 - 1) (Nat.lt_of_le_of_lt (Nat.sub_le _ _) h)).2.1 = sumAt3 V c n (Nat.lt_of_succ_lt h) := ihS
      have eC : (outsAt3 V c (n + 1 - 1) (Nat.lt_of_le_of_lt (Nat.sub_le _ _) h)).2.2 = cntAt3 V c n (Nat.lt_of_succ_lt h) := ihC
      rw [eS, eC]
      exact ⟨sumsB V c ⟨n + 1, h⟩ (succ_not_first3 h) h1 _ _, cntsB V c ⟨n + 1, h⟩ (succ_not_first3 h) h1 _ _, fun e => absurd e h1⟩

theorem block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_5.index t (0 : Fin 2) = t.val ∧ win3_5.index t (1 : Fin 2) = 0
    ∧ win3_2.index t (0 : Fin 1) = 0 ∧ win3_3.index t (0 : Fin 1) = 0 ∧ win3_4.index t (0 : Fin 1) = 0
    ∧ win3_6.index t (0 : Fin 2) = 0 ∧ win3_6.index t (1 : Fin 2) = 0
    ∧ win3_7.index t (0 : Fin 1) = 0
    ∧ win3_8.index t (0 : Fin 2) = 0 ∧ win3_8.index t (1 : Fin 2) = 0
    ∧ win3_9.index t (0 : Fin 1) = 0
    ∧ win3_10.index t (0 : Fin 2) = 0 ∧ win3_10.index t (1 : Fin 2) = 0 :=
  (by decide +kernel : ∀ t : Fin grid3.N, _)

theorem blk3_0_apply (c : Dev nD) (t : Fin cfg3.N) (p : Fin 5000) (k : Fin 128) (n : Fin 100000) (hn : n.val = t.val * 5000 + p.val) :
    blk3_0 V c t (ix2 p k) = (V c main_v48 : Vec F S100000x128 .f32) (ix2 n k) := by
  obtain ⟨e0, e1, -⟩ := block_indices3 t
  show V c main_v48 (((cfg3.win 0).blk t).view.emb (ix2 p k)) = V c main_v48 (ix2 n k)
  refine congrArg _ (funext fun a => Fin.ext ?_)
  match a with
  | ⟨0, _⟩ => show win3_0.index t (0 : Fin 2) * 5000 + 1 * p.val = n.val; omega
  | ⟨1, _⟩ => show win3_0.index t (1 : Fin 2) * 128 + 1 * k.val = k.val; omega

theorem blk3_1_apply (c : Dev nD) (t : Fin cfg3.N) (p : Fin 5000) (n : Fin 100000) (hn : n.val = t.val * 5000 + p.val) :
    blk3_1 V c t (ix2 p (0 : Fin 1)) = (V c main_v12 : Vec F S100000x1 .f32) (ix2 n (0 : Fin 1)) := by
  obtain ⟨-, -, e0, e1, -⟩ := block_indices3 t
  show V c main_v12 (((cfg3.win 1).blk t).view.emb (ix2 p (0 : Fin 1))) = V c main_v12 (ix2 n (0 : Fin 1))
  refine congrArg _ (funext fun a => Fin.ext ?_)
  match a with
  | ⟨0, _⟩ => show win3_1.index t (0 : Fin 2) * 5000 + 1 * p.val = n.val; omega
  | ⟨1, _⟩ => show win3_1.index t (1 : Fin 2) * 1 + 1 * 0 = 0; omega

theorem blk3_5_apply (c : Dev nD) (t : Fin cfg3.N) (p : Fin 5000) (n : Fin 100000) (hn : n.val = t.val * 5000 + p.val) :
    blk3_5 V c t (ix2 p (0 : Fin 1)) = (V c main_v49 : Vec F S100000x1 .i32) (ix2 n (0 : Fin 1)) := by
  obtain ⟨-, -, -, -, e0, e1, -⟩ := block_indices3 t
  show V c main_v49 (((cfg3.win 5).blk t).view.emb (ix2 p (0 : Fin 1))) = V c main_v49 (ix2 n (0 : Fin 1))
  refine congrArg _ (funext fun a => Fin.ext ?_)
  match a with
  | ⟨0, _⟩ => show win3_5.index t (0 : Fin 2) * 5000 + 1 * p.val = n.val; omega
  | ⟨1, _⟩ => show win3_5.index t (1 : Fin 2) * 1 + 1 * 0 = 0; omega

theorem blk3_2_apply (c : Dev nD) (t : Fin cfg3.N) (k : Fin 128) : blk3_2 V c t (ix1 k) = (V c main_arg12 : Vec F S128 .f32) (ix1 k) := by
  obtain ⟨-, -, -, -, -, -, e, -⟩ := block_indices3 t
  show V c main_arg12 (((cfg3.win 2).blk t).view.emb (ix1 k)) = V c main_arg12 (ix1 k)
  refine congrArg _ (funext fun a => Fin.ext ?_)
  match a with
  | ⟨0, _⟩ => show win3_2.index t (0 : Fin 1) * 128 + 1 * k.val = k.val; omega
theorem blk3_3_apply (c : Dev nD) (t : Fin cfg3.N) (k : Fin 128) : blk3_3 V c t (ix1 k) = (V c main_arg13 : Vec F S128 .f32) (ix1 k) := by
  obtain ⟨-, -, -, -, -, -, -, e, -⟩ := block_indices3 t
  show V c main_arg13 (((cfg3.win 3).blk t).view.emb (ix1 k)) = V c main_arg13 (ix1 k)
  refine congrArg _ (funext fun a => Fin.ext ?_)
  match a with
  | ⟨0, _⟩ => show win3_3.index t (0 : Fin 1) * 128 + 1 * k.val = k.val; omega
theorem blk3_4_apply (c : Dev nD) (t : Fin cfg3.N) (k : Fin 128) : blk3_4 V c t (ix1 k) = (V c main_arg14 : Vec F S128 .f32) (ix1 k) := by
  obtain ⟨-, -, -, -, -, -, -, -, e, -⟩ := block_indices3 t
  show V c main_arg14 (((cfg3.win 4).blk t).view.emb (ix1 k)) = V c main_arg14 (ix1 k)
  refine congrArg _ (funext fun a => Fin.ext ?_)
  match a with
  | ⟨0, _⟩ => show win3_4.index t (0 : Fin 1) * 128 + 1 * k.val = k.val; omega

theorem blk3_6_eq (c : Dev nD) (t : Fin cfg3.N) : blk3_6 V c t = (V c main_arg15 : Vec F S128x64 .f32) := by
  obtain ⟨-, -, -, -, -, -, -, -, -, e0, e1, -⟩ := block_indices3 t
  funext j
  show V c main_arg15 (((cfg3.win 6).blk t).view.emb j) = V c main_arg15 j
  refine congrArg _ (funext fun a => Fin.ext ?_)
  match a with
  | ⟨0, _⟩ => show win3_6.index t (0 : Fin 2) * 128 + 1 * (j 0).val = (j 0).val; omega
  | ⟨1, _⟩ => show win3_6.index t (1 : Fin 2) * 64 + 1 * (j 1).val = (j 1).val; omega
theorem blk3_7_eq (c : Dev nD) (t : Fin cfg3.N) : blk3_7 V c t = (V c main_arg16 : Vec F S64 .f32) := by
  obtain ⟨-, -, -, -, -, -, -, -, -, -, -, e, -⟩ := block_indices3 t
  funext j
  show V c main_arg16 (((cfg3.win 7).blk t).view.emb j) = V c main_arg16 j
  refine congrArg _ (funext fun a => Fin.ext ?_)
  match a with
  | ⟨0, _⟩ => show win3_7.index t (0 : Fin 1) * 64 + 1 * (j 0).val = (j 0).val; omega
theorem blk3_8_eq (c : Dev nD) (t : Fin cfg3.N) : blk3_8 V c t = (V c main_arg17 : Vec F S64x2 .f32) := by
  obtain ⟨-, -, -, -, -, -, -, -, -, -, -, -, e0, e1, -⟩ := block_indices3 t
  funext j
  show V c main_arg17 (((cfg3.win 8).blk t).view.emb j) = V c main_arg17 j
  refine congrArg _ (funext fun a => Fin.ext ?_)
  match a with
  | ⟨0, _⟩ => show win3_8.index t (0 : Fin 2) * 64 + 1 * (j 0).val = (j 0).val; omega
  | ⟨1, _⟩ => show win3_8.index t (1 : Fin 2) * 2 + 1 * (j 1).val = (j 1).val; omega
theorem blk3_9_eq (c : Dev nD) (t : Fin cfg3.N) : blk3_9 V c t = (V c main_arg18 : Vec F S2 .f32) := by
  obtain ⟨-, -, -, -, -, -, -, -, -, -, -, -, -, -, e, -⟩ := block_indices3 t
  funext j
  show V c main_arg18 (((cfg3.win 9).blk t).view.emb j) = V c main_arg18 j
  refine congrArg _ (funext fun a => Fin.ext ?_)
  match a with
  | ⟨0, _⟩ => show win3_9.index t (0 : Fin 1) * 2 + 1 * (j 0).val = (j 0).val; omega

theorem read_blk3_10 (c : Dev nD) (t : Fin cfg3.N) (G : Buf (Elt F) ((c : Thread nD τ).loc main_v50)) :
    ((cfg3.win 10).blk t).view.read (Elt F) G = G := by
  obtain ⟨-, -, -, -, -, -, -, -, -, -, -, -, -, -, -, e0, e1⟩ := block_indices3 t
  funext j
  show G (((cfg3.win 10).blk t).view.emb j) = G j
  refine congrArg _ (funext fun a => Fin.ext ?_)
  match a with
  | ⟨0, _⟩ => show win3_10.index t (0 : Fin 2) * 64 + 1 * (j 0).val = (j 0).val; omega
  | ⟨1, _⟩ => show win3_10.index t (1 : Fin 2) * 2 + 1 * (j 1).val = (j 1).val; omega

end AnyFloat

section AtIdeal

variable (V : (c : Dev nD) → (b : Ref sig .tc) → Buf (Elt Ideal) ((c : Thread nD τ).loc b))

abbrev rows3 (c : Dev nD) : Vec Ideal S100000x128 .f32 := V c main_v48
abbrev dinv3 (c : Dev nD) : Vec Ideal S100000x1 .f32 := V c main_v12
abbrev bias3 (c : Dev nD) : Vec Ideal S128 .f32 := V c main_arg12
abbrev gain3 (c : Dev nD) : Vec Ideal S128 .f32 := V c main_arg13
abbrev beta3 (c : Dev nD) : Vec Ideal S128 .f32 := V c main_arg14
abbrev bcol3 (c : Dev nD) : Vec Ideal S100000x1 .i32 := V c main_v49

def H3 (c : Dev nD) (n : Fin 100000) (f : Fin 128) : EReal :=
  lnRow (fun cc => rows3 V c (ix2 n cc) * dinv3 V c (ix2 n (0 : Fin 1)) + bias3 V c (ix1 cc))
    (fun k => gain3 V c (ix1 k)) (fun k => beta3 V c (ix1 k)) f

theorem last3 : 19 < cfg3.N := by rw [show cfg3.N = 20 from N_3]; decide

def S3 (c : Dev nD) : Vec Ideal S64x128 .f32 := sumAt3 V c 19 last3
def C3 (c : Dev nD) : Vec Ideal S64x1 .f32 := cntAt3 V c 19 last3

theorem hrow3_apply (c : Dev nD) (t : Fin cfg3.N) (p : Fin 5000) (f : Fin 128) (n : Fin 100000) (hn : n.val = t.val * 5000 + p.val) :
    hrow3 V c t (ix2 p f) = H3 V c n f := by
  unfold hrow3 H3
  rw [k3_pay7_apply]
  have e1 : (fun cc : Fin 128 => (blk3_0 V c t (ix2 p cc) : EReal) * blk3_1 V c t (ix2 p 0) + blk3_2 V c t (ix1 cc))
      = fun cc => rows3 V c (ix2 n cc) * dinv3 V c (ix2 n (0 : Fin 1)) + bias3 V c (ix1 cc) :=
    funext fun cc => by rw [blk3_0_apply V c t p cc n hn, blk3_1_apply V c t p n hn, blk3_2_apply V c t cc]
  have e2 : (fun k : Fin 128 => (blk3_3 V c t (ix1 k) : EReal)) = fun k => gain3 V c (ix1 k) := funext fun k => blk3_3_apply V c t k
  have e3 : (fun k : Fin 128 => (blk3_4 V c t (ix1 k) : EReal)) = fun k => beta3 V c (ix1 k) := funext fun k => blk3_4_apply V c t k
  rw [e1, e2, e3]

theorem bidx3_apply (c : Dev nD) (t : Fin cfg3.N) (p : Fin 5000) (n : Fin 100000) (hn : n.val = t.val * 5000 + p.val) :
    bidx3 V c t (ix2 p (0 : Fin 1)) = bcol3 V c (ix2 n (0 : Fin 1)) := by
  unfold bidx3 k3_pay8
  rw [shapeCast_self]
  exact blk3_5_apply V c t p n hn

theorem sumAt3_apply (c : Dev nD) (g : Fin 64) (f : Fin 128) : ∀ (n : ℕ) (h : n < cfg3.N),
    sumAt3 V c n h (ix2 g f)
      = ∑ t : Fin (n + 1), ∑ p : Fin 5000,
          Pool.member (bidx3 V c ⟨t.val, Nat.lt_of_lt_of_le t.isLt h⟩ (ix2 p (0 : Fin 1))) g * hrow3 V c ⟨t.val, Nat.lt_of_lt_of_le t.isLt h⟩ (ix2 p f)
  | 0, h => by
    show k3_pay2 (F := Ideal) (hrow3 V c ⟨0, h⟩) (bidx3 V c ⟨0, h⟩) (k3_pay5 (F := Ideal)) (ix2 g f) = _
    rw [Pool.sumStep_apply, Pool.sumReset_apply, zero_add, Fin.sum_univ_one]
    rfl
  | n + 1, h => by
    show k3_pay2 (F := Ideal) (hrow3 V c ⟨n + 1, h⟩) (bidx3 V c ⟨n + 1, h⟩) (sumAt3 V c n (Nat.lt_of_succ_lt h)) (ix2 g f) = _
    rw [Fin.sum_univ_castSucc, Pool.sumStep_apply, sumAt3_apply c g f n (Nat.lt_of_succ_lt h)]
    rfl

theorem cntAt3_apply (c : Dev nD) (g : Fin 64) : ∀ (n : ℕ) (h : n < cfg3.N),
    cntAt3 V c n h (ix2 g (0 : Fin 1))
      = ∑ t : Fin (n + 1), ∑ p : Fin 5000, Pool.member (bidx3 V c ⟨t.val, Nat.lt_of_lt_of_le t.isLt h⟩ (ix2 p (0 : Fin 1))) g
  | 0, h => by
    show k3_pay3 (F := Ideal) (bidx3 V c ⟨0, h⟩) (k3_pay6 (F := Ideal)) (ix2 g (0 : Fin 1)) = _
    rw [Pool.cntStep_apply, Pool.cntReset_apply, zero_add, Fin.sum_univ_one]
    rfl
  | n + 1, h => by
    show k3_pay3 (F := Ideal) (bidx3 V c ⟨n + 1, h⟩) (cntAt3 V c n (Nat.lt_of_succ_lt h)) (ix2 g (0 : Fin 1)) = _
    rw [Fin.sum_univ_castSucc, Pool.cntStep_apply, cntAt3_apply c g n (Nat.lt_of_succ_lt h)]
    rfl

theorem S3_apply (c : Dev nD) (g : Fin 64) (f : Fin 128) :
    S3 V c (ix2 g f) = ∑ n : Fin 100000, Pool.member (bcol3 V c (ix2 n (0 : Fin 1))) g * H3 V c n f := by
  rw [Cert.Lib.BlockSum.sum_blocks_20_5000' (fun n : Fin 100000 => Pool.member (bcol3 V c (ix2 n (0 : Fin 1))) g * H3 V c n f)]
  refine (sumAt3_apply V c g f 19 last3).trans (Finset.sum_congr rfl fun t _ => Finset.sum_congr rfl fun p _ => ?_)
  exact congrArg₂ (fun (a : BitVec 32) (b : EReal) => Pool.member a g * b)
    (bidx3_apply V c ⟨t.val, Nat.lt_of_lt_of_le t.isLt last3⟩ p ⟨t.val * 5000 + p.val, by have := t.isLt; have := p.isLt; omega⟩ rfl)
    (hrow3_apply V c ⟨t.val, Nat.lt_of_lt_of_le t.isLt last3⟩ p f ⟨t.val * 5000 + p.val, by have := t.isLt; have := p.isLt; omega⟩ rfl)

theorem C3_apply (c : Dev nD) (g : Fin 64) :
    C3 V c (ix2 g (0 : Fin 1)) = ∑ n : Fin 100000, Pool.member (bcol3 V c (ix2 n (0 : Fin 1))) g := by
  rw [Cert.Lib.BlockSum.sum_blocks_20_5000' (fun n : Fin 100000 => Pool.member (bcol3 V c (ix2 n (0 : Fin 1))) g)]
  refine (cntAt3_apply V c g 19 last3).trans (Finset.sum_congr rfl fun t _ => Finset.sum_congr rfl fun p _ => ?_)
  exact congrArg (fun (a : BitVec 32) => Pool.member a g)
    (bidx3_apply V c ⟨t.val, Nat.lt_of_lt_of_le t.isLt last3⟩ p ⟨t.val * 5000 + p.val, by have := t.isLt; have := p.isLt; omega⟩ rfl)

abbrev result3 (c : Dev nD) : Vec Ideal S64x2 .f32 :=
  k3_pay4 (F := Ideal) (S3 V c) (C3 V c) (V c main_arg15) (V c main_arg16) (V c main_arg17) (V c main_arg18)

theorem flushed3_eq (c : Dev nD) (t : Fin cfg3.N) (hf : (cfg3.win 10).flush t = true) :
    (dat3 (F := Ideal) V c).flushed 10 t = ((cfg3.win 10).blk t).view.read (Elt Ideal) (result3 V c) := by
  have hN : t.val < 20 := lt_of_lt_of_eq t.isLt (show cfg3.N = 20 from N_3)
  have h19 : t.val % 20 = 19 := (flush3_10 t).mp hf
  obtain rfl : t = ⟨19, last3⟩ := Fin.ext (show t.val = 19 by omega)
  rw [read_blk3_10 (F := Ideal) c]
  show (cfg3.win 10).cut (grid3.coords ⟨19, last3⟩) ((dat3 (F := Ideal) V c).after 10 ⟨19, last3⟩) = _
  rw [after3_10]
  refine ((acc3_eq V c 19 last3).2.2 (by decide)).trans ?_
  rw [blk3_6_eq, blk3_7_eq, blk3_8_eq, blk3_9_eq]
  rfl

theorem covered3 (c : Dev nD) (i : ((cfg3.win 10).arr.view.loc ((c : Dev nD).tc : Thread nD τ)).2.ty.Idx) :
    ∃ t : Fin cfg3.N, (cfg3.win 10).flush t = true ∧ i ∈ ((cfg3.win 10).blk t).view.set := by
  obtain ⟨-, -, -, -, -, -, -, -, -, -, -, -, -, -, -, e0, e1⟩ := block_indices3 ⟨19, last3⟩
  refine ⟨⟨19, last3⟩, (flush3_10 ⟨19, last3⟩).mpr (by decide), ?_⟩
  show i ∈ ((View.whole main_v50).slice (win3_10.rect ⟨19, last3⟩)).set
  rw [View.set_slice_whole, Rect.mem_set_unit]
  intro a
  have h0 : (i 0 : Nat) < 64 := (i 0).isLt
  have h1 : (i 1 : Nat) < 2 := (i 1).isLt
  match a with
  | ⟨0, _⟩ => show win3_10.index ⟨19, last3⟩ (0 : Fin 2) * 64 ≤ (i 0 : Nat) ∧ (i 0 : Nat) < win3_10.index ⟨19, last3⟩ (0 : Fin 2) * 64 + 64; omega
  | ⟨1, _⟩ => show win3_10.index ⟨19, last3⟩ (1 : Fin 2) * 2 ≤ (i 1 : Nat) ∧ (i 1 : Nat) < win3_10.index ⟨19, last3⟩ (1 : Fin 2) * 2 + 2; omega

theorem val3 (c : Dev nD) :
    (dat3 (F := Ideal) V c).arrAt 10 cfg3.N
      = k3_pay4 (F := Ideal) (S3 V c) (C3 V c) (V c main_arg15) (V c main_arg16) (V c main_arg17) (V c main_arg18) :=
  (dat3 (F := Ideal) V c).arrAt_eq_of_cover 10 (result3 V c) (flushed3_eq V c) (covered3 c)

end AtIdeal

end Cert.Bridge.Val3

end
-- ==== Proof.Bridge.ChainPool.lean ====
import proofs.«427718_j18545668784934_3_alg».proof.Proof.KernelIdeal.Run
import proofs.«427718_j18545668784934_3_alg».proof.Proof.Reference.ReadP
import proofs.«427718_j18545668784934_3_alg».proof.Proof.Bridge.KHost
import proofs.«427718_j18545668784934_3_alg».proof.Proof.Bridge.LayerNorm
import proofs.«427718_j18545668784934_3_alg».proof.Proof.Bridge.LayerNormRef
import proofs.«427718_j18545668784934_3_alg».proof.Proof.Bridge.PoolMlp
import proofs.«427718_j18545668784934_3_alg».proof.Proof.Bridge.RefConv
import proofs.«427718_j18545668784934_3_alg».proof.Proof.Bridge.Val3
import Idealize.ShloMosaic.Lib.Pipeline.Value
import Idealize.ShloMosaic.Lib.ValueIdx

noncomputable section

open scoped BigOperators

namespace Cert.Bridge

open Cert.KernelIdeal Cert.KernelIdeal.Gen Cert.KernelIdeal.Fr
open Idealize.ShloMosaic Idealize.ShloMosaic.TcCoe Idealize.ShloMosaic.ValueIdx Idealize.SL.Sem

theorem batchColOf_apply (b : Vec Ideal S100000 .i32) (n : Fin 100000) :
    KHost.batchColOf (F := Ideal) b (ix2 n (0 : Fin 1)) = b (ix1 n) := by
  unfold KHost.batchColOf
  exact broadcastInDim_apply _ bcast_S100000_S100000x1_0 b (ix2 n (0 : Fin 1)) (ix1 n) (fun a => match a with
    | ⟨0, _⟩ => by show n.val = if (100000 : Nat) = 1 then 0 else n.val; rw [if_neg (by decide)])

theorem ref_bias3_apply (x12 : (⟨Cert.ReferenceIdeal.S128, .f32⟩ : BufTy).Contents (Elt Ideal)) (n : Fin 100000)
    (cc : Fin 128) : Cert.ReferenceIdeal.Read.val_main_v126 (F := Ideal) x12 (ix2 n cc) = x12 (ix1 cc) := by
  rw [Cert.ReferenceIdeal.Read.val_main_v126_apply, Cert.ReferenceIdeal.Read.val_main_v125_apply]
  exact congrArg x12 (funext fun a => Fin.ext (by match a with | ⟨0, _⟩ => rfl))

section Core
variable (V : (c : Dev nD) → (b : Ref sig .tc) → Buf (Elt Ideal) ((c : Thread nD τ).loc b)) (c : Dev nD)
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x128, .f32⟩ : BufTy).Contents (Elt Ideal))
  (x4 x5 x6 : (⟨Cert.ReferenceIdeal.S128, .f32⟩ : BufTy).Contents (Elt Ideal)) (x7 : (⟨Cert.ReferenceIdeal.S128x128, .f32⟩ : BufTy).Contents (Elt Ideal))
  (x8 x9 x10 : (⟨Cert.ReferenceIdeal.S128, .f32⟩ : BufTy).Contents (Elt Ideal)) (x11 : (⟨Cert.ReferenceIdeal.S128x128, .f32⟩ : BufTy).Contents (Elt Ideal))
  (x12 x13 x14 : (⟨Cert.ReferenceIdeal.S128, .f32⟩ : BufTy).Contents (Elt Ideal)) (x15 : (⟨Cert.ReferenceIdeal.S128x64, .f32⟩ : BufTy).Contents (Elt Ideal))
  (x16 : (⟨Cert.ReferenceIdeal.S64, .f32⟩ : BufTy).Contents (Elt Ideal)) (x17 : (⟨Cert.ReferenceIdeal.S64x2, .f32⟩ : BufTy).Contents (Elt Ideal))
  (x18 : (⟨Cert.ReferenceIdeal.S2, .f32⟩ : BufTy).Contents (Elt Ideal))

theorem pool_of_agg3
    (h6 : ∀ i : Cert.ReferenceIdeal.S100000x128.Idx,
      Val3.rows3 V c i * Cert.ReferenceIdeal.Read.val_main_v11 (F := Ideal) x1 (nodeOf i)
        = Cert.ReferenceIdeal.Read.val_main_v124 (F := Ideal) x0 x1 x3 x4 x5 x6 x7 x8 x9 x10 x11 i)
    (hd : ∀ n : Fin 100000, Val3.dinv3 V c (ix2 n (0 : Fin 1)) = Cert.ReferenceIdeal.Read.val_main_v11 (F := Ideal) x1 (ix1 n))
    (hb : Val3.bcol3 V c = KHost.batchColOf x2)
    (h12 : Val3.bias3 V c = x12) (h13 : Val3.gain3 V c = x13) (h14 : Val3.beta3 V c = x14)
    (h15 : V c main_arg15 = x15) (h16 : V c main_arg16 = x16) (h17 : V c main_arg17 = x17) (h18 : V c main_arg18 = x18) :
    k3_pay4 (F := Ideal) (Val3.S3 V c) (Val3.C3 V c) (V c main_arg15) (V c main_arg16) (V c main_arg17) (V c main_arg18)
      = Cert.ReferenceIdeal.Read.val_main_v173 (F := Ideal) x0 x1 x2 x3 x4 x5 x6 x7 x8 x9 x10 x11 x12 x13 x14 x15 x16 x17 x18 := by
  rw [h15, h16, h17, h18]
  have hword : ∀ n : Fin 100000, Val3.bcol3 V c (ix2 n (0 : Fin 1)) = x2 (ix1 n) := fun n => by
    rw [hb]; exact batchColOf_apply x2 n
  refine Pool.logits_eq x0 x1 x2 x3 x4 x5 x6 x7 x8 x9 x10 x11 x12 x13 x14 x15 x16 x17 x18 (Val3.S3 V c) (Val3.C3 V c) (fun g q => ?_) (fun g => ?_)
  · rw [Val3.S3_apply]
    refine Finset.sum_congr rfl fun n _ => ?_
    have eA : (fun cc : Fin 128 => Val3.rows3 V c (ix2 n cc) * Val3.dinv3 V c (ix2 n (0 : Fin 1)) + Val3.bias3 V c (ix1 cc))
        = fun cc => Cert.ReferenceIdeal.Read.val_main_v127 (F := Ideal) x0 x1 x3 x4 x5 x6 x7 x8 x9 x10 x11 x12 (ix2 n cc) := by
      funext cc
      rw [Cert.ReferenceIdeal.Read.val_main_v127_apply, ← h6 (ix2 n cc), hd n, h12, ref_bias3_apply x12 n cc]
      rfl
    have eG : (fun k : Fin 128 => Val3.gain3 V c (ix1 k)) = fun cc => x13 (ix1 cc) := by rw [h13]
    have eB : (fun k : Fin 128 => Val3.beta3 V c (ix1 k)) = fun cc => x14 (ix1 cc) := by rw [h14]
    have key : Val3.H3 V c n q
        = lnRow (fun cc => Cert.ReferenceIdeal.Read.val_main_v127 (F := Ideal) x0 x1 x3 x4 x5 x6 x7 x8 x9 x10 x11 x12 (ix2 n cc))
            (fun cc => x13 (ix1 cc)) (fun cc => x14 (ix1 cc)) q :=
      show lnRow (fun cc : Fin 128 => Val3.rows3 V c (ix2 n cc) * Val3.dinv3 V c (ix2 n (0 : Fin 1)) + Val3.bias3 V c (ix1 cc))
          (fun k : Fin 128 => Val3.gain3 V c (ix1 k)) (fun k : Fin 128 => Val3.beta3 V c (ix1 k)) q = _ from by
        rw [eA, eG, eB]
    rw [hword n, ref_ln3_apply x0 x1 x3 x4 x5 x6 x7 x8 x9 x10 x11 x12 x13 x14 n q, key]
  · rw [Val3.C3_apply]
    exact Finset.sum_congr rfl fun n _ => by rw [hword n]

end Core

section Entry
variable (m : (ℓ : Loc nD τ sig) → Buf (Elt Ideal) ℓ) (ρ : Dev nD → PrngReg) (c : Dev nD)

set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)
local notation "x₁₁" => m ((c : Thread nD τ).loc main_arg11)
local notation "x₁₂" => m ((c : Thread nD τ).loc main_arg12)
local notation "x₁₃" => m ((c : Thread nD τ).loc main_arg13)
local notation "x₁₄" => m ((c : Thread nD τ).loc main_arg14)
local notation "x₁₅" => m ((c : Thread nD τ).loc main_arg15)
local notation "x₁₆" => m ((c : Thread nD τ).loc main_arg16)
local notation "x₁₇" => m ((c : Thread nD τ).loc main_arg17)
local notation "x₁₈" => m ((c : Thread nD τ).loc main_arg18)

namespace PoolStep

theorem entry_arg2 : W7 (F := Ideal) m ρ c (Proc.devRef .tc main_arg2) = x₂ :=
  (W8_keep m ρ c main_arg2 (by decide)).symm.trans (W8_arg m ρ c main_arg2 (by decide))
theorem entry_arg12 : W7 (F := Ideal) m ρ c (Proc.devRef .tc main_arg12) = x₁₂ :=
  (W8_keep m ρ c main_arg12 (by decide)).symm.trans (W8_arg m ρ c main_arg12 (by decide))
theorem entry_arg13 : W7 (F := Ideal) m ρ c (Proc.devRef .tc main_arg13) = x₁₃ :=
  (W8_keep m ρ c main_arg13 (by decide)).symm.trans (W8_arg m ρ c main_arg13 (by decide))
theorem entry_arg14 : W7 (F := Ideal) m ρ c (Proc.devRef .tc main_arg14) = x₁₄ :=
  (W8_keep m ρ c main_arg14 (by decide)).symm.trans (W8_arg m ρ c main_arg14 (by decide))
theorem entry_arg15 : W7 (F := Ideal) m ρ c (Proc.devRef .tc main_arg15) = x₁₅ :=
  (W8_keep m ρ c main_arg15 (by decide)).symm.trans (W8_arg m ρ c main_arg15 (by decide))
theorem entry_arg16 : W7 (F := Ideal) m ρ c (Proc.devRef .tc main_arg16) = x₁₆ :=
  (W8_keep m ρ c main_arg16 (by decide)).symm.trans (W8_arg m ρ c main_arg16 (by decide))
theorem entry_arg17 : W7 (F := Ideal) m ρ c (Proc.devRef .tc main_arg17) = x₁₇ :=
  (W8_keep m ρ c main_arg17 (by decide)).symm.trans (W8_arg m ρ c main_arg17 (by decide))
theorem entry_arg18 : W7 (F := Ideal) m ρ c (Proc.devRef .tc main_arg18) = x₁₈ :=
  (W8_keep m ρ c main_arg18 (by decide)).symm.trans (W8_arg m ρ c main_arg18 (by decide))

theorem before_arg2 : W6 (F := Ideal) m ρ c (Proc.devRef .tc main_arg2) = x₂ :=
  (W7_keep m ρ c main_arg2 (by decide)).symm.trans (entry_arg2 m ρ c)

theorem entry_batchCol : W7 (F := Ideal) m ρ c (Proc.devRef .tc main_v49) = KHost.batchColOf x₂ :=
  (KHost.after3_v49 (W6 (F := Ideal) m ρ c)).trans (congrArg (KHost.batchColOf (F := Ideal)) (before_arg2 m ρ c))

end PoolStep

theorem result_of_agg3
    (h6 : ∀ i : Cert.ReferenceIdeal.S100000x128.Idx,
      Val3.rows3 (V7 (F := Ideal) m ρ) c i * Cert.ReferenceIdeal.Read.val_main_v11 (F := Ideal) x₁ (nodeOf i)
        = Cert.ReferenceIdeal.Read.val_main_v124 (F := Ideal) x₀ x₁ x₃ x₄ x₅ x₆ x₇ x₈ x₉ x₁₀ x₁₁ i)
    (hd : ∀ n : Fin 100000, W7 (F := Ideal) m ρ c (Proc.devRef .tc main_v12) (ix2 n (0 : Fin 1))
        = Cert.ReferenceIdeal.Read.val_main_v11 (F := Ideal) x₁ (ix1 n)) :
    W8 (F := Ideal) m ρ c (Proc.devRef .tc main_v50)
      = Cert.ReferenceIdeal.Read.val_main_v173 (F := Ideal) x₀ x₁ x₂ x₃ x₄ x₅ x₆ x₇ x₈ x₉ x₁₀ x₁₁ x₁₂ x₁₃ x₁₄ x₁₅ x₁₆ x₁₇ x₁₈ := by
  rw [W8_out, Val3.val3 (V7 (F := Ideal) m ρ) c]
  exact pool_of_agg3 (V7 (F := Ideal) m ρ) c x₀ x₁ x₂ x₃ x₄ x₅ x₆ x₇ x₈ x₉ x₁₀ x₁₁ x₁₂ x₁₃ x₁₄ x₁₅ x₁₆ x₁₇ x₁₈ h6 hd
    (PoolStep.entry_batchCol m ρ c) (PoolStep.entry_arg12 m ρ c) (PoolStep.entry_arg13 m ρ c) (PoolStep.entry_arg14 m ρ c)
    (PoolStep.entry_arg15 m ρ c) (PoolStep.entry_arg16 m ρ c) (PoolStep.entry_arg17 m ρ c) (PoolStep.entry_arg18 m ρ c)

end Entry

end Cert.Bridge

end
-- ==== Proof.Bridge.Result.lean ====
import proofs.«427718_j18545668784934_3_alg».proof.Proof.Bridge.Chain
import proofs.«427718_j18545668784934_3_alg».proof.Proof.Bridge.ChainPool

noncomputable section

namespace Cert.Bridge

open Cert.KernelIdeal Cert.KernelIdeal.Gen Cert.KernelIdeal.Fr
open Idealize.ShloMosaic Idealize.ShloMosaic.TcCoe Idealize.SL.Sem

theorem kernel_result (m : (ℓ : Loc nD τ sig) → Buf (Elt Ideal) ℓ) (ρ : Dev nD → PrngReg) (c : Dev nD) :
    Cert.KernelIdeal.Fr.W8 (F := Ideal) m ρ c (Proc.devRef .tc Cert.KernelIdeal.main_v50)
      = Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  result_of_agg3 m ρ c (agg3_W7 m ρ c) (W7_v12_apply m ρ c)

end Cert.Bridge

end
-- ==== Proof.Bridge.Claims.lean ====
import proofs.«427718_j18545668784934_3_alg».proof.Defs
import proofs.«427718_j18545668784934_3_alg».proof.Proof.KernelIdeal.Run
import proofs.«427718_j18545668784934_3_alg».proof.Proof.Bridge.Result
import proofs.«427718_j18545668784934_3_alg».proof.Proof.Reference.Run
import proofs.«427718_j18545668784934_3_alg».proof.Proof.Gen.Pre_finite_inputs

noncomputable section

namespace Cert.Bridge

open Idealize.ShloMosaic Idealize.ShloMosaic.TcCoe Idealize.SL.Sem
open Cert.KernelIdeal

theorem algebraic : Cert.algebraic_KernelIdeal_ReferenceIdeal := by
  intro m g m' g' _ hagree
  refine ⟨fun c => Fr.W8 (F := Ideal) m g c (Proc.devRef .tc main_v50), ?_, ?_⟩
  · exact Fr.run_result (F := Ideal) m g
  ·
    refine (θ_run (Cert.ReferenceIdeal.defs (F := Ideal)) _ _).mono (fun r h c => ⟨(h c).1.trans ?_, (h c).2⟩)
      (Cert.ReferenceIdeal.RefRun.run (F := Ideal) m' g')
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    exact (kernel_result m g c).symm

end Cert.Bridge

end
-- ==== Proof.lean ====
import proofs.«427718_j18545668784934_3_alg».proof.Defs
import proofs.«427718_j18545668784934_3_alg».proof.Proof.Gen.Kernel
import proofs.«427718_j18545668784934_3_alg».proof.Proof.Gen.KernelIdeal
import proofs.«427718_j18545668784934_3_alg».proof.Proof.Gen.ReferenceIdeal
import proofs.«427718_j18545668784934_3_alg».proof.Proof.Gen.Pre_finite_inputs
import proofs.«427718_j18545668784934_3_alg».proof.Proof.Kernel.Run
import proofs.«427718_j18545668784934_3_alg».proof.Proof.KernelIdeal.Run
import proofs.«427718_j18545668784934_3_alg».proof.Proof.Reference.Run
import proofs.«427718_j18545668784934_3_alg».proof.Proof.Bridge.Claims
import Idealize.ShloMosaic.Adequacy
import Idealize.ShloMosaic.Init

noncomputable section

namespace Cert.Proof

open Idealize.ShloMosaic Idealize.SL.Sem

-- the three frames, the empty ledger, and the value claim
theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => (h c).2) (Cert.Kernel.Fr.run_result m ρ),
  fun m ρ _ => (θ_run Cert.KernelIdeal.defs _ _).mono (fun _ h c => (h c).2) (Cert.KernelIdeal.Fr.run_result m ρ),
  fun m ρ _ => (θ_run Cert.ReferenceIdeal.defs _ _).mono (fun _ h c => (h c).2) (Cert.ReferenceIdeal.RefRun.run (F := Ideal) m ρ),
  trivial,
  Cert.Bridge.algebraic⟩

end Cert.Proof

end
